-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8192 : Shape := ⟨2, ![512, 8192]⟩
abbrev S8192x8192 : Shape := ⟨2, ![8192, 8192]⟩
abbrev S8192x64 : Shape := ⟨2, ![8192, 64]⟩
abbrev S4x64 : Shape := ⟨2, ![4, 64]⟩
abbrev S128x8192 : Shape := ⟨2, ![128, 8192]⟩
abbrev S128 : Shape := ⟨1, ![128]⟩
abbrev S_ : Shape := ⟨0, ![]⟩

class Facts : Prop where
  bcast_S_S512x8192 : S_.BroadcastsInDim S512x8192 (![] : Fin 0 → Fin S512x8192.rank)
  reducesTo_S512x8192_S_d0_1 : S512x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192x64 : S_.BroadcastsInDim S8192x64 (![] : Fin 0 → Fin S8192x64.rank)
  reducesTo_S8192x64_S_d0_1 : S8192x64.ReducesTo [0, 1] S_
  bcast_S_S4x64 : S_.BroadcastsInDim S4x64 (![] : Fin 0 → Fin S4x64.rank)
  reducesTo_S4x64_S_d0_1 : S4x64.ReducesTo [0, 1] S_
  bcast_S_S128x8192 : S_.BroadcastsInDim S128x8192 (![] : Fin 0 → Fin S128x8192.rank)
  reducesTo_S128x8192_S_d0_1 : S128x8192.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x8192 .f32) (main_arg5 : FVec F S128 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S128x8192 .f32 := Host.absf main_arg4
  let main_cst_6 : FVec F S_ .f32 := constant S_ .f32 0x7F800000#32
  let main_v20 : FVec F S128x8192 .f32 := broadcastInDim S128x8192 ![] bcast_S_S128x8192 main_cst_6
  let main_v21 : IVec S128x8192 1 := cmpf .olt main_v19 main_v20
  let main_c_7 : IVec S_ 1 := constantI S_ 1 1#1
  let main_v22 : IVec S_ 1 := (fun x v => Host.reduce IntOp.andi x v reducesTo_S128x8192_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S512x8192 .f32) (main_arg1 : FVec F S8192x8192 .f32) (main_arg2 : FVec F S8192x64 .f32) (main_arg3 : FVec F S4x64 .f32) (main_arg4 : FVec F S128x8192 .f32) (main_arg5 : FVec F S128 .f32) : IVec S_ 1 :=
  let main_v0 : FVec F S512x8192 .f32 := Host.absf main_arg0
  let main_cst : FVec F S_ .f32 := constant S_ .f32 0x7F800000#32
  let main_v1 : FVec F S512x8192 .f32 := broadcastInDim S512x8192 ![] bcast_S_S512x8192 main_cst
  let main_v2 : IVec S512x8192 1 := cmpf .olt main_v0 main_v1
  let main_c : IVec S_ 1 := constantI S_ 1 1#1
  let main_v3 : IVec S_ 1 := (fun x v => Host.reduce IntOp.andi x v reducesTo_S512x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg4 main_arg5 main_v13 main_v16
-- ==== Kernel.lean ====
abbrev S512x8192 : Shape := ⟨2, ![512, 8192]⟩
abbrev S8192x8192 : Shape := ⟨2, ![8192, 8192]⟩
abbrev S8192x64 : Shape := ⟨2, ![8192, 64]⟩
abbrev S4x64 : Shape := ⟨2, ![4, 64]⟩
abbrev S128x8192 : Shape := ⟨2, ![128, 8192]⟩
abbrev S128 : Shape := ⟨1, ![128]⟩
abbrev S_ : Shape := ⟨0, ![]⟩
abbrev S4 : Shape := ⟨1, ![4]⟩
abbrev S4x1 : Shape := ⟨2, ![4, 1]⟩
abbrev S8192 : Shape := ⟨1, ![8192]⟩
abbrev S8192x1 : Shape := ⟨2, ![8192, 1]⟩
abbrev S64x4 : Shape := ⟨2, ![64, 4]⟩
abbrev S8192x4 : Shape := ⟨2, ![8192, 4]⟩
abbrev S4x8192 : Shape := ⟨2, ![4, 8192]⟩
abbrev S2048x8192 : Shape := ⟨2, ![2048, 8192]⟩
abbrev S1x8192 : Shape := ⟨2, ![1, 8192]⟩
abbrev S128x1 : Shape := ⟨2, ![128, 1]⟩
abbrev S256x512 : Shape := ⟨2, ![256, 512]⟩
abbrev S2048x512 : Shape := ⟨2, ![2048, 512]⟩
abbrev S2048x256 : Shape := ⟨2, ![2048, 256]⟩
abbrev S2048x128 : Shape := ⟨2, ![2048, 128]⟩
abbrev S1024x512 : Shape := ⟨2, ![1024, 512]⟩
abbrev S128x512 : Shape := ⟨2, ![128, 512]⟩
abbrev S1024x128 : Shape := ⟨2, ![1024, 128]⟩
abbrev S1x128 : Shape := ⟨2, ![1, 128]⟩
abbrev S4x512x128 : Shape := ⟨3, ![4, 512, 128]⟩
abbrev S4x512x64 : Shape := ⟨3, ![4, 512, 64]⟩
abbrev S4x512 : Shape := ⟨2, ![4, 512]⟩
abbrev S4x512x1 : Shape := ⟨3, ![4, 512, 1]⟩
abbrev S2048x64 : Shape := ⟨2, ![2048, 64]⟩
abbrev S512x64 : Shape := ⟨2, ![512, 64]⟩
abbrev S1024x64 : Shape := ⟨2, ![1024, 64]⟩
abbrev S4x1024 : Shape := ⟨2, ![4, 1024]⟩
abbrev S512x1024 : Shape := ⟨2, ![512, 1024]⟩
abbrev S1x1024 : Shape := ⟨2, ![1, 1024]⟩
abbrev S1024 : Shape := ⟨1, ![1024]⟩

abbrev nBuf : Space → Nat
  | .hbm => 78
  | .vmem => 36
  | .smem => 0
  | _ => 0

abbrev bufTy : (tb : Table) → Fin (tcTables nBuf tb) → BufTy
  | .hbm, ⟨0, _⟩ => ⟨S512x8192, .f32⟩
  | .hbm, ⟨1, _⟩ => ⟨S8192x8192, .f32⟩
  | .hbm, ⟨2, _⟩ => ⟨S8192x64, .f32⟩
  | .hbm, ⟨3, _⟩ => ⟨S4x64, .f32⟩
  | .hbm, ⟨4, _⟩ => ⟨S128x8192, .f32⟩
  | .hbm, ⟨5, _⟩ => ⟨S128, .f32⟩
  | .hbm, ⟨6, _⟩ => ⟨S4x64, .f32⟩
  | .hbm, ⟨7, _⟩ => ⟨S_, .f32⟩
  | .hbm, ⟨8, _⟩ => ⟨S4, .f32⟩
  | .hbm, ⟨9, _⟩ => ⟨S4x1, .f32⟩
  | .hbm, ⟨10, _⟩ => ⟨S4x1, .f32⟩
  | .hbm, ⟨11, _⟩ => ⟨S_, .f32⟩
  | .hbm, ⟨12, _⟩ => ⟨S4x1, .f32⟩
  | .hbm, ⟨13, _⟩ => ⟨S4x1, .f32⟩
  | .hbm, ⟨14, _⟩ => ⟨S4x64, .f32⟩
  | .hbm, ⟨15, _⟩ => ⟨S4x64, .f32⟩
  | .hbm, ⟨16, _⟩ => ⟨S8192x64, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x64, .f32⟩
  | .hbm, ⟨25, _⟩ => ⟨S8192x64, .f32⟩
  | .hbm, ⟨26, _⟩ => ⟨S64x4, .f32⟩
  | .hbm, ⟨27, _⟩ => ⟨S8192x4, .f32⟩
  | .hbm, ⟨28, _⟩ => ⟨S_, .f32⟩
  | .hbm, ⟨29, _⟩ => ⟨S8192x4, .f32⟩
  | .hbm, ⟨30, _⟩ => ⟨S8192x4, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192x1, .f32⟩
  | .hbm, ⟨37, _⟩ => ⟨S8192x4, .f32⟩
  | .hbm, ⟨38, _⟩ => ⟨S8192x4, .f32⟩
  | .hbm, ⟨39, _⟩ => ⟨S8192x4, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x4, .f32⟩
  | .hbm, ⟨44, _⟩ => ⟨S8192x4, .f32⟩
  | .hbm, ⟨45, _⟩ => ⟨S4x8192, .f32⟩
  | .hbm, ⟨46, _⟩ => ⟨S2048x8192, .bf16⟩
  | .hbm, ⟨47, _⟩ => ⟨S2048x8192, .bf16⟩
  | .hbm, ⟨48, _⟩ => ⟨S2048x8192, .bf16⟩
  | .hbm, ⟨49, _⟩ => ⟨S2048x128, .f32⟩
  | .hbm, ⟨50, _⟩ => ⟨S4x512x128, .f32⟩
  | .hbm, ⟨51, _⟩ => ⟨S4x512x64, .f32⟩
  | .hbm, ⟨52, _⟩ => ⟨S4x512x64, .f32⟩
  | .hbm, ⟨53, _⟩ => ⟨S_, .f32⟩
  | .hbm, ⟨54, _⟩ => ⟨S4x512, .f32⟩
  | .hbm, ⟨55, _⟩ => ⟨S4x512x1, .f32⟩
  | .hbm, ⟨56, _⟩ => ⟨S4x512x1, .f32⟩
  | .hbm, ⟨57, _⟩ => ⟨S_, .f32⟩
  | .hbm, ⟨58, _⟩ => ⟨S4x512x1, .f32⟩
  | .hbm, ⟨59, _⟩ => ⟨S4x512x1, .f32⟩
  | .hbm, ⟨60, _⟩ => ⟨S4x512x64, .f32⟩
  | .hbm, ⟨61, _⟩ => ⟨S4x512x64, .f32⟩
  | .hbm, ⟨62, _⟩ => ⟨S4x512x64, .f32⟩
  | .hbm, ⟨63, _⟩ => ⟨S4x512x64, .f32⟩
  | .hbm, ⟨64, _⟩ => ⟨S4x512x64, .f32⟩
  | .hbm, ⟨65, _⟩ => ⟨S_, .f32⟩
  | .hbm, ⟨66, _⟩ => ⟨S4x512, .f32⟩
  | .hbm, ⟨67, _⟩ => ⟨S4x512x1, .f32⟩
  | .hbm, ⟨68, _⟩ => ⟨S4x512x1, .f32⟩
  | .hbm, ⟨69, _⟩ => ⟨S_, .f32⟩
  | .hbm, ⟨70, _⟩ => ⟨S4x512x1, .f32⟩
  | .hbm, ⟨71, _⟩ => ⟨S4x512x1, .f32⟩
  | .hbm, ⟨72, _⟩ => ⟨S4x512x64, .f32⟩
  | .hbm, ⟨73, _⟩ => ⟨S4x512x64, .f32⟩
  | .hbm, ⟨74, _⟩ => ⟨S2048x64, .f32⟩
  | .hbm, ⟨75, _⟩ => ⟨S2048x64, .bf16⟩
  | .hbm, ⟨76, _⟩ => ⟨S8192x64, .bf16⟩
  | .hbm, ⟨77, _⟩ => ⟨S512x8192, .f32⟩
  | .local _ .vmem, ⟨0, _⟩ => ⟨S128x8192, .f32⟩
  | .local _ .vmem, ⟨1, _⟩ => ⟨S128x8192, .f32⟩
  | .local _ .vmem, ⟨2, _⟩ => ⟨S4x8192, .f32⟩
  | .local _ .vmem, ⟨3, _⟩ => ⟨S128x8192, .bf16⟩
  | .local _ .vmem, ⟨4, _⟩ => ⟨S128x8192, .bf16⟩
  | .local _ .vmem, ⟨5, _⟩ => ⟨S2048x8192, .bf16⟩
  | .local _ .vmem, ⟨6, _⟩ => ⟨S256x512, .f32⟩
  | .local _ .vmem, ⟨7, _⟩ => ⟨S256x512, .f32⟩
  | .local _ .vmem, ⟨8, _⟩ => ⟨S2048x512, .bf16⟩
  | .local _ .vmem, ⟨9, _⟩ => ⟨S2048x512, .bf16⟩
  | .local _ .vmem, ⟨10, _⟩ => ⟨S2048x512, .f32⟩
  | .local _ .vmem, ⟨11, _⟩ => ⟨S2048x8192, .bf16⟩
  | .local _ .vmem, ⟨12, _⟩ => ⟨S256x512, .f32⟩
  | .local _ .vmem, ⟨13, _⟩ => ⟨S256x512, .f32⟩
  | .local _ .vmem, ⟨14, _⟩ => ⟨S2048x512, .bf16⟩
  | .local _ .vmem, ⟨15, _⟩ => ⟨S2048x512, .bf16⟩
  | .local _ .vmem, ⟨16, _⟩ => ⟨S2048x512, .f32⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S128x512, .f32⟩
  | .local _ .vmem, ⟨22, _⟩ => ⟨S128x512, .f32⟩
  | .local _ .vmem, ⟨23, _⟩ => ⟨S128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S512x64, .bf16⟩
  | .local _ .vmem, ⟨28, _⟩ => ⟨S512x64, .bf16⟩
  | .local _ .vmem, ⟨29, _⟩ => ⟨S1024x64, .bf16⟩
  | .local _ .vmem, ⟨30, _⟩ => ⟨S1024x64, .bf16⟩
  | .local _ .vmem, ⟨31, _⟩ => ⟨S4x1024, .f32⟩
  | .local _ .vmem, ⟨32, _⟩ => ⟨S4x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call2_v0 : Ref sig .tc := ⟨.hbm, 52, rfl⟩
abbrev main_call2_cst : Ref sig .tc := ⟨.hbm, 53, rfl⟩
abbrev main_call2_v1 : Ref sig .tc := ⟨.hbm, 54, rfl⟩
abbrev main_call2_v2 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call3_v0 : Ref sig .tc := ⟨.hbm, 64, rfl⟩
abbrev main_call3_cst : Ref sig .tc := ⟨.hbm, 65, rfl⟩
abbrev main_call3_v1 : Ref sig .tc := ⟨.hbm, 66, rfl⟩
abbrev main_call3_v2 : Ref sig .tc := ⟨.hbm, 67, rfl⟩
abbrev main_v39 : Ref sig .tc := ⟨.hbm, 68, rfl⟩
abbrev main_cst_6 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_scratch0 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc3_scratch0 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg1 : BitVec 32 := BitVec.ofNat 32 (i 1).val
  let v1 : Index := Scalar.indexCast arg1
  let c0_1 : Index := 0#32
  ![v1.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 32], ![false, false]⟩

def k1_mult1 (i : grid1.Coords) : BitVec 32 :=
  let arg1 : BitVec 32 := BitVec.ofNat 32 (i 1).val
  let c256_i32 : BitVec 32 := 256#32
  let v3 : BitVec 32 := Scalar.muli arg1 c256_i32
  v3
def k1_off1 (i : grid1.Coords) : Fin 2 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  ![0, v5.toNat]
def k1_cond2 (i : grid1.Coords) : BitVec 1 :=
  let arg1 : BitVec 32 := BitVec.ofNat 32 (i 1).val
  let c31_i32 : BitVec 32 := 31#32
  let v16 : BitVec 1 := Scalar.cmpi .eq arg1 c31_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S2048x8192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![16, 32], ![false, false]⟩

def k2_mult1 (i : grid2.Coords) : BitVec 32 :=
  let arg1 : BitVec 32 := BitVec.ofNat 32 (i 1).val
  let c256_i32 : BitVec 32 := 256#32
  let v3 : BitVec 32 := Scalar.muli arg1 c256_i32
  v3
def k2_off1 (i : grid2.Coords) : Fin 2 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  ![0, v5.toNat]
def k2_cond2 (i : grid2.Coords) : BitVec 1 :=
  let arg1 : BitVec 32 := BitVec.ofNat 32 (i 1).val
  let c31_i32 : BitVec 32 := 31#32
  let v16 : BitVec 1 := Scalar.cmpi .eq arg1 c31_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 1 → Memref sig .tc .vmem S2048x8192 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![2, 16], ![false, false]⟩

def k3_cond2 (i : grid3.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_11 : BitVec 32 := 0#32
  let v23 : BitVec 1 := Scalar.cmpi .ne v22 c0_i32_11
  v23

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S128x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![8, 4], ![false, false]⟩

def k4_off1 (i : grid4.Coords) : Fin 2 → Nat :=
  let arg1 : BitVec 32 := BitVec.ofNat 32 (i 1).val
  let v10 : Index := Scalar.indexCast arg1
  let c0_5 : Index := 0#32
  ![v10.toNat, 0]
def k4_cond2 (i : grid4.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_10 : BitVec 32 := 0#32
  let v24 : BitVec 1 := Scalar.cmpi .ne v23 c0_i32_10
  v24

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S512x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S4x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

class Facts₀ : Prop where
  reducesTo_S4x64_S4_d1 : S4x64.ReducesTo [1] S4
  h_S_ : 0 < S_.numel
  bcast_S4_S4x1_0 : S4.BroadcastsInDim S4x1 (![0] : Fin 1 → Fin S4x1.rank)
  bcast_S_S4x1 : S_.BroadcastsInDim S4x1 (![] : Fin 0 → Fin S4x1.rank)
  bcast_S4x1_S4x64_0_1 : S4x1.BroadcastsInDim S4x64 (![0, 1] : Fin 2 → Fin S4x64.rank)
  reducesTo_S8192x64_S8192_d1 : S8192x64.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S4x64_S64x4_1_0 : S4x64.Transposes [1, 0] S64x4
  bcast_S_S8192x4 : S_.BroadcastsInDim S8192x4 (![] : Fin 0 → Fin S8192x4.rank)
  reducesTo_S8192x4_S8192_d1 : S8192x4.ReducesTo [1] S8192
  bcast_S_S8192 : S_.BroadcastsInDim S8192 (![] : Fin 0 → Fin S8192.rank)
  bcast_S8192x1_S8192x4_0_1 : S8192x1.BroadcastsInDim S8192x4 (![0, 1] : Fin 2 → Fin S8192x4.rank)
  transposes_S8192x4_S4x8192_1_0 : S8192x4.Transposes [1, 0] S4x8192
  inb_S128x8192_S128x8192_0_0 : ∀ a, (![0, 0] : Fin 2 → Nat) a + S128x8192.size a ≤ S128x8192.size a
  h_S128x8192 : 0 < S128x8192.numel
  h_S1x8192 : 0 < S1x8192.numel
  shapeCasts_S1x8192_S8192 : S1x8192.ShapeCasts S8192
  shapeCasts_S8192_S1x8192 : S8192.ShapeCasts S1x8192
  broadcasts_S1x8192_S128x8192 : S1x8192.Broadcasts S128x8192
  reduces_S128x8192_S128 : S128x8192.Reduces [1] S128
  shapeCasts_S128_S128x1 : S128.ShapeCasts S128x1
  broadcasts_S128x1_S128x8192 : S128x1.Broadcasts S128x8192
  bitsLt_bf16_f32 : FTy.bits .bf16 < FTy.bits .f32
  packedbf16_S128x8192_S128x8192_0_0 : (Rect.unit (s := S128x8192) ![0, 0] S128x8192.size inb_S128x8192_S128x8192_0_0).PackedRows (EltTy.packing .bf16)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  h_S2048x256 : 0 < S2048x256.numel
  shapeCasts_S2048x256_S2048x256 : S2048x256.ShapeCasts S2048x256
  inb_S256x512_S256x512_0_0 : ∀ a, (![0, 0] : Fin 2 → Nat) a + S256x512.size a ≤ S256x512.size a
  h_S256x512 : 0 < S256x512.numel
  packedbf16_S2048x512_S2048x512_0_0 : (Rect.unit (s := S2048x512) ![0, 0] S2048x512.size inb_S2048x512_S2048x512_0_0).PackedRows (EltTy.packing .bf16)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S128x512_S128x512_0_0 : ∀ a, (![0, 0] : Fin 2 → Nat) a + S128x512.size a ≤ S128x512.size a
  h_S128x512 : 0 < S128x512.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  shapeCasts_S2048x128_S4x512x128 : S2048x128.ShapeCasts S4x512x128
  slices_S4x512x128_S4x512x64_0_0_0 : S4x512x128.Slices ![0, 0, 0] S4x512x64
  reducesTo_S4x512x64_S4x512_d2 : S4x512x64.ReducesTo [2] S4x512
  bcast_S4x512_S4x512x1_0_1 : S4x512.BroadcastsInDim S4x512x1 (![0, 1] : Fin 2 → Fin S4x512x1.rank)
  bcast_S_S4x512x1 : S_.BroadcastsInDim S4x512x1 (![] : Fin 0 → Fin S4x512x1.rank)
  bcast_S4x512x1_S4x512x64_0_1_2 : S4x512x1.BroadcastsInDim S4x512x64 (![0, 1, 2] : Fin 3 → Fin S4x512x64.rank)
  slices_S4x512x128_S4x512x64_0_0_64 : S4x512x128.Slices ![0, 0, 64] S4x512x64
  shapeCasts_S4x512x64_S2048x64 : S4x512x64.ShapeCasts S2048x64
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  h_S1x1024 : 0 < S1x1024.numel
  shapeCasts_S1x1024_S1024 : S1x1024.ShapeCasts S1024
  shapeCasts_S1024_S1x1024 : S1024.ShapeCasts S1x1024
  broadcasts_S1x1024_S512x1024 : S1x1024.Broadcasts S512x1024
  dot_S8192x64_S64x4_S8192x4_1_0_0_1_n_n_wf : DotDims.WF S8192x64 S64x4 S8192x4 [1] [0] [0] [1] [] []
  dot_S2048x256_S256x512_S2048x512_1_0_0_1_n_n_wf : DotDims.WF S2048x256 S256x512 S2048x512 [1] [0] [0] [1] [] []
  dot_S1024x512_S128x512_S1024x128_1_1_0_0_n_n_wf : DotDims.WF S1024x512 S128x512 S1024x128 [1] [1] [0] [0] [] []
  dot_S512x64_S1024x64_S512x1024_1_1_0_0_n_n_wf : DotDims.WF S512x64 S1024x64 S512x1024 [1] [1] [0] [0] [] []
  hrank0 : 0 < grid0.rank
  k0_off1_inb : ∀ i : grid0.Coords, ∀ a, (k0_off1 i) a + S1x8192.size a ≤ S4x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S512x8192.size a
  hwx0_0 : ∀ i : grid0.Coords, EltTy.bits .f32 = 32 ∨ (Rect.block (s := S512x8192) S128x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x8192.size a ≤ S4x8192.size a
  hwx0_1 : ∀ i : grid0.Coords, EltTy.bits .f32 = 32 ∨ (Rect.block (s := S4x8192) S4x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S2048x8192.size a
  hwx0_2 : ∀ i : grid0.Coords, EltTy.bits .bf16 = 32 ∨ (Rect.block (s := S2048x8192) S128x8192.size (cc0_transform_2 i) (hinb0_2 i)).WholeWords (EltTy.packing .bf16)
  hrank1 : 0 < grid1.rank
  k1_mult1_dvd : ∀ i : grid1.Coords, 256 ∣ (k1_mult1 i).toNat
  k1_off1_inb : ∀ i : grid1.Coords, ∀ a, (k1_off1 i) a + S2048x256.size a ≤ S2048x8192.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x8192.size a ≤ S2048x8192.size a
  hwx1_0 : ∀ i : grid1.Coords, EltTy.bits .bf16 = 32 ∨ (Rect.block (s := S2048x8192) S2048x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S8192x8192.size a
  hwx1_1 : ∀ i : grid1.Coords, EltTy.bits .f32 = 32 ∨ (Rect.block (s := S8192x8192) S256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S2048x8192.size a
  hwx1_2 : ∀ i : grid1.Coords, EltTy.bits .bf16 = 32 ∨ (Rect.block (s := S2048x8192) S2048x512.size (cc1_transform_2 i) (hinb1_2 i)).WholeWords (EltTy.packing .bf16)
  hrank2 : 0 < grid2.rank
  k2_mult1_dvd : ∀ i : grid2.Coords, 256 ∣ (k2_mult1 i).toNat
  k2_off1_inb : ∀ i : grid2.Coords, ∀ a, (k2_off1 i) a + S2048x256.size a ≤ S2048x8192.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x8192.size a ≤ S2048x8192.size a
  hwx2_0 : ∀ i : grid2.Coords, EltTy.bits .bf16 = 32 ∨ (Rect.block (s := S2048x8192) S2048x8192.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x512.size a ≤ S8192x8192.size a
  hwx2_1 : ∀ i : grid2.Coords, EltTy.bits .f32 = 32 ∨ (Rect.block (s := S8192x8192) S256x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x512.size a ≤ S2048x8192.size a
  hwx2_2 : ∀ i : grid2.Coords, EltTy.bits .bf16 = 32 ∨ (Rect.block (s := S2048x8192) S2048x512.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S2048x8192.size a
  hwx3_0 : ∀ i : grid3.Coords, EltTy.bits .bf16 = 32 ∨ (Rect.block (s := S2048x8192) S1024x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S2048x8192.size a
  hwx3_1 : ∀ i : grid3.Coords, EltTy.bits .bf16 = 32 ∨ (Rect.block (s := S2048x8192) S1024x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S128x512.size a ≤ S128x8192.size a
  hwx3_2 : ∀ i : grid3.Coords, EltTy.bits .f32 = 32 ∨ (Rect.block (s := S128x8192) S128x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x128.size a ≤ S2048x128.size a
  hwx3_4 : ∀ i : grid3.Coords, EltTy.bits .f32 = 32 ∨ (Rect.block (s := S2048x128) S1024x128.size (cc3_transform_4 i) (hinb3_4 i)).WholeWords (EltTy.packing .f32)
  hrank4 : 0 < grid4.rank
  k4_off1_inb : ∀ i : grid4.Coords, ∀ a, (k4_off1 i) a + S1x1024.size a ≤ S4x1024.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S2048x64.size a
  hwx4_0 : ∀ i : grid4.Coords, EltTy.bits .bf16 = 32 ∨ (Rect.block (s := S2048x64) S512x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x64.size a ≤ S8192x64.size a
  hwx4_1 : ∀ i : grid4.Coords, EltTy.bits .bf16 = 32 ∨ (Rect.block (s := S8192x64) S1024x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4x1024.size a ≤ S4x8192.size a
  hwx4_2 : ∀ i : grid4.Coords, EltTy.bits .f32 = 32 ∨ (Rect.block (s := S4x8192) S4x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S512x8192.size a
  hwx4_3 : ∀ i : grid4.Coords, EltTy.bits .f32 = 32 ∨ (Rect.block (s := S512x8192) S512x1024.size (cc4_transform_3 i) (hinb4_3 i)).WholeWords (EltTy.packing .f32)

variable [Facts₀]

def dot_S8192x64_S64x4_S8192x4_1_0_0_1_n_n : DotDims S8192x64 S64x4 S8192x4 where
  lhsContracting := [1]
  rhsContracting := [0]
  lhsNonContracting := [0]
  rhsNonContracting := [1]
  lhsBatch := []
  rhsBatch := []
  wf := dot_S8192x64_S64x4_S8192x4_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S1024x512_S128x512_S1024x128_1_1_0_0_n_n : DotDims S1024x512 S128x512 S1024x128 where
  lhsContracting := [1]
  rhsContracting := [1]
  lhsNonContracting := [0]
  rhsNonContracting := [0]
  lhsBatch := []
  rhsBatch := []
  wf := dot_S1024x512_S128x512_S1024x128_1_1_0_0_n_n_wf
def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S4x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S2048x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2048x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v27) S2048x8192.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S256x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2048x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v28) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S128x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v29) S1024x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v45) S512x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S1024x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v25) S4x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v47) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S512x8192 : Shape := ⟨2, ![512, 8192]⟩
abbrev S8192x8192 : Shape := ⟨2, ![8192, 8192]⟩
abbrev S8192x64 : Shape := ⟨2, ![8192, 64]⟩
abbrev S4x64 : Shape := ⟨2, ![4, 64]⟩
abbrev S128x8192 : Shape := ⟨2, ![128, 8192]⟩
abbrev S128 : Shape := ⟨1, ![128]⟩
abbrev S_ : Shape := ⟨0, ![]⟩
abbrev S4 : Shape := ⟨1, ![4]⟩
abbrev S4x1 : Shape := ⟨2, ![4, 1]⟩
abbrev S8192 : Shape := ⟨1, ![8192]⟩
abbrev S8192x1 : Shape := ⟨2, ![8192, 1]⟩
abbrev S64x4 : Shape := ⟨2, ![64, 4]⟩
abbrev S8192x4 : Shape := ⟨2, ![8192, 4]⟩
abbrev S1x512x8192 : Shape := ⟨3, ![1, 512, 8192]⟩
abbrev S4x8192 : Shape := ⟨2, ![4, 8192]⟩
abbrev S4x1x8192 : Shape := ⟨3, ![4, 1, 8192]⟩
abbrev S4x512x8192 : Shape := ⟨3, ![4, 512, 8192]⟩
abbrev S4x512 : Shape := ⟨2, ![4, 512]⟩
abbrev S4x512x1 : Shape := ⟨3, ![4, 512, 1]⟩
abbrev S4x512x128 : Shape := ⟨3, ![4, 512, 128]⟩
abbrev S1x1x128 : Shape := ⟨3, ![1, 1, 128]⟩
abbrev S4x512x64 : Shape := ⟨3, ![4, 512, 64]⟩

abbrev nBuf : Space → Nat
  | .hbm => 106
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S8192x8192, .f32⟩
  | .hbm, ⟨2, _⟩ => ⟨S8192x64, .f32⟩
  | .hbm, ⟨3, _⟩ => ⟨S4x64, .f32⟩
  | .hbm, ⟨4, _⟩ => ⟨S128x8192, .f32⟩
  | .hbm, ⟨5, _⟩ => ⟨S128, .f32⟩
  | .hbm, ⟨6, _⟩ => ⟨S4x64, .f32⟩
  | .hbm, ⟨7, _⟩ => ⟨S_, .f32⟩
  | .hbm, ⟨8, _⟩ => ⟨S4, .f32⟩
  | .hbm, ⟨9, _⟩ => ⟨S4x1, .f32⟩
  | .hbm, ⟨10, _⟩ => ⟨S4x1, .f32⟩
  | .hbm, ⟨11, _⟩ => ⟨S_, .f32⟩
  | .hbm, ⟨12, _⟩ => ⟨S4x1, .f32⟩
  | .hbm, ⟨13, _⟩ => ⟨S4x1, .f32⟩
  | .hbm, ⟨14, _⟩ => ⟨S4x64, .f32⟩
  | .hbm, ⟨15, _⟩ => ⟨S4x64, .f32⟩
  | .hbm, ⟨16, _⟩ => ⟨S8192x64, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x64, .f32⟩
  | .hbm, ⟨25, _⟩ => ⟨S8192x64, .f32⟩
  | .hbm, ⟨26, _⟩ => ⟨S64x4, .f32⟩
  | .hbm, ⟨27, _⟩ => ⟨S8192x4, .f32⟩
  | .hbm, ⟨28, _⟩ => ⟨S_, .f32⟩
  | .hbm, ⟨29, _⟩ => ⟨S8192x4, .f32⟩
  | .hbm, ⟨30, _⟩ => ⟨S8192x4, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192x1, .f32⟩
  | .hbm, ⟨37, _⟩ => ⟨S8192x4, .f32⟩
  | .hbm, ⟨38, _⟩ => ⟨S8192x4, .f32⟩
  | .hbm, ⟨39, _⟩ => ⟨S8192x4, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x4, .f32⟩
  | .hbm, ⟨44, _⟩ => ⟨S8192x4, .f32⟩
  | .hbm, ⟨45, _⟩ => ⟨S1x512x8192, .f32⟩
  | .hbm, ⟨46, _⟩ => ⟨S4x8192, .f32⟩
  | .hbm, ⟨47, _⟩ => ⟨S4x1x8192, .f32⟩
  | .hbm, ⟨48, _⟩ => ⟨S4x512x8192, .f32⟩
  | .hbm, ⟨49, _⟩ => ⟨S4x512x8192, .f32⟩
  | .hbm, ⟨50, _⟩ => ⟨S4x512x8192, .f32⟩
  | .hbm, ⟨51, _⟩ => ⟨S4x512x8192, .f32⟩
  | .hbm, ⟨52, _⟩ => ⟨S_, .f32⟩
  | .hbm, ⟨53, _⟩ => ⟨S4x512, .f32⟩
  | .hbm, ⟨54, _⟩ => ⟨S4x512x1, .f32⟩
  | .hbm, ⟨55, _⟩ => ⟨S4x512x1, .f32⟩
  | .hbm, ⟨56, _⟩ => ⟨S_, .f32⟩
  | .hbm, ⟨57, _⟩ => ⟨S4x512x1, .f32⟩
  | .hbm, ⟨58, _⟩ => ⟨S4x512x1, .f32⟩
  | .hbm, ⟨59, _⟩ => ⟨S4x512x8192, .f32⟩
  | .hbm, ⟨60, _⟩ => ⟨S4x512x8192, .f32⟩
  | .hbm, ⟨61, _⟩ => ⟨S4x512x8192, .f32⟩
  | .hbm, ⟨62, _⟩ => ⟨S4x512x8192, .f32⟩
  | .hbm, ⟨63, _⟩ => ⟨S4x512x8192, .f32⟩
  | .hbm, ⟨64, _⟩ => ⟨S_, .f32⟩
  | .hbm, ⟨65, _⟩ => ⟨S4x512x8192, .f32⟩
  | .hbm, ⟨66, _⟩ => ⟨S4x512x8192, .f32⟩
  | .hbm, ⟨67, _⟩ => ⟨S4x512x128, .f32⟩
  | .hbm, ⟨68, _⟩ => ⟨S1x1x128, .f32⟩
  | .hbm, ⟨69, _⟩ => ⟨S4x512x128, .f32⟩
  | .hbm, ⟨70, _⟩ => ⟨S4x512x128, .f32⟩
  | .hbm, ⟨71, _⟩ => ⟨S4x512x64, .f32⟩
  | .hbm, ⟨72, _⟩ => ⟨S4x512x64, .f32⟩
  | .hbm, ⟨73, _⟩ => ⟨S_, .f32⟩
  | .hbm, ⟨74, _⟩ => ⟨S4x512, .f32⟩
  | .hbm, ⟨75, _⟩ => ⟨S4x512x1, .f32⟩
  | .hbm, ⟨76, _⟩ => ⟨S4x512x1, .f32⟩
  | .hbm, ⟨77, _⟩ => ⟨S_, .f32⟩
  | .hbm, ⟨78, _⟩ => ⟨S4x512x1, .f32⟩
  | .hbm, ⟨79, _⟩ => ⟨S4x512x1, .f32⟩
  | .hbm, ⟨80, _⟩ => ⟨S4x512x64, .f32⟩
  | .hbm, ⟨81, _⟩ => ⟨S4x512x64, .f32⟩
  | .hbm, ⟨82, _⟩ => ⟨S4x512x64, .f32⟩
  | .hbm, ⟨83, _⟩ => ⟨S4x512x64, .f32⟩
  | .hbm, ⟨84, _⟩ => ⟨S4x512x64, .f32⟩
  | .hbm, ⟨85, _⟩ => ⟨S_, .f32⟩
  | .hbm, ⟨86, _⟩ => ⟨S4x512, .f32⟩
  | .hbm, ⟨87, _⟩ => ⟨S4x512x1, .f32⟩
  | .hbm, ⟨88, _⟩ => ⟨S4x512x1, .f32⟩
  | .hbm, ⟨89, _⟩ => ⟨S_, .f32⟩
  | .hbm, ⟨90, _⟩ => ⟨S4x512x1, .f32⟩
  | .hbm, ⟨91, _⟩ => ⟨S4x512x1, .f32⟩
  | .hbm, ⟨92, _⟩ => ⟨S4x512x64, .f32⟩
  | .hbm, ⟨93, _⟩ => ⟨S4x512x64, .f32⟩
  | .hbm, ⟨94, _⟩ => ⟨S4x512x8192, .f32⟩
  | .hbm, ⟨95, _⟩ => ⟨S_, .f32⟩
  | .hbm, ⟨96, _⟩ => ⟨S4x512x8192, .f32⟩
  | .hbm, ⟨97, _⟩ => ⟨S4x512x8192, .f32⟩
  | .hbm, ⟨98, _⟩ => ⟨S4x512x8192, .f32⟩
  | .hbm, ⟨99, _⟩ => ⟨S4x8192, .f32⟩
  | .hbm, ⟨100, _⟩ => ⟨S4x1x8192, .f32⟩
  | .hbm, ⟨101, _⟩ => ⟨S4x512x8192, .f32⟩
  | .hbm, ⟨102, _⟩ => ⟨S4x512x8192, .f32⟩
  | .hbm, ⟨103, _⟩ => ⟨S_, .f32⟩
  | .hbm, ⟨104, _⟩ => ⟨S512x8192, .f32⟩
  | .hbm, ⟨105, _⟩ => ⟨S512x8192, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call2_v0 : Ref sig .tc := ⟨.hbm, 51, rfl⟩
abbrev main_call2_cst : Ref sig .tc := ⟨.hbm, 52, rfl⟩
abbrev main_call2_v1 : Ref sig .tc := ⟨.hbm, 53, rfl⟩
abbrev main_call2_v2 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call3_v0 : Ref sig .tc := ⟨.hbm, 72, rfl⟩
abbrev main_call3_cst : Ref sig .tc := ⟨.hbm, 73, rfl⟩
abbrev main_call3_v1 : Ref sig .tc := ⟨.hbm, 74, rfl⟩
abbrev main_call3_v2 : Ref sig .tc := ⟨.hbm, 75, rfl⟩
abbrev main_v46 : Ref sig .tc := ⟨.hbm, 76, rfl⟩
abbrev main_cst_7 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call4_v0 : Ref sig .tc := ⟨.hbm, 84, rfl⟩
abbrev main_call4_cst : Ref sig .tc := ⟨.hbm, 85, rfl⟩
abbrev main_call4_v1 : Ref sig .tc := ⟨.hbm, 86, rfl⟩
abbrev main_call4_v2 : Ref sig .tc := ⟨.hbm, 87, rfl⟩
abbrev main_v53 : Ref sig .tc := ⟨.hbm, 88, rfl⟩
abbrev main_cst_8 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_9 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_10 : Ref sig .tc := ⟨.hbm, 103, rfl⟩
abbrev main_v66 : Ref sig .tc := ⟨.hbm, 104, rfl⟩
abbrev main_v67 : Ref sig .tc := ⟨.hbm, 105, rfl⟩

abbrev nD : Nat := 1
abbrev τ : Topo := Topo.v7x

variable {F : FTy → Type} [FloatOps F]

class Facts₀ : Prop where
  reducesTo_S4x64_S4_d1 : S4x64.ReducesTo [1] S4
  h_S_ : 0 < S_.numel
  bcast_S4_S4x1_0 : S4.BroadcastsInDim S4x1 (![0] : Fin 1 → Fin S4x1.rank)
  bcast_S_S4x1 : S_.BroadcastsInDim S4x1 (![] : Fin 0 → Fin S4x1.rank)
  bcast_S4x1_S4x64_0_1 : S4x1.BroadcastsInDim S4x64 (![0, 1] : Fin 2 → Fin S4x64.rank)
  reducesTo_S8192x64_S8192_d1 : S8192x64.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S4x64_S64x4_1_0 : S4x64.Transposes [1, 0] S64x4
  bcast_S_S8192x4 : S_.BroadcastsInDim S8192x4 (![] : Fin 0 → Fin S8192x4.rank)
  reducesTo_S8192x4_S8192_d1 : S8192x4.ReducesTo [1] S8192
  bcast_S_S8192 : S_.BroadcastsInDim S8192 (![] : Fin 0 → Fin S8192.rank)
  bcast_S8192x1_S8192x4_0_1 : S8192x1.BroadcastsInDim S8192x4 (![0, 1] : Fin 2 → Fin S8192x4.rank)
  bcast_S512x8192_S1x512x8192_1_2 : S512x8192.BroadcastsInDim S1x512x8192 (![1, 2] : Fin 2 → Fin S1x512x8192.rank)
  transposes_S8192x4_S4x8192_1_0 : S8192x4.Transposes [1, 0] S4x8192
  bcast_S4x8192_S4x1x8192_0_2 : S4x8192.BroadcastsInDim S4x1x8192 (![0, 2] : Fin 2 → Fin S4x1x8192.rank)
  bcast_S1x512x8192_S4x512x8192_0_1_2 : S1x512x8192.BroadcastsInDim S4x512x8192 (![0, 1, 2] : Fin 3 → Fin S4x512x8192.rank)
  bcast_S4x1x8192_S4x512x8192_0_1_2 : S4x1x8192.BroadcastsInDim S4x512x8192 (![0, 1, 2] : Fin 3 → Fin S4x512x8192.rank)
  reducesTo_S4x512x8192_S4x512_d2 : S4x512x8192.ReducesTo [2] S4x512
  bcast_S4x512_S4x512x1_0_1 : S4x512.BroadcastsInDim S4x512x1 (![0, 1] : Fin 2 → Fin S4x512x1.rank)
  bcast_S_S4x512x1 : S_.BroadcastsInDim S4x512x1 (![] : Fin 0 → Fin S4x512x1.rank)
  bcast_S4x512x1_S4x512x8192_0_1_2 : S4x512x1.BroadcastsInDim S4x512x8192 (![0, 1, 2] : Fin 3 → Fin S4x512x8192.rank)
  bcast_S_S4x512x8192 : S_.BroadcastsInDim S4x512x8192 (![] : Fin 0 → Fin S4x512x8192.rank)
  bcast_S128_S1x1x128_2 : S128.BroadcastsInDim S1x1x128 (![2] : Fin 1 → Fin S1x1x128.rank)
  bcast_S1x1x128_S4x512x128_0_1_2 : S1x1x128.BroadcastsInDim S4x512x128 (![0, 1, 2] : Fin 3 → Fin S4x512x128.rank)
  slices_S4x512x128_S4x512x64_0_0_0 : S4x512x128.Slices ![0, 0, 0] S4x512x64
  reducesTo_S4x512x64_S4x512_d2 : S4x512x64.ReducesTo [2] S4x512
  bcast_S4x512x1_S4x512x64_0_1_2 : S4x512x1.BroadcastsInDim S4x512x64 (![0, 1, 2] : Fin 3 → Fin S4x512x64.rank)
  slices_S4x512x128_S4x512x64_0_0_64 : S4x512x128.Slices ![0, 0, 64] S4x512x64
  reducesTo_S4x512x8192_S512x8192_d0 : S4x512x8192.ReducesTo [0] S512x8192
  dot_S8192x64_S64x4_S8192x4_1_0_0_1_n_n_wf : DotDims.WF S8192x64 S64x4 S8192x4 [1] [0] [0] [1] [] []
  dot_S4x512x8192_S8192x8192_S4x512x8192_2_0_01_1_n_n_wf : DotDims.WF S4x512x8192 S8192x8192 S4x512x8192 [2] [0] [0, 1] [1] [] []
  dot_S4x512x8192_S128x8192_S4x512x128_2_1_01_0_n_n_wf : DotDims.WF S4x512x8192 S128x8192 S4x512x128 [2] [1] [0, 1] [0] [] []
  dot_S4x512x64_S8192x64_S4x512x8192_2_1_01_0_n_n_wf : DotDims.WF S4x512x64 S8192x64 S4x512x8192 [2] [1] [0, 1] [0] [] []

variable [Facts₀]

def dot_S8192x64_S64x4_S8192x4_1_0_0_1_n_n : DotDims S8192x64 S64x4 S8192x4 where
  lhsContracting := [1]
  rhsContracting := [0]
  lhsNonContracting := [0]
  rhsNonContracting := [1]
  lhsBatch := []
  rhsBatch := []
  wf := dot_S8192x64_S64x4_S8192x4_1_0_0_1_n_n_wf
def dot_S4x512x8192_S8192x8192_S4x512x8192_2_0_01_1_n_n : DotDims S4x512x8192 S8192x8192 S4x512x8192 where
  lhsContracting := [2]
  rhsContracting := [0]
  lhsNonContracting := [0, 1]
  rhsNonContracting := [1]
  lhsBatch := []
  rhsBatch := []
  wf := dot_S4x512x8192_S8192x8192_S4x512x8192_2_0_01_1_n_n_wf
def dot_S4x512x8192_S128x8192_S4x512x128_2_1_01_0_n_n : DotDims S4x512x8192 S128x8192 S4x512x128 where
  lhsContracting := [2]
  rhsContracting := [1]
  lhsNonContracting := [0, 1]
  rhsNonContracting := [0]
  lhsBatch := []
  rhsBatch := []
  wf := dot_S4x512x8192_S128x8192_S4x512x128_2_1_01_0_n_n_wf
def dot_S4x512x64_S8192x64_S4x512x8192_2_1_01_0_n_n : DotDims S4x512x64 S8192x64 S4x512x8192 where
  lhsContracting := [2]
  rhsContracting := [1]
  lhsNonContracting := [0, 1]
  rhsNonContracting := [0]
  lhsBatch := []
  rhsBatch := []
  wf := dot_S4x512x64_S8192x64_S4x512x8192_2_1_01_0_n_n_wf

class Facts : Prop extends Facts₀ where

variable [Facts]
-- ==== Proof.Bits.Region0.lean ====
import proofs.«408051_j35570919145766_3_alg».proof.Proof.Gen.Kernel.Launch
import proofs.«408051_j35570919145766_3_alg».proof.Proof.Gen.Kernel.Skeleton
import proofs.«408051_j35570919145766_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

abbrev rAll0 : Rect S128x8192 := Rect.unit (s := S128x8192) ![0, 0] S128x8192.size inb_S128x8192_S128x8192_0_0

abbrev rRow0 (i : grid0.Coords) : Rect S4x8192 := Rect.unit (s := S4x8192) (k0_off1 i) S1x8192.size (k0_off1_inb i)

def out0_2 (i : grid0.Coords) (x0 : Vec F S128x8192 .f32) (x1 : Vec F S4x8192 .f32) : Vec F S128x8192 .bf16 :=
  View.canon [⟨rAll0, k0_pay1 (View.ld x0 rAll0) (View.ld x1 (rRow0 i))⟩]

theorem cover0_2 (p0 : Vec F S128x8192 .bf16) (y : S128x8192.Idx) :
    ∃ pc ∈ ([⟨rAll0, p0⟩] : List (View.Piece (Elt F) S128x8192 .bf16)), y ∈ pc.1.set :=
  View.cover_of_tiled [⟨rAll0, p0⟩] S128x8192.size (by rfl) y

set_option maxHeartbeats 1000000 in
theorem sound_kernel0 (c : Dev nD) (E : Set ℕ) (i : grid0.Coords)
    (arg2 : Memref sig .tc .vmem S128x8192 .f32) (harg2 : arg2.IsWhole) (arg3 : Memref sig .tc .vmem S4x8192 .f32) (harg3 : arg3.IsWhole)
    (arg4 : Memref sig .tc .vmem S128x8192 .bf16) (harg4 : arg4.IsWhole)
    (x0 : Vec F S128x8192 .f32) (x1 : Vec F S4x8192 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 i x0 x1)) -∗ K ⟨⟩))
      ⊢ wp frame (wpE (defs₀ (F := F)) Variants.none c none) E (cc0__prep_xk_kernel i arg2 harg2 arg3 harg3 arg4 harg4) K := by
  simp only [cc0__prep_xk_kernel_eq_skeleton]; unfold cc0__prep_xk_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (j : Fin (cfg0.N + 1)) : (dat0 V c).owed j = 0 := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (grid0.coords t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem Phi_in0 (c : Dev nD) :
    (iprop((∃ r, prngReg c r) ∗ Pipeline.scopedRest (Ix := Unit) (Name := ℕ) (U := UR sig nD τ) (Lvl := ℕ) spec0 c) : sProp 𝕄) ⊢ (dat0 V c).Φ 0 := by
  rw [show (dat0 V c).Φ 0 = Pipeline.ΦA spec0 c from rfl]; unfold Pipeline.ΦA
  iintro ⟨Hp, Hr⟩
  isplitl [Hr]; · iexact Hr
  iexact Hp

theorem Phi_out0 (c : Dev nD) :
    (dat0 V c).Φ (Fin.last cfg0.N) ⊢ (iprop((∃ r, prngReg c r) ∗ Pipeline.scopedRest (Ix := Unit) (Name := ℕ) (U := UR sig nD τ) (Lvl := ℕ) spec0 c) : sProp 𝕄) := by
  rw [show (dat0 V c).Φ (Fin.last cfg0.N) = Pipeline.ΦA spec0 c from rfl]; unfold Pipeline.ΦA
  iintro ⟨Hr, Hp⟩
  isplitl [Hp]; · iexact Hp
  iexact Hr

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- Every point loads its two blocks and stores the whole output block; nothing is carried from point to point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Region1.lean ====
import proofs.«408051_j35570919145766_3_alg».proof.Proof.Gen.Kernel.Launch
import proofs.«408051_j35570919145766_3_alg».proof.Proof.Gen.Kernel.Skeleton
import proofs.«408051_j35570919145766_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)

abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

theorem liveAt1_0 : ∀ i : grid1.Coords, cfg1.idle 0 i = false := fun _ => rfl
theorem liveAt1_1 : ∀ i : grid1.Coords, cfg1.idle 1 i = false := fun _ => rfl
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

theorem zerosAcc1 : (![0, 0] : Fin 2 → Nat) = fun _ => 0 := funext fun a => by fin_cases a <;> rfl

abbrev cols1 (i : grid1.Coords) : Rect S2048x8192 := Rect.unit (s := S2048x8192) (k1_off1 i) S2048x256.size (k1_off1_inb i)

def step1 (i : grid1.Coords) (x0 : Vec F S2048x8192 .bf16) (x1 : Vec F S256x512 .f32) (a : Vec F S2048x512 .f32) : Vec F S2048x512 .f32 :=
  k1_pay2 (View.ld x0 (cols1 i)) x1 a

section runs
variable (c : Dev nD) (i : grid1.Coords) (arg2 : Memref sig .tc .vmem S2048x8192 .bf16) (harg2 : arg2.IsWhole) (arg3 : Memref sig .tc .vmem S256x512 .f32) (harg3 : arg3.IsWhole) (arg4 : Memref sig .tc .vmem S2048x512 .bf16) (harg4 : arg4.IsWhole) (arg5 : Memref sig .tc .vmem S2048x512 .f32) (harg5 : arg5.IsWhole)

set_option maxHeartbeats 1000000 in
/-- At a first step the accumulator ends at the step onto zero, whatever it held. -/
theorem run1_A (hc0 : cond1_0 i) (hc1 : ¬cond1_1 i) (x0 : Vec F S2048x8192 .bf16) (x1 : Vec F S256x512 .f32) (xi2 : Vec F S2048x512 .bf16)
    (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (step1 i x0 x1 k1_pay1)) -∗ K ⟨⟩))
      ⊢ wp frame (wpE (defs₀ (F := F)) Variants.none c none) E (cc1__hop_matmul_kernel i arg2 harg2 arg3 harg3 arg4 harg4 arg5 harg5) K := by
  simp only [cc1__hop_matmul_kernel_eq_skeleton]; unfold cc1__hop_matmul_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  try sl_unfold_words
  rw [View.read_writes_eq_canon _ _ _ (fun y => ⟨_, List.mem_cons_self .., View.mem_set_unit_zero zerosAcc1 inb_S2048x512_S2048x512_0_0 y⟩)]
  rw [View.canon_cons_unit_zero zerosAcc1, View.readCov_unit_zero _ zerosAcc1]
  simp only [View.readAt_eq_ld, harg2.read_unread, harg3.read_unread, View.ld_unit_zero (S := S256x512) zerosAcc1]
  rfl

set_option maxHeartbeats 1000000 in
/-- At a middle step it ends at the step onto what it held. -/
theorem run1_B (hc0 : ¬cond1_0 i) (hc1 : ¬cond1_1 i) (x0 : Vec F S2048x8192 .bf16) (x1 : Vec F S256x512 .f32) (xi2 : Vec F S2048x512 .bf16) (xs0 : Vec F S2048x512 .f32)
    (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (step1 i x0 x1 xs0)) -∗ K ⟨⟩))
      ⊢ wp frame (wpE (defs₀ (F := F)) Variants.none c none) E (cc1__hop_matmul_kernel i arg2 harg2 arg3 harg3 arg4 harg4 arg5 harg5) K := by
  simp only [cc1__hop_matmul_kernel_eq_skeleton]; unfold cc1__hop_matmul_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  try sl_unfold_words
  rw [View.read_writes_eq_canon _ _ _ (fun y => ⟨_, List.mem_cons_self .., View.mem_set_unit_zero zerosAcc1 inb_S2048x512_S2048x512_0_0 y⟩)]
  rw [View.canon_unit_zero zerosAcc1]
  simp only [View.readAt_eq_ld, harg2.read_unread, harg3.read_unread, harg5.read_unread, View.ld_unit_zero (S := S256x512) zerosAcc1, View.ld_unit_zero (S := S2048x512) zerosAcc1]
  rfl

set_option maxHeartbeats 1000000 in
/-- At a last step likewise, and the output block ends at the accumulator rounded. -/
theorem run1_C (hc0 : ¬cond1_0 i) (hc1 : cond1_1 i) (x0 : Vec F S2048x8192 .bf16) (x1 : Vec F S256x512 .f32) (xs0 : Vec F S2048x512 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (k1_pay3 (step1 i x0 x1 xs0)) ∗ owns (c : Thread nD τ) arg5 fullShare (step1 i x0 x1 xs0)) -∗ K ⟨⟩))
      ⊢ wp frame (wpE (defs₀ (F := F)) Variants.none c none) E (cc1__hop_matmul_kernel i arg2 harg2 arg3 harg3 arg4 harg4 arg5 harg5) K := by
  simp only [cc1__hop_matmul_kernel_eq_skeleton]; unfold cc1__hop_matmul_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    try sl_unfold_words
    rw [View.read_writes_eq_canon _ _ _ (fun y => ⟨_, List.mem_cons_self .., View.mem_set_unit_zero zerosAcc1 inb_S2048x512_S2048x512_0_0 y⟩)]
    rw [View.canon_unit_zero zerosAcc1, View.readCov_unit_zero _ zerosAcc1]
    simp only [View.readAt_eq_ld, harg2.read_unread, harg3.read_unread, harg5.read_unread, View.ld_unit_zero (S := S256x512) zerosAcc1, View.ld_unit_zero (S := S2048x512) zerosAcc1]
    rfl
  iexists _; isplitr
  swap; · iexact HS0
  ipureintro
  try sl_unfold_words
  rw [View.read_writes_eq_canon _ _ _ (fun y => ⟨_, List.mem_cons_self .., View.mem_set_unit_zero zerosAcc1 inb_S2048x512_S2048x512_0_0 y⟩)]
  rw [View.canon_unit_zero zerosAcc1]
  simp only [View.readAt_eq_ld, harg2.read_unread, harg3.read_unread, harg5.read_unread, View.ld_unit_zero (S := S256x512) zerosAcc1, View.ld_unit_zero (S := S2048x512) zerosAcc1]
  rfl

end runs

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the accumulator holds after point n: the step onto zero at a first reduction step, else onto what the point before left. -/
def acc1 (c : Dev nD) : (n : ℕ) → n < cfg1.N → Vec F S2048x512 .f32
  | 0, hn => step1 (grid1.coords ⟨0, hn⟩) (iblk1 V c 0 ⟨0, hn⟩) (iblk1 V c 1 ⟨0, hn⟩) k1_pay1
  | n + 1, hn => step1 (grid1.coords ⟨n + 1, hn⟩) (iblk1 V c 0 ⟨n + 1, hn⟩) (iblk1 V c 1 ⟨n + 1, hn⟩)
      (if (n + 1) % 32 = 0 then k1_pay1 else acc1 c n (Nat.lt_of_succ_lt hn))

theorem acc1_reset (c : Dev nD) (t : Fin cfg1.N) (h : t.val % 32 = 0) :
    acc1 V c t.val t.isLt = step1 (grid1.coords t) (iblk1 V c 0 t) (iblk1 V c 1 t) k1_pay1 := by
  obtain ⟨n, hn⟩ := t
  cases n with
  | zero => rfl
  | succ n => show acc1 V c (n + 1) hn = _; rw [acc1, if_pos h]

theorem acc1_step (c : Dev nD) (t : Fin cfg1.N) (h : ¬t.val % 32 = 0) :
    acc1 V c t.val t.isLt = step1 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => show acc1 V c (n + 1) hn = _; rw [acc1, if_neg h]; rfl

abbrev scM1 : Memref sig .tc .vmem S2048x512 .f32 := Memref.whole cc1_scratch0

def scr1 (c : Dev nD) : (n : ℕ) → n ≤ cfg1.N → sProp 𝕄
  | 0, _ => iprop(∃ d, owns (c : Thread nD τ) scM1 fullShare d)
  | n + 1, hn => owns (c : Thread nD τ) scM1 fullShare (acc1 V c n hn)

def PhiS1 (c : Dev nD) (n : ℕ) (hn : n ≤ cfg1.N) : sProp 𝕄 :=
  iprop((∃ r, prngReg c r) ∗ scr1 V c n hn
    ∗ Pipeline.scopedRestBut (Ix := Unit) (Name := ℕ) (U := UR sig nD τ) (Lvl := ℕ) (Val := Elt F) spec1 c [cc1_scratch0])

theorem scr1_succ (c : Dev nD) (n : ℕ) (hn : n < cfg1.N) :
    scr1 V c (n + 1) hn = owns (c : Thread nD τ) scM1 fullShare (acc1 V c n hn) := rfl

theorem scr1_pos (c : Dev nD) (n : ℕ) (h : n ≤ cfg1.N) (hz : n ≠ 0) :
    scr1 V c n h = owns (c : Thread nD τ) scM1 fullShare (acc1 V c (n - 1) (by omega)) := by
  cases n with
  | zero => exact absurd rfl hz
  | succ n => rfl

theorem scr1_any (c : Dev nD) (n : ℕ) (h : n ≤ cfg1.N) : scr1 V c n h ⊢ iprop(∃ d, owns (c : Thread nD τ) scM1 fullShare d) := by
  cases n with
  | zero => exact Idealize.SL.BI.Entails.refl _
  | succ n => rw [scr1_succ]; iintro H; iexists _; iexact H

def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (j : Fin (cfg1.N + 1)) : (dat1 V c).owed j = 0 := by
  dsimp only [dat1]

theorem Phi_castSucc1 (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

abbrev ms1_0 (t : Fin cfg1.N) : Memref sig .tc .vmem S2048x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x512 .bf16 := win1_2.stage (cfg1.slots t 2)
abbrev hs1_2 (t : Fin cfg1.N) : (ms1_2 t).IsWhole := hstage1_2 ((cfg1.slots t 2).cast nbuf1_2)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) :
    (dat1 V c).leavesExact 0 t = owns (c : Thread nD τ) (ms1_0 t) fullShare (iblk1 V c 0 t) := by
  rw [← after1_0]
theorem leaves1_1 (c : Dev nD) (t : Fin cfg1.N) :
    (dat1 V c).leavesExact 1 t = owns (c : Thread nD τ) (ms1_1 t) fullShare (iblk1 V c 1 t) := by
  rw [← after1_1]

set_option maxHeartbeats 4000000 in
/-- The point's place among its 32 reduction steps says which case runs; the accumulator is handed from point to point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, Phi_castSucc1]
  rw [leaves1_0, leaves1_1]
  unfold PhiS1
  rw [scr1_succ]
  by_cases h0 : t.val % 32 = 0
  · have hc1 : ¬cond1_1 (grid1.coords t) := fun h => by have := (hcond1_1 t).mp h; omega
    rw [Dat.leavesExact_idle (dat1 V c) 2 t (idleAt1_2 t hc1) (noFlush1_2 t hc1)]
    rw [acc1_reset V c t h0]
    iintro ⟨⟨Hg, HS, HR⟩, Ho, ⟨%d0, H0⟩, ⟨%d1, H1⟩, ⟨%d2, H2⟩⟩
    iapply (run1_A c (grid1.coords t) (ms1_0 t) (hs1_0 t) (ms1_1 t) (hs1_1 t) (ms1_2 t) (hs1_2 t) scM1 (Memref.isWhole_whole _)
      ((hcond1_0 t).mpr h0) hc1 (iblk1 V c 0 t) (iblk1 V c 1 t) ((dat1 V c).before 2 t d2) Set.univ _)
    isplitl [H0]; · iexact H0
    isplitl [H1]; · iexact H1
    isplitl [H2]; · iexact H2
    isplitl [HS]; · iapply (scr1_any V c); iexact HS
    iintro ⟨H0, H1, H2, HS⟩
    isplitl [Hg HS HR]
    · isplitl [Hg]; · iexact Hg
      isplitl [HS]; · iexact HS
      iexact HR
    isplitl [Ho]; · iexact Ho
    isplitl [H0]; · iexact H0
    isplitl [H1]; · iexact H1
    iexists _; iexact H2
  · have hc0 : ¬cond1_0 (grid1.coords t) := fun h => h0 ((hcond1_0 t).mp h)
    have hz : t.val ≠ 0 := fun e => h0 (by rw [e])
    rw [scr1_pos V c _ _ hz, acc1_step V c t h0]
    by_cases h1 : t.val % 32 = 31
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, acc1_step V c t h0]
      iintro ⟨⟨Hg, HS, HR⟩, Ho, ⟨%d0, H0⟩, ⟨%d1, H1⟩, ⟨%d2, H2⟩⟩
      iapply (run1_C c (grid1.coords t) (ms1_0 t) (hs1_0 t) (ms1_1 t) (hs1_1 t) (ms1_2 t) (hs1_2 t) scM1 (Memref.isWhole_whole _)
        hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [Hg HS HR]
      · isplitl [Hg]; · iexact Hg
        isplitl [HS]; · iexact HS
        iexact HR
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨Hg, HS, HR⟩, Ho, ⟨%d0, H0⟩, ⟨%d1, H1⟩, ⟨%d2, H2⟩⟩
      iapply (run1_B c (grid1.coords t) (ms1_0 t) (hs1_0 t) (ms1_1 t) (hs1_1 t) (ms1_2 t) (hs1_2 t) scM1 (Memref.isWhole_whole _)
        hc0 hc1 (iblk1 V c 0 t) (iblk1 V c 1 t) ((dat1 V c).before 2 t d2) _ Set.univ _)
      isplitl [H0]; · iexact H0
      isplitl [H1]; · iexact H1
      isplitl [H2]; · iexact H2
      isplitl [HS]; · iexact HS
      iintro ⟨H0, H1, H2, HS⟩
      isplitl [Hg HS HR]
      · isplitl [Hg]; · iexact Hg
        isplitl [HS]; · iexact HS
        iexact HR
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem Phi_in1 (c : Dev nD) :
    (iprop((∃ r, prngReg c r) ∗ Pipeline.scopedRest (Ix := Unit) (Name := ℕ) (U := UR sig nD τ) (Lvl := ℕ) spec1 c) : sProp 𝕄) ⊢ (dat1 V c).Φ 0 := by
  rw [show (dat1 V c).Φ 0 = PhiS1 V c 0 (Nat.zero_le _) from rfl]
  unfold PhiS1 scr1
  rw [scopedRest1_split]
  simp only [scM1, owns_whole]
  exact Idealize.SL.BI.Entails.refl _

theorem Phi_out1 (c : Dev nD) :
    (dat1 V c).Φ (Fin.last cfg1.N) ⊢ (iprop((∃ r, prngReg c r) ∗ Pipeline.scopedRest (Ix := Unit) (Name := ℕ) (U := UR sig nD τ) (Lvl := ℕ) spec1 c) : sProp 𝕄) := by
  have hN : cfg1.N ≠ 0 := by rw [show cfg1.N = 512 from N_1]; decide
  rw [show (dat1 V c).Φ (Fin.last cfg1.N) = PhiS1 V c cfg1.N (Nat.le_refl _) from rfl]
  unfold PhiS1
  rw [scr1_pos V c _ _ hN, scopedRest1_split]
  simp only [scM1, owns_whole]
  iintro ⟨Hg, HS, HR⟩
  isplitl [Hg]; · iexact Hg
  isplitl [HS]; · iexists _; iexact HS
  iexact HR

end Cert.Kernel.Hand

end
-- ==== Proof.Bits.Region2.lean ====
import proofs.«408051_j35570919145766_3_alg».proof.Proof.Gen.Kernel.Launch
import proofs.«408051_j35570919145766_3_alg».proof.Proof.Gen.Kernel.Skeleton
import proofs.«408051_j35570919145766_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 32 = 0 :=
  (by decide +kernel : ∀ t : Fin grid2.N, cond2_0 (grid2.coords t) ↔ t.val % 32 = 0)

abbrev cond2_1 (i : grid2.Coords) : Prop := k2_cond2 i = 1#1
theorem hcond2_1 : ∀ t : Fin cfg2.N, cond2_1 (grid2.coords t) ↔ t.val % 32 = 31 :=
  (by decide +kernel : ∀ t : Fin grid2.N, cond2_1 (grid2.coords t) ↔ t.val % 32 = 31)

theorem liveAt2_0 : ∀ i : grid2.Coords, cfg2.idle 0 i = false := fun _ => rfl
theorem liveAt2_1 : ∀ i : grid2.Coords, cfg2.idle 1 i = false := fun _ => rfl
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

theorem zerosAcc2 : (![0, 0] : Fin 2 → Nat) = fun _ => 0 := funext fun a => by fin_cases a <;> rfl

abbrev cols2 (i : grid2.Coords) : Rect S2048x8192 := Rect.unit (s := S2048x8192) (k2_off1 i) S2048x256.size (k2_off1_inb i)

def step2 (i : grid2.Coords) (x0 : Vec F S2048x8192 .bf16) (x1 : Vec F S256x512 .f32) (a : Vec F S2048x512 .f32) : Vec F S2048x512 .f32 :=
  k2_pay2 (View.ld x0 (cols2 i)) x1 a

section runs
variable (c : Dev nD) (i : grid2.Coords) (arg2 : Memref sig .tc .vmem S2048x8192 .bf16) (harg2 : arg2.IsWhole) (arg3 : Memref sig .tc .vmem S256x512 .f32) (harg3 : arg3.IsWhole) (arg4 : Memref sig .tc .vmem S2048x512 .bf16) (harg4 : arg4.IsWhole) (arg5 : Memref sig .tc .vmem S2048x512 .f32) (harg5 : arg5.IsWhole)

set_option maxHeartbeats 1000000 in
/-- At a first step the accumulator ends at the step onto zero, whatever it held. -/
theorem run2_A (hc0 : cond2_0 i) (hc1 : ¬cond2_1 i) (x0 : Vec F S2048x8192 .bf16) (x1 : Vec F S256x512 .f32) (xi2 : Vec F S2048x512 .bf16)
    (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (step2 i x0 x1 k2_pay1)) -∗ K ⟨⟩))
      ⊢ wp frame (wpE (defs₀ (F := F)) Variants.none c none) E (cc2__hop_matmul_kernel i arg2 harg2 arg3 harg3 arg4 harg4 arg5 harg5) K := by
  simp only [cc2__hop_matmul_kernel_eq_skeleton]; unfold cc2__hop_matmul_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  try sl_unfold_words
  rw [View.read_writes_eq_canon _ _ _ (fun y => ⟨_, List.mem_cons_self .., View.mem_set_unit_zero zerosAcc2 inb_S2048x512_S2048x512_0_0 y⟩)]
  rw [View.canon_cons_unit_zero zerosAcc2, View.readCov_unit_zero _ zerosAcc2]
  simp only [View.readAt_eq_ld, harg2.read_unread, harg3.read_unread, View.ld_unit_zero (S := S256x512) zerosAcc2]
  rfl

set_option maxHeartbeats 1000000 in
/-- At a middle step it ends at the step onto what it held. -/
theorem run2_B (hc0 : ¬cond2_0 i) (hc1 : ¬cond2_1 i) (x0 : Vec F S2048x8192 .bf16) (x1 : Vec F S256x512 .f32) (xi2 : Vec F S2048x512 .bf16) (xs0 : Vec F S2048x512 .f32)
    (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (step2 i x0 x1 xs0)) -∗ K ⟨⟩))
      ⊢ wp frame (wpE (defs₀ (F := F)) Variants.none c none) E (cc2__hop_matmul_kernel i arg2 harg2 arg3 harg3 arg4 harg4 arg5 harg5) K := by
  simp only [cc2__hop_matmul_kernel_eq_skeleton]; unfold cc2__hop_matmul_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  try sl_unfold_words
  rw [View.read_writes_eq_canon _ _ _ (fun y => ⟨_, List.mem_cons_self .., View.mem_set_unit_zero zerosAcc2 inb_S2048x512_S2048x512_0_0 y⟩)]
  rw [View.canon_unit_zero zerosAcc2]
  simp only [View.readAt_eq_ld, harg2.read_unread, harg3.read_unread, harg5.read_unread, View.ld_unit_zero (S := S256x512) zerosAcc2, View.ld_unit_zero (S := S2048x512) zerosAcc2]
  rfl

set_option maxHeartbeats 1000000 in
/-- At a last step likewise, and the output block ends at the accumulator rounded. -/
theorem run2_C (hc0 : ¬cond2_0 i) (hc1 : cond2_1 i) (x0 : Vec F S2048x8192 .bf16) (x1 : Vec F S256x512 .f32) (xs0 : Vec F S2048x512 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (k2_pay3 (step2 i x0 x1 xs0)) ∗ owns (c : Thread nD τ) arg5 fullShare (step2 i x0 x1 xs0)) -∗ K ⟨⟩))
      ⊢ wp frame (wpE (defs₀ (F := F)) Variants.none c none) E (cc2__hop_matmul_kernel i arg2 harg2 arg3 harg3 arg4 harg4 arg5 harg5) K := by
  simp only [cc2__hop_matmul_kernel_eq_skeleton]; unfold cc2__hop_matmul_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    try sl_unfold_words
    rw [View.read_writes_eq_canon _ _ _ (fun y => ⟨_, List.mem_cons_self .., View.mem_set_unit_zero zerosAcc2 inb_S2048x512_S2048x512_0_0 y⟩)]
    rw [View.canon_unit_zero zerosAcc2, View.readCov_unit_zero _ zerosAcc2]
    simp only [View.readAt_eq_ld, harg2.read_unread, harg3.read_unread, harg5.read_unread, View.ld_unit_zero (S := S256x512) zerosAcc2, View.ld_unit_zero (S := S2048x512) zerosAcc2]
    rfl
  iexists _; isplitr
  swap; · iexact HS0
  ipureintro
  try sl_unfold_words
  rw [View.read_writes_eq_canon _ _ _ (fun y => ⟨_, List.mem_cons_self .., View.mem_set_unit_zero zerosAcc2 inb_S2048x512_S2048x512_0_0 y⟩)]
  rw [View.canon_unit_zero zerosAcc2]
  simp only [View.readAt_eq_ld, harg2.read_unread, harg3.read_unread, harg5.read_unread, View.ld_unit_zero (S := S256x512) zerosAcc2, View.ld_unit_zero (S := S2048x512) zerosAcc2]
  rfl

end runs

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the accumulator holds after point n: the step onto zero at a first reduction step, else onto what the point before left. -/
def acc2 (c : Dev nD) : (n : ℕ) → n < cfg2.N → Vec F S2048x512 .f32
  | 0, hn => step2 (grid2.coords ⟨0, hn⟩) (iblk2 V c 0 ⟨0, hn⟩) (iblk2 V c 1 ⟨0, hn⟩) k2_pay1
  | n + 1, hn => step2 (grid2.coords ⟨n + 1, hn⟩) (iblk2 V c 0 ⟨n + 1, hn⟩) (iblk2 V c 1 ⟨n + 1, hn⟩)
      (if (n + 1) % 32 = 0 then k2_pay1 else acc2 c n (Nat.lt_of_succ_lt hn))

theorem acc2_reset (c : Dev nD) (t : Fin cfg2.N) (h : t.val % 32 = 0) :
    acc2 V c t.val t.isLt = step2 (grid2.coords t) (iblk2 V c 0 t) (iblk2 V c 1 t) k2_pay1 := by
  obtain ⟨n, hn⟩ := t
  cases n with
  | zero => rfl
  | succ n => show acc2 V c (n + 1) hn = _; rw [acc2, if_pos h]

theorem acc2_step (c : Dev nD) (t : Fin cfg2.N) (h : ¬t.val % 32 = 0) :
    acc2 V c t.val t.isLt = step2 (grid2.coords t) (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h
  | succ n => show acc2 V c (n + 1) hn = _; rw [acc2, if_neg h]; rfl

abbrev scM2 : Memref sig .tc .vmem S2048x512 .f32 := Memref.whole cc2_scratch0

def scr2 (c : Dev nD) : (n : ℕ) → n ≤ cfg2.N → sProp 𝕄
  | 0, _ => iprop(∃ d, owns (c : Thread nD τ) scM2 fullShare d)
  | n + 1, hn => owns (c : Thread nD τ) scM2 fullShare (acc2 V c n hn)

def PhiS2 (c : Dev nD) (n : ℕ) (hn : n ≤ cfg2.N) : sProp 𝕄 :=
  iprop((∃ r, prngReg c r) ∗ scr2 V c n hn
    ∗ Pipeline.scopedRestBut (Ix := Unit) (Name := ℕ) (U := UR sig nD τ) (Lvl := ℕ) (Val := Elt F) spec2 c [cc2_scratch0])

theorem scr2_succ (c : Dev nD) (n : ℕ) (hn : n < cfg2.N) :
    scr2 V c (n + 1) hn = owns (c : Thread nD τ) scM2 fullShare (acc2 V c n hn) := rfl

theorem scr2_pos (c : Dev nD) (n : ℕ) (h : n ≤ cfg2.N) (hz : n ≠ 0) :
    scr2 V c n h = owns (c : Thread nD τ) scM2 fullShare (acc2 V c (n - 1) (by omega)) := by
  cases n with
  | zero => exact absurd rfl hz
  | succ n => rfl

theorem scr2_any (c : Dev nD) (n : ℕ) (h : n ≤ cfg2.N) : scr2 V c n h ⊢ iprop(∃ d, owns (c : Thread nD τ) scM2 fullShare d) := by
  cases n with
  | zero => exact Idealize.SL.BI.Entails.refl _
  | succ n => rw [scr2_succ]; iintro H; iexists _; iexact H

def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := by
  dsimp only [dat2]

theorem owed_eq2 (c : Dev nD) (j : Fin (cfg2.N + 1)) : (dat2 V c).owed j = 0 := by
  dsimp only [dat2]

theorem Phi_castSucc2 (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (acc2 V c t.val t.isLt) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

abbrev ms2_0 (t : Fin cfg2.N) : Memref sig .tc .vmem S2048x8192 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x512 .bf16 := win2_2.stage (cfg2.slots t 2)
abbrev hs2_2 (t : Fin cfg2.N) : (ms2_2 t).IsWhole := hstage2_2 ((cfg2.slots t 2).cast nbuf2_2)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem leaves2_0 (c : Dev nD) (t : Fin cfg2.N) :
    (dat2 V c).leavesExact 0 t = owns (c : Thread nD τ) (ms2_0 t) fullShare (iblk2 V c 0 t) := by
  rw [← after2_0]
theorem leaves2_1 (c : Dev nD) (t : Fin cfg2.N) :
    (dat2 V c).leavesExact 1 t = owns (c : Thread nD τ) (ms2_1 t) fullShare (iblk2 V c 1 t) := by
  rw [← after2_1]

set_option maxHeartbeats 4000000 in
/-- The point's place among its 32 reduction steps says which case runs; the accumulator is handed from point to point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, Phi_castSucc2]
  rw [leaves2_0, leaves2_1]
  unfold PhiS2
  rw [scr2_succ]
  by_cases h0 : t.val % 32 = 0
  · have hc1 : ¬cond2_1 (grid2.coords t) := fun h => by have := (hcond2_1 t).mp h; omega
    rw [Dat.leavesExact_idle (dat2 V c) 2 t (idleAt2_2 t hc1) (noFlush2_2 t hc1)]
    rw [acc2_reset V c t h0]
    iintro ⟨⟨Hg, HS, HR⟩, Ho, ⟨%d0, H0⟩, ⟨%d1, H1⟩, ⟨%d2, H2⟩⟩
    iapply (run2_A c (grid2.coords t) (ms2_0 t) (hs2_0 t) (ms2_1 t) (hs2_1 t) (ms2_2 t) (hs2_2 t) scM2 (Memref.isWhole_whole _)
      ((hcond2_0 t).mpr h0) hc1 (iblk2 V c 0 t) (iblk2 V c 1 t) ((dat2 V c).before 2 t d2) Set.univ _)
    isplitl [H0]; · iexact H0
    isplitl [H1]; · iexact H1
    isplitl [H2]; · iexact H2
    isplitl [HS]; · iapply (scr2_any V c); iexact HS
    iintro ⟨H0, H1, H2, HS⟩
    isplitl [Hg HS HR]
    · isplitl [Hg]; · iexact Hg
      isplitl [HS]; · iexact HS
      iexact HR
    isplitl [Ho]; · iexact Ho
    isplitl [H0]; · iexact H0
    isplitl [H1]; · iexact H1
    iexists _; iexact H2
  · have hc0 : ¬cond2_0 (grid2.coords t) := fun h => h0 ((hcond2_0 t).mp h)
    have hz : t.val ≠ 0 := fun e => h0 (by rw [e])
    rw [scr2_pos V c _ _ hz, acc2_step V c t h0]
    by_cases h1 : t.val % 32 = 31
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2, acc2_step V c t h0]
      iintro ⟨⟨Hg, HS, HR⟩, Ho, ⟨%d0, H0⟩, ⟨%d1, H1⟩, ⟨%d2, H2⟩⟩
      iapply (run2_C c (grid2.coords t) (ms2_0 t) (hs2_0 t) (ms2_1 t) (hs2_1 t) (ms2_2 t) (hs2_2 t) scM2 (Memref.isWhole_whole _)
        hc0 hc1 (iblk2 V c 0 t) (iblk2 V c 1 t) _ Set.univ _)
      isplitl [H0]; · iexact H0
      isplitl [H1]; · iexact H1
      isplitl [H2]; · iexists _; iexact H2
      isplitl [HS]; · iexact HS
      iintro ⟨H0, H1, H2, HS⟩
      isplitl [Hg HS HR]
      · isplitl [Hg]; · iexact Hg
        isplitl [HS]; · iexact HS
        iexact HR
      isplitl [Ho]; · iexact Ho
      isplitl [H0]; · iexact H0
      isplitl [H1]; · iexact H1
      iexact H2
    · have hc1 : ¬cond2_1 (grid2.coords t) := fun h => h1 ((hcond2_1 t).mp h)
      rw [Dat.leavesExact_idle (dat2 V c) 2 t (idleAt2_2 t hc1) (noFlush2_2 t hc1)]
      iintro ⟨⟨Hg, HS, HR⟩, Ho, ⟨%d0, H0⟩, ⟨%d1, H1⟩, ⟨%d2, H2⟩⟩
      iapply (run2_B c (grid2.coords t) (ms2_0 t) (hs2_0 t) (ms2_1 t) (hs2_1 t) (ms2_2 t) (hs2_2 t) scM2 (Memref.isWhole_whole _)
        hc0 hc1 (iblk2 V c 0 t) (iblk2 V c 1 t) ((dat2 V c).before 2 t d2) _ Set.univ _)
      isplitl [H0]; · iexact H0
      isplitl [H1]; · iexact H1
      isplitl [H2]; · iexact H2
      isplitl [HS]; · iexact HS
      iintro ⟨H0, H1, H2, HS⟩
      isplitl [Hg HS HR]
      · isplitl [Hg]; · iexact Hg
        isplitl [HS]; · iexact HS
        iexact HR
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

theorem Phi_in2 (c : Dev nD) :
    (iprop((∃ r, prngReg c r) ∗ Pipeline.scopedRest (Ix := Unit) (Name := ℕ) (U := UR sig nD τ) (Lvl := ℕ) spec2 c) : sProp 𝕄) ⊢ (dat2 V c).Φ 0 := by
  rw [show (dat2 V c).Φ 0 = PhiS2 V c 0 (Nat.zero_le _) from rfl]
  unfold PhiS2 scr2
  rw [scopedRest2_split]
  simp only [scM2, owns_whole]
  exact Idealize.SL.BI.Entails.refl _

theorem Phi_out2 (c : Dev nD) :
    (dat2 V c).Φ (Fin.last cfg2.N) ⊢ (iprop((∃ r, prngReg c r) ∗ Pipeline.scopedRest (Ix := Unit) (Name := ℕ) (U := UR sig nD τ) (Lvl := ℕ) spec2 c) : sProp 𝕄) := by
  have hN : cfg2.N ≠ 0 := by rw [show cfg2.N = 512 from N_2]; decide
  rw [show (dat2 V c).Φ (Fin.last cfg2.N) = PhiS2 V c cfg2.N (Nat.le_refl _) from rfl]
  unfold PhiS2
  rw [scr2_pos V c _ _ hN, scopedRest2_split]
  simp only [scM2, owns_whole]
  iintro ⟨Hg, HS, HR⟩
  isplitl [Hg]; · iexact Hg
  isplitl [HS]; · iexists _; iexact HS
  iexact HR

end Cert.Kernel.Hand

end
-- ==== Proof.Bits.Region3.lean ====
import proofs.«408051_j35570919145766_3_alg».proof.Proof.Gen.Kernel.Launch
import proofs.«408051_j35570919145766_3_alg».proof.Proof.Gen.Kernel.Skeleton
import proofs.«408051_j35570919145766_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop :=
  (Scalar.cmpi .ne (Scalar.extui (Scalar.cmpi .eq (BitVec.ofNat 32 (i 1).val) 0#32)) 0#32) = 1#1
theorem hcond3_0 : ∀ t : Fin cfg3.N, cond3_0 (grid3.coords t) ↔ t.val % 16 = 0 :=
  (by decide +kernel : ∀ t : Fin grid3.N, cond3_0 (grid3.coords t) ↔ t.val % 16 = 0)

abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

theorem zero3_2 : (![0, 0] : Fin 2 → ℕ) = fun _ => 0 := by funext a; fin_cases a <;> rfl
theorem zero3_1 : (![0] : Fin 1 → ℕ) = fun _ => 0 := by funext a; fin_cases a; rfl

theorem readAt_whole3 {sp : Space} {S : Shape} {e : EltTy} (m : Memref sig .tc sp S e) (hm : m.IsWhole) (x : S.Idx → Elt F e)
    {off : Fin S.rank → ℕ} (h : off = fun _ => 0) (inb : ∀ a, off a + S.size a ≤ S.size a) :
    View.readAt (Elt F) m.view (Rect.unit off S.size inb).toLoadRect (hm.unread x) = x := by
  rw [View.readAt_eq_ld, hm.read_unread]; exact View.ld_unit_zero h inb x

theorem read_writes_whole3 {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩)]
  exact View.canon_cons_unit_zero h inb w L

set_option maxHeartbeats 1000000 in
theorem kernelRun3_A (c : Dev nD) (i : grid3.Coords)
    (arg2 : Memref sig .tc .vmem S1024x512 .bf16) (harg2 : arg2.IsWhole) (arg3 : Memref sig .tc .vmem S1024x512 .bf16) (harg3 : arg3.IsWhole)
    (arg4 : Memref sig .tc .vmem S128x512 .f32) (harg4 : arg4.IsWhole) (arg5 : Memref sig .tc .vmem S128 .f32) (harg5 : arg5.IsWhole)
    (arg6 : Memref sig .tc .vmem S1024x128 .f32) (harg6 : arg6.IsWhole) (arg7 : Memref sig .tc .vmem S1024x128 .f32) (harg7 : arg7.IsWhole)
    (hc0 : cond3_0 i) (hc1 : ¬cond3_1 i)
    (x0 x1 : Vec F S1024x512 .bf16) (x2 : Vec F S128x512 .f32) (x3 : Vec F S128 .f32) (xi4 : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4
            ∗ owns (c : Thread nD τ) arg7 fullShare (k3_pay2 x0 x1 x2 (k3_pay1 (F := F)))) -∗ K ⟨⟩))
      ⊢ wp frame (wpE (defs₀ (F := F)) Variants.none c none) E
          (cc3__combine_encode_kernel i arg2 harg2 arg3 harg3 arg4 harg4 arg5 harg5 arg6 harg6 arg7 harg7) K := by
  simp only [cc3__combine_encode_kernel_eq_skeleton]; unfold cc3__combine_encode_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  rw [read_writes_whole3 _ _ zero3_2]
  rw [readAt_whole3 arg2 harg2 x0 zero3_2, readAt_whole3 arg3 harg3 x1 zero3_2, readAt_whole3 arg4 harg4 x2 zero3_2]
  unfold kernelRun3_A.sl.v16 kernelRun3_A.sl.HS_1
  rw [View.readCov_unit_zero _ zero3_2]

set_option maxHeartbeats 1000000 in
theorem kernelRun3_B (c : Dev nD) (i : grid3.Coords)
    (arg2 : Memref sig .tc .vmem S1024x512 .bf16) (harg2 : arg2.IsWhole) (arg3 : Memref sig .tc .vmem S1024x512 .bf16) (harg3 : arg3.IsWhole)
    (arg4 : Memref sig .tc .vmem S128x512 .f32) (harg4 : arg4.IsWhole) (arg5 : Memref sig .tc .vmem S128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond3_0 i) (hc1 : ¬cond3_1 i)
    (x0 x1 : Vec F S1024x512 .bf16) (x2 : Vec F S128x512 .f32) (x3 : Vec F S128 .f32) (xi4 xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4
            ∗ owns (c : Thread nD τ) arg7 fullShare (k3_pay2 x0 x1 x2 xs)) -∗ K ⟨⟩))
      ⊢ wp frame (wpE (defs₀ (F := F)) Variants.none c none) E
          (cc3__combine_encode_kernel i arg2 harg2 arg3 harg3 arg4 harg4 arg5 harg5 arg6 harg6 arg7 harg7) K := by
  simp only [cc3__combine_encode_kernel_eq_skeleton]; unfold cc3__combine_encode_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  rw [read_writes_whole3 _ _ zero3_2]
  rw [readAt_whole3 arg2 harg2 x0 zero3_2, readAt_whole3 arg3 harg3 x1 zero3_2, readAt_whole3 arg4 harg4 x2 zero3_2,
    readAt_whole3 arg7 harg7 xs zero3_2]

set_option maxHeartbeats 1000000 in
theorem kernelRun3_C (c : Dev nD) (i : grid3.Coords)
    (arg2 : Memref sig .tc .vmem S1024x512 .bf16) (harg2 : arg2.IsWhole) (arg3 : Memref sig .tc .vmem S1024x512 .bf16) (harg3 : arg3.IsWhole)
    (arg4 : Memref sig .tc .vmem S128x512 .f32) (harg4 : arg4.IsWhole) (arg5 : Memref sig .tc .vmem S128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond3_0 i) (hc1 : cond3_1 i)
    (x0 x1 : Vec F S1024x512 .bf16) (x2 : Vec F S128x512 .f32) (x3 : Vec F S128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k3_pay3 (k3_pay2 x0 x1 x2 xs) x3)
            ∗ owns (c : Thread nD τ) arg7 fullShare (k3_pay2 x0 x1 x2 xs)) -∗ K ⟨⟩))
      ⊢ wp frame (wpE (defs₀ (F := F)) Variants.none c none) E
          (cc3__combine_encode_kernel i arg2 harg2 arg3 harg3 arg4 harg4 arg5 harg5 arg6 harg6 arg7 harg7) K := by
  simp only [cc3__combine_encode_kernel_eq_skeleton]; unfold cc3__combine_encode_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [read_writes_whole3 _ _ zero3_2]
    unfold kernelRun3_C.sl.v24 kernelRun3_C.sl.HS_1
    rw [View.readCov_unit_zero _ zero3_2, readAt_whole3 arg5 harg5 x3 zero3_1]
    rw [readAt_whole3 arg2 harg2 x0 zero3_2, readAt_whole3 arg3 harg3 x1 zero3_2, readAt_whole3 arg4 harg4 x2 zero3_2,
      readAt_whole3 arg7 harg7 xs zero3_2]
  iexists _; isplitr
  swap; · iexact HS
  ipureintro
  unfold kernelRun3_C.sl.HS_1
  rw [read_writes_whole3 _ _ zero3_2]
  rw [readAt_whole3 arg2 harg2 x0 zero3_2, readAt_whole3 arg3 harg3 x1 zero3_2, readAt_whole3 arg4 harg4 x2 zero3_2,
    readAt_whole3 arg7 harg7 xs zero3_2]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev ms3_0 (t : Fin cfg3.N) : Memref sig .tc .vmem S1024x512 .bf16 := win3_0.stage (cfg3.slots t 0)
abbrev ms3_1 (t : Fin cfg3.N) : Memref sig .tc .vmem S1024x512 .bf16 := win3_1.stage (cfg3.slots t 1)
abbrev ms3_2 (t : Fin cfg3.N) : Memref sig .tc .vmem S128x512 .f32 := win3_2.stage (cfg3.slots t 2)
abbrev ms3_3 (t : Fin cfg3.N) : Memref sig .tc .vmem S128 .f32 := win3_3.stage (cfg3.slots t 3)
abbrev ms3_4 (t : Fin cfg3.N) : Memref sig .tc .vmem S1024x128 .f32 := win3_4.stage (cfg3.slots t 4)
abbrev scM3 : Memref sig .tc .vmem S1024x128 .f32 := Memref.whole cc3_scratch0

def step3 (c : Dev nD) (t : Fin cfg3.N) (xs : Vec F S1024x128 .f32) : Vec F S1024x128 .f32 :=
  k3_pay2 (iblk3 V c 0 t) (iblk3 V c 1 t) (iblk3 V c 2 t) xs

def acc3 (c : Dev nD) : (n : ℕ) → n < cfg3.N → Vec F S1024x128 .f32
  | 0, hn => step3 V c ⟨0, hn⟩ (k3_pay1 (F := F))
  | n + 1, hn => step3 V c ⟨n + 1, hn⟩ (if (n + 1) % 16 = 0 then (k3_pay1 (F := F)) else acc3 c n (Nat.lt_of_succ_lt hn))

theorem acc3_reset (c : Dev nD) (t : Fin cfg3.N) (h : t.val % 16 = 0) :
    acc3 V c t.val t.isLt = step3 V c t (k3_pay1 (F := F)) := by
  obtain ⟨n, hn⟩ := t
  cases n with
  | zero => rw [acc3]
  | succ n => rw [acc3, if_pos h]

theorem acc3_step (c : Dev nD) (t : Fin cfg3.N) (h : ¬t.val % 16 = 0) :
    acc3 V c t.val t.isLt = step3 V c t (acc3 V c (t.val - 1) (Nat.lt_of_le_of_lt (Nat.sub_le _ _) t.isLt)) := by
  obtain ⟨n, hn⟩ := t
  cases n with
  | zero => exact absurd (Nat.zero_mod _) h
  | succ n => rw [acc3, if_neg h]; rfl

def out3 (c : Dev nD) (t : Fin cfg3.N) : Vec F S1024x128 .f32 :=
  k3_pay3 (acc3 V c t.val t.isLt) (iblk3 V c 3 t)

def Phi3 (c : Dev nD) : (n : ℕ) → n ≤ cfg3.N → sProp 𝕄
  | 0, _ => iprop((∃ r, prngReg c r) ∗ Pipeline.scopedRest (Ix := Unit) (Name := ℕ) (U := UR sig nD τ) (Lvl := ℕ) spec3 c)
  | n + 1, hn => iprop((∃ r, prngReg c r) ∗ owns (c : Thread nD τ) scM3 fullShare (acc3 V c n hn)
      ∗ Pipeline.scopedRestBut (Ix := Unit) (Name := ℕ) (U := UR sig nD τ) (Lvl := ℕ) spec3 c [cc3_scratch0])

theorem Phi3_zero (c : Dev nD) (n : ℕ) (h : n ≤ cfg3.N) (hz : n = 0) :
    Phi3 V c n h = iprop((∃ r, prngReg c r) ∗ Pipeline.scopedRest (Ix := Unit) (Name := ℕ) (U := UR sig nD τ) (Lvl := ℕ) spec3 c) := by
  subst hz; rfl

theorem Phi3_succ (c : Dev nD) (n : ℕ) (hn : n < cfg3.N) :
    Phi3 V c (n + 1) hn = iprop((∃ r, prngReg c r) ∗ owns (c : Thread nD τ) scM3 fullShare (acc3 V c n hn)
      ∗ Pipeline.scopedRestBut (Ix := Unit) (Name := ℕ) (U := UR sig nD τ) (Lvl := ℕ) spec3 c [cc3_scratch0]) := rfl

theorem Phi3_pos (c : Dev nD) (n : ℕ) (h : n ≤ cfg3.N) (hz : n ≠ 0) :
    Phi3 V c n h = iprop((∃ r, prngReg c r) ∗ owns (c : Thread nD τ) scM3 fullShare (acc3 V c (n - 1) (by omega))
      ∗ Pipeline.scopedRestBut (Ix := Unit) (Name := ℕ) (U := UR sig nD τ) (Lvl := ℕ) spec3 c [cc3_scratch0]) := by
  cases n with
  | zero => exact absurd rfl hz
  | succ n => rfl

theorem rest3_eq (c : Dev nD) :
    (iprop((∃ r, prngReg c r) ∗ Pipeline.scopedRest (Ix := Unit) (Name := ℕ) (U := UR sig nD τ) (Lvl := ℕ) spec3 c) : sProp 𝕄)
      = iprop((∃ r, prngReg c r) ∗ (∃ d, owns (c : Thread nD τ) scM3 fullShare d)
          ∗ Pipeline.scopedRestBut (Ix := Unit) (Name := ℕ) (U := UR sig nD τ) (Lvl := ℕ) spec3 c [cc3_scratch0]) := by
  rw [scopedRest3_split]; simp only [scM3, owns_whole]; try rfl

def dat3 (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 V c t
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := rfl

theorem owed_eq3 (c : Dev nD) (j : Fin (cfg3.N + 1)) : (dat3 V c).owed j = 0 := rfl

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 V c t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

theorem leaves3_0 (c : Dev nD) (t : Fin cfg3.N) : (dat3 V c).leavesExact 0 t = owns (c : Thread nD τ) (ms3_0 t) fullShare (iblk3 V c 0 t) := by
  rw [show (dat3 V c).leavesExact 0 t = owns (c : Thread nD τ) (ms3_0 t) fullShare ((dat3 V c).after 0 t) from by
    unfold Dat.leavesExact; rw [liveAt3_0 t], after3_0]
theorem leaves3_1 (c : Dev nD) (t : Fin cfg3.N) : (dat3 V c).leavesExact 1 t = owns (c : Thread nD τ) (ms3_1 t) fullShare (iblk3 V c 1 t) := by
  rw [show (dat3 V c).leavesExact 1 t = owns (c : Thread nD τ) (ms3_1 t) fullShare ((dat3 V c).after 1 t) from by
    unfold Dat.leavesExact; rw [liveAt3_1 t], after3_1]
theorem leaves3_2 (c : Dev nD) (t : Fin cfg3.N) : (dat3 V c).leavesExact 2 t = owns (c : Thread nD τ) (ms3_2 t) fullShare (iblk3 V c 2 t) := by
  rw [show (dat3 V c).leavesExact 2 t = owns (c : Thread nD τ) (ms3_2 t) fullShare ((dat3 V c).after 2 t) from by
    unfold Dat.leavesExact; rw [liveAt3_2 t], after3_2]
theorem leaves3_3 (c : Dev nD) (t : Fin cfg3.N) : (dat3 V c).leavesExact 3 t = owns (c : Thread nD τ) (ms3_3 t) fullShare (iblk3 V c 3 t) := by
  rw [show (dat3 V c).leavesExact 3 t = owns (c : Thread nD τ) (ms3_3 t) fullShare ((dat3 V c).after 3 t) from by
    unfold Dat.leavesExact; rw [liveAt3_3 t], after3_3]

theorem Phi_in3 (c : Dev nD) :
    (iprop((∃ r, prngReg c r) ∗ Pipeline.scopedRest (Ix := Unit) (Name := ℕ) (U := UR sig nD τ) (Lvl := ℕ) spec3 c) : sProp 𝕄) ⊢ (dat3 V c).Φ 0 := by
  rw [show (dat3 V c).Φ 0 = Phi3 V c 0 (Nat.zero_le _) from rfl, Phi3_zero V c 0 _ rfl]
  try exact Idealize.SL.BI.Entails.refl _

theorem Phi_out3 (c : Dev nD) :
    (dat3 V c).Φ (Fin.last cfg3.N) ⊢ (iprop((∃ r, prngReg c r) ∗ Pipeline.scopedRest (Ix := Unit) (Name := ℕ) (U := UR sig nD τ) (Lvl := ℕ) spec3 c) : sProp 𝕄) := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 32 := N_3; omega), rest3_eq]
  iintro ⟨Hg, HS, HR⟩
  isplitl [Hg]; · iexact Hg
  isplitl [HS]; · iexists _; iexact HS
  iexact HR

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The point's place among its 16 reduction steps says which case runs; the accumulator is handed from point to point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = Phi3 V c (t.val + 1) t.isLt from rfl, Phi3_succ]
  rw [leaves3_0, leaves3_1, leaves3_2, leaves3_3]
  have hN : t.val < 32 := lt_of_lt_of_eq t.isLt (show cfg3.N = 32 from N_3)
  by_cases h0 : t.val % 16 = 0
  · have h1 : ¬t.val % 16 = 15 := by omega
    have hc0 : cond3_0 (grid3.coords t) := (hcond3_0 t).mpr h0
    have hc1 : ¬cond3_1 (grid3.coords t) := fun h => h1 ((hcond3_1 t).mp h)
    rw [Dat.leavesExact_idle (dat3 V c) 4 t (idleAt3_4 t hc1) (noFlush3_4 t hc1)]
    rw [acc3_reset V c t h0]; unfold step3
    by_cases hz : t.val = 0
    · rw [Phi3_castSucc V c t, Phi3_zero V c _ _ hz, rest3_eq]
      iintro ⟨⟨Hg, HS, HR⟩, Ho, ⟨%d0, H0⟩, ⟨%d1, H1⟩, ⟨%d2, H2⟩, ⟨%d3, H3⟩, ⟨%d4, H4⟩⟩
      iapply (kernelRun3_A c (grid3.coords t) _ _ _ _ _ _ _ _ _ _ _ _ hc0 hc1 (iblk3 V c 0 t) (iblk3 V c 1 t) (iblk3 V c 2 t) (iblk3 V c 3 t) ((dat3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      iexists _; iexact H4
    · rw [Phi3_castSucc V c t, Phi3_pos V c _ _ hz]
      iintro ⟨⟨Hg, HS, HR⟩, Ho, ⟨%d0, H0⟩, ⟨%d1, H1⟩, ⟨%d2, H2⟩, ⟨%d3, H3⟩, ⟨%d4, H4⟩⟩
      iapply (kernelRun3_A c (grid3.coords t) _ _ _ _ _ _ _ _ _ _ _ _ hc0 hc1 (iblk3 V c 0 t) (iblk3 V c 1 t) (iblk3 V c 2 t) (iblk3 V c 3 t) ((dat3 V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond3_0 (grid3.coords t) := fun h => h0 ((hcond3_0 t).mp h)
    by_cases h1 : t.val % 16 = 15
    · have hc1 : cond3_1 (grid3.coords t) := (hcond3_1 t).mpr h1
      rw [show (dat3 V c).leavesExact 4 t = owns (c : Thread nD τ) (ms3_4 t) fullShare ((dat3 V c).after 4 t) from by
        unfold Dat.leavesExact; rw [liveAt3_4 t hc1], after3_4]
      unfold out3
      rw [acc3_step V c t h0]; unfold step3
      rw [Phi3_castSucc V c t, Phi3_pos V c _ _ hz]
      iintro ⟨⟨Hg, HS, HR⟩, Ho, ⟨%d0, H0⟩, ⟨%d1, H1⟩, ⟨%d2, H2⟩, ⟨%d3, H3⟩, ⟨%d4, H4⟩⟩
      iapply (kernelRun3_C c (grid3.coords t) _ _ _ _ _ _ _ _ _ _ _ _ hc0 hc1 (iblk3 V c 0 t) (iblk3 V c 1 t) (iblk3 V c 2 t) (iblk3 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      iexact H4
    · have hc1 : ¬cond3_1 (grid3.coords t) := fun h => h1 ((hcond3_1 t).mp h)
      rw [Dat.leavesExact_idle (dat3 V c) 4 t (idleAt3_4 t hc1) (noFlush3_4 t hc1)]
      rw [acc3_step V c t h0]; unfold step3
      rw [Phi3_castSucc V c t, Phi3_pos V c _ _ hz]
      iintro ⟨⟨Hg, HS, HR⟩, Ho, ⟨%d0, H0⟩, ⟨%d1, H1⟩, ⟨%d2, H2⟩, ⟨%d3, H3⟩, ⟨%d4, H4⟩⟩
      iapply (kernelRun3_B c (grid3.coords t) _ _ _ _ _ _ _ _ _ _ _ _ hc0 hc1 (iblk3 V c 0 t) (iblk3 V c 1 t) (iblk3 V c 2 t) (iblk3 V c 3 t) ((dat3 V c).before 4 t d4) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      iexists _; iexact H4

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Bits.Region4.lean ====
import proofs.«408051_j35570919145766_3_alg».proof.Proof.Gen.Kernel.Launch
import proofs.«408051_j35570919145766_3_alg».proof.Proof.Gen.Kernel.Skeleton
import proofs.«408051_j35570919145766_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)

abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

abbrev ms4_0 (t : Fin cfg4.N) : Memref sig .tc .vmem S512x64 .bf16 := win4_0.stage (cfg4.slots t 0)
abbrev ms4_1 (t : Fin cfg4.N) : Memref sig .tc .vmem S1024x64 .bf16 := win4_1.stage (cfg4.slots t 1)
abbrev ms4_2 (t : Fin cfg4.N) : Memref sig .tc .vmem S4x1024 .f32 := win4_2.stage (cfg4.slots t 2)
abbrev ms4_3 (t : Fin cfg4.N) : Memref sig .tc .vmem S512x1024 .f32 := win4_3.stage (cfg4.slots t 3)
abbrev scM4 : Memref sig .tc .vmem S512x1024 .f32 := Memref.whole cc4_scratch0

theorem hz4 : (![0, 0] : Fin 2 → Nat) = fun _ => 0 := funext fun a => by fin_cases a <;> rfl

def crow4 (i : grid4.Coords) (x2 : Vec F S4x1024 .f32) : Vec F S1x1024 .f32 :=
  View.ld x2 (Rect.unit (s := S4x1024) (k4_off1 i) S1x1024.size (k4_off1_inb i))

def step4 (i : grid4.Coords) (x0 : Vec F S512x64 .bf16) (x1 : Vec F S1024x64 .bf16) (x2 : Vec F S4x1024 .f32) (acc : Vec F S512x1024 .f32) : Vec F S512x1024 .f32 :=
  k4_pay2 x0 x1 (crow4 i x2) acc

section runs
variable (c : Dev nD) (i : grid4.Coords) (arg2 : Memref sig .tc .vmem S512x64 .bf16) (harg2 : arg2.IsWhole) (arg3 : Memref sig .tc .vmem S1024x64 .bf16) (harg3 : arg3.IsWhole) (arg4 : Memref sig .tc .vmem S4x1024 .f32) (harg4 : arg4.IsWhole) (arg5 : Memref sig .tc .vmem S512x1024 .f32) (harg5 : arg5.IsWhole) (arg6 : Memref sig .tc .vmem S512x1024 .f32) (harg6 : arg6.IsWhole)

set_option maxHeartbeats 1000000 in
/-- At a first step the accumulator ends at the step onto zero, whatever it held. -/
theorem run4_A (hc0 : cond4_0 i) (hc1 : ¬cond4_1 i) (x0 : Vec F S512x64 .bf16) (x1 : Vec F S1024x64 .bf16) (x2 : Vec F S4x1024 .f32) (xi3 : Vec F S512x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (step4 i x0 x1 x2 (k4_pay1 (F := F)))) -∗ K ⟨⟩))
      ⊢ wp frame (wpE (defs₀ (F := F)) Variants.none c none) E (cc4__final_logits_kernel i arg2 harg2 arg3 harg3 arg4 harg4 arg5 harg5 arg6 harg6) K := by
  simp only [cc4__final_logits_kernel_eq_skeleton]; unfold cc4__final_logits_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  try sl_unfold_words
  rw [View.read_writes_eq_canon _ _ _ (fun y => ⟨_, List.mem_cons_self .., View.mem_set_unit_zero hz4 inb_S512x1024_S512x1024_0_0 y⟩)]
  rw [View.canon_cons_unit_zero (S := S512x1024) hz4, View.readCov_unit_zero (S := S512x1024) _ hz4]
  unfold step4 crow4
  simp only [View.readAt_eq_ld, harg2.read_unread, harg3.read_unread, harg4.read_unread, View.ld_unit_zero (S := S512x64) hz4, View.ld_unit_zero (S := S1024x64) hz4]
  try rfl

set_option maxHeartbeats 1000000 in
/-- At a middle step it ends at the step onto what it held. -/
theorem run4_B (hc0 : ¬cond4_0 i) (hc1 : ¬cond4_1 i) (x0 : Vec F S512x64 .bf16) (x1 : Vec F S1024x64 .bf16) (x2 : Vec F S4x1024 .f32) (xs : Vec F S512x1024 .f32) (xi3 : Vec F S512x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (step4 i x0 x1 x2 xs)) -∗ K ⟨⟩))
      ⊢ wp frame (wpE (defs₀ (F := F)) Variants.none c none) E (cc4__final_logits_kernel i arg2 harg2 arg3 harg3 arg4 harg4 arg5 harg5 arg6 harg6) K := by
  simp only [cc4__final_logits_kernel_eq_skeleton]; unfold cc4__final_logits_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  try sl_unfold_words
  rw [View.read_writes_eq_canon _ _ _ (fun y => ⟨_, List.mem_cons_self .., View.mem_set_unit_zero hz4 inb_S512x1024_S512x1024_0_0 y⟩)]
  rw [View.canon_unit_zero (S := S512x1024) hz4]
  unfold step4 crow4
  simp only [View.readAt_eq_ld, harg2.read_unread, harg3.read_unread, harg4.read_unread, harg6.read_unread, View.ld_unit_zero (S := S512x64) hz4, View.ld_unit_zero (S := S1024x64) hz4, View.ld_unit_zero (S := S512x1024) hz4]
  try rfl

set_option maxHeartbeats 1000000 in
/-- At a last step likewise, and the output block ends at the accumulator's logarithm. -/
theorem run4_C (hc0 : ¬cond4_0 i) (hc1 : cond4_1 i) (x0 : Vec F S512x64 .bf16) (x1 : Vec F S1024x64 .bf16) (x2 : Vec F S4x1024 .f32) (xs : Vec F S512x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k4_pay3 (step4 i x0 x1 x2 xs)) ∗ owns (c : Thread nD τ) arg6 fullShare (step4 i x0 x1 x2 xs)) -∗ K ⟨⟩))
      ⊢ wp frame (wpE (defs₀ (F := F)) Variants.none c none) E (cc4__final_logits_kernel i arg2 harg2 arg3 harg3 arg4 harg4 arg5 harg5 arg6 harg6) K := by
  simp only [cc4__final_logits_kernel_eq_skeleton]; unfold cc4__final_logits_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    try sl_unfold_words
    rw [View.read_writes_eq_canon _ _ _ (fun y => ⟨_, List.mem_cons_self .., View.mem_set_unit_zero hz4 inb_S512x1024_S512x1024_0_0 y⟩)]
    rw [View.canon_unit_zero (S := S512x1024) hz4, View.readCov_unit_zero (S := S512x1024) _ hz4]
    unfold step4 crow4
    simp only [View.readAt_eq_ld, harg2.read_unread, harg3.read_unread, harg4.read_unread, harg6.read_unread, View.ld_unit_zero (S := S512x64) hz4, View.ld_unit_zero (S := S1024x64) hz4, View.ld_unit_zero (S := S512x1024) hz4]
    try rfl
  iexists _; isplitr
  swap; · iexact HS
  ipureintro
  try sl_unfold_words
  rw [View.read_writes_eq_canon _ _ _ (fun y => ⟨_, List.mem_cons_self .., View.mem_set_unit_zero hz4 inb_S512x1024_S512x1024_0_0 y⟩)]
  rw [View.canon_unit_zero (S := S512x1024) hz4]
  unfold step4 crow4
  simp only [View.readAt_eq_ld, harg2.read_unread, harg3.read_unread, harg4.read_unread, harg6.read_unread, View.ld_unit_zero (S := S512x64) hz4, View.ld_unit_zero (S := S1024x64) hz4, View.ld_unit_zero (S := S512x1024) hz4]
  try rfl

end runs

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

def acc4 (c : Dev nD) : (n : ℕ) → n < cfg4.N → Vec F S512x1024 .f32
  | 0, hn => step4 (grid4.coords ⟨0, hn⟩) (iblk4 V c 0 ⟨0, hn⟩) (iblk4 V c 1 ⟨0, hn⟩) (iblk4 V c 2 ⟨0, hn⟩) (k4_pay1 (F := F))
  | n + 1, hn => step4 (grid4.coords ⟨n + 1, hn⟩) (iblk4 V c 0 ⟨n + 1, hn⟩) (iblk4 V c 1 ⟨n + 1, hn⟩) (iblk4 V c 2 ⟨n + 1, hn⟩)
      (if (n + 1) % 4 = 0 then k4_pay1 (F := F) else acc4 c n (Nat.lt_of_succ_lt hn))

theorem acc4_reset (c : Dev nD) (t : Fin cfg4.N) (h : t.val % 4 = 0) :
    acc4 V c t.val t.isLt = step4 (grid4.coords t) (iblk4 V c 0 t) (iblk4 V c 1 t) (iblk4 V c 2 t) (k4_pay1 (F := F)) := by
  obtain ⟨n, hn⟩ := t
  cases n with
  | zero => rfl
  | succ n => exact congrArg (step4 _ _ _ _) (if_pos h)

theorem acc4_step (c : Dev nD) (t : Fin cfg4.N) (h : ¬t.val % 4 = 0) :
    acc4 V c t.val t.isLt = step4 (grid4.coords t) (iblk4 V c 0 t) (iblk4 V c 1 t) (iblk4 V c 2 t)
      (acc4 V c (t.val - 1) (Nat.lt_of_le_of_lt (Nat.sub_le _ _) t.isLt)) := by
  obtain ⟨n, hn⟩ := t
  cases n with
  | zero => exact absurd (Nat.zero_mod _) h
  | succ n => exact congrArg (step4 _ _ _ _) (if_neg h)

def Phi4 (c : Dev nD) : (n : ℕ) → n ≤ cfg4.N → sProp 𝕄
  | 0, _ => iprop((∃ r, prngReg c r) ∗ Pipeline.scopedRest (Ix := Unit) (Name := ℕ) (U := UR sig nD τ) (Lvl := ℕ) spec4 c)
  | n + 1, hn => iprop((∃ r, prngReg c r) ∗ owns (c : Thread nD τ) scM4 fullShare (acc4 V c n hn)
      ∗ Pipeline.scopedRestBut (Ix := Unit) (Name := ℕ) (U := UR sig nD τ) (Lvl := ℕ) spec4 c [cc4_scratch0])

theorem Phi4_zero (c : Dev nD) (n : ℕ) (h : n ≤ cfg4.N) (hz : n = 0) :
    Phi4 V c n h = iprop((∃ r, prngReg c r) ∗ Pipeline.scopedRest (Ix := Unit) (Name := ℕ) (U := UR sig nD τ) (Lvl := ℕ) spec4 c) := by
  subst hz; rfl

theorem Phi4_succ (c : Dev nD) (n : ℕ) (hn : n < cfg4.N) :
    Phi4 V c (n + 1) hn = iprop((∃ r, prngReg c r) ∗ owns (c : Thread nD τ) scM4 fullShare (acc4 V c n hn)
      ∗ Pipeline.scopedRestBut (Ix := Unit) (Name := ℕ) (U := UR sig nD τ) (Lvl := ℕ) spec4 c [cc4_scratch0]) := rfl

theorem Phi4_pos (c : Dev nD) (n : ℕ) (h : n ≤ cfg4.N) (hz : n ≠ 0) :
    Phi4 V c n h = iprop((∃ r, prngReg c r) ∗ owns (c : Thread nD τ) scM4 fullShare (acc4 V c (n - 1) (by omega))
      ∗ Pipeline.scopedRestBut (Ix := Unit) (Name := ℕ) (U := UR sig nD τ) (Lvl := ℕ) spec4 c [cc4_scratch0]) := by
  cases n with
  | zero => exact absurd rfl hz
  | succ n => rfl

theorem scopedRest4_acc (c : Dev nD) :
    (Pipeline.scopedRest (Ix := Unit) (Name := ℕ) (U := UR sig nD τ) (Lvl := ℕ) spec4 c : sProp 𝕄)
      = iprop(iprop((∃ d, owns (c : Thread nD τ) scM4 fullShare d))
          ∗ Pipeline.scopedRestBut (Ix := Unit) (Name := ℕ) (U := UR sig nD τ) (Lvl := ℕ) spec4 c [cc4_scratch0]) := by
  rw [scopedRest4_split]; simp only [scM4, owns_whole]; try rfl

def dat4 (V : (c : Dev nD) → (b : Ref sig .tc) → Buf (Elt F) ((c : Thread nD τ).loc b)) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val t.isLt)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem q_eq4 (c : Dev nD) (w : Fin cfg4.W) : (dat4 V c).q w = fullShare := by
  dsimp only [dat4]

theorem owed_eq4 (c : Dev nD) (j : Fin (cfg4.N + 1)) : (dat4 V c).owed j = 0 := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = k4_pay3 (acc4 V c t.val t.isLt) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

theorem Phi_in4 (c : Dev nD) :
    (iprop((∃ r, prngReg c r) ∗ Pipeline.scopedRest (Ix := Unit) (Name := ℕ) (U := UR sig nD τ) (Lvl := ℕ) spec4 c) : sProp 𝕄) ⊢ (dat4 V c).Φ 0 := by
  rw [show (dat4 V c).Φ 0 = Phi4 V c 0 (Nat.zero_le _) from rfl, Phi4_zero V c 0 _ rfl]
  try exact Idealize.SL.BI.Entails.refl _

theorem Phi_out4 (c : Dev nD) :
    (dat4 V c).Φ (Fin.last cfg4.N) ⊢ (iprop((∃ r, prngReg c r) ∗ Pipeline.scopedRest (Ix := Unit) (Name := ℕ) (U := UR sig nD τ) (Lvl := ℕ) spec4 c) : sProp 𝕄) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 32 := N_4; omega), scopedRest4_acc]
  iintro ⟨Hg, HS, HR⟩
  isplitl [Hg]; · iexact Hg
  isplitl [HS]
  · iexists _; iexact HS
  iexact HR

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The point's place among its 4 prototype steps says which case runs; the accumulator is handed from point to point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  have hN : t.val < 32 := lt_of_lt_of_eq t.isLt (show cfg4.N = 32 from N_4)
  by_cases h0 : t.val % 4 = 0
  · have hc0 : cond4_0 (grid4.coords t) := (hcond4_0 t).mpr h0
    have hc1 : ¬cond4_1 (grid4.coords t) := fun h => by have := (hcond4_1 t).mp h; omega
    rw [Dat.leavesExact_idle (dat4 V c) 3 t (idleAt4_3 t hc1) (noFlush4_3 t hc1)]
    rw [acc4_reset V c t h0]
    by_cases hz : t.val = 0
    · rw [Phi4_castSucc V c t, Phi4_zero V c _ _ hz, scopedRest4_acc]
      iintro ⟨⟨Hg, HS, HR⟩, Ho, ⟨%d0, H0⟩, ⟨%d1, H1⟩, ⟨%d2, H2⟩, ⟨%d3, H3⟩⟩
      iapply (run4_A c (grid4.coords t) _ _ _ _ _ _ _ _ _ _ hc0 hc1 (iblk4 V c 0 t) (iblk4 V c 1 t) (iblk4 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      iexists _; iexact H3
    · rw [Phi4_castSucc V c t, Phi4_pos V c _ _ hz]
      iintro ⟨⟨Hg, HS, HR⟩, Ho, ⟨%d0, H0⟩, ⟨%d1, H1⟩, ⟨%d2, H2⟩, ⟨%d3, H3⟩⟩
      iapply (run4_A c (grid4.coords t) _ _ _ _ _ _ _ _ _ _ hc0 hc1 (iblk4 V c 0 t) (iblk4 V c 1 t) (iblk4 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      iexists _; iexact H3
  · have hc0 : ¬cond4_0 (grid4.coords t) := fun h => h0 ((hcond4_0 t).mp h)
    have hz : t.val ≠ 0 := fun e => h0 (by rw [e])
    rw [acc4_step V c t h0]
    rw [Phi4_castSucc V c t, Phi4_pos V c _ _ hz]
    by_cases h3 : t.val % 4 = 3
    · have hc1 : cond4_1 (grid4.coords t) := (hcond4_1 t).mpr h3
      rw [show (dat4 V c).leavesExact 3 t = owns (c : Thread nD τ) (ms4_3 t) fullShare ((dat4 V c).after 3 t) from by
        unfold Dat.leavesExact; rw [liveAt4_3 t hc1], after4_3, acc4_step V c t h0]
      iintro ⟨⟨Hg, HS, HR⟩, Ho, ⟨%d0, H0⟩, ⟨%d1, H1⟩, ⟨%d2, H2⟩, ⟨%d3, H3⟩⟩
      iapply (run4_C c (grid4.coords t) _ _ _ _ _ _ _ _ _ _ hc0 hc1 (iblk4 V c 0 t) (iblk4 V c 1 t) (iblk4 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      iexact H3
    · have hc1 : ¬cond4_1 (grid4.coords t) := fun h => h3 ((hcond4_1 t).mp h)
      rw [Dat.leavesExact_idle (dat4 V c) 3 t (idleAt4_3 t hc1) (noFlush4_3 t hc1)]
      iintro ⟨⟨Hg, HS, HR⟩, Ho, ⟨%d0, H0⟩, ⟨%d1, H1⟩, ⟨%d2, H2⟩, ⟨%d3, H3⟩⟩
      iapply (run4_B c (grid4.coords t) _ _ _ _ _ _ _ _ _ _ hc0 hc1 (iblk4 V c 0 t) (iblk4 V c 1 t) (iblk4 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      iexists _; iexact H3

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.Bits.Segs.lean ====
import proofs.«408051_j35570919145766_3_alg».proof.Proof.Bits.Region0
import proofs.«408051_j35570919145766_3_alg».proof.Proof.Bits.Region1
import proofs.«408051_j35570919145766_3_alg».proof.Proof.Bits.Region2
import proofs.«408051_j35570919145766_3_alg».proof.Proof.Bits.Region3
import proofs.«408051_j35570919145766_3_alg».proof.Proof.Bits.Region4
import proofs.«408051_j35570919145766_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

def outsBase : Gen.Outs (F := F) := fun _ r c => m ((c : Thread nD τ).loc r)

def outsWith (o : Gen.Outs (F := F)) (r₀ : Ref sig .tc) (x : (c : Dev nD) → Buf (Elt F) ((c : Thread nD τ).loc r₀)) : Gen.Outs (F := F) :=
  fun J r c => if h : r = r₀ then h ▸ x c else o J r c

theorem outsWith_same (o : Gen.Outs (F := F)) (r₀ : Ref sig .tc) (x : (c : Dev nD) → Buf (Elt F) ((c : Thread nD τ).loc r₀))
    (J : ℕ) (c : Dev nD) : outsWith o r₀ x J r₀ c = x c := by
  unfold outsWith; rw [dif_pos rfl]

theorem outsWith_ne (o : Gen.Outs (F := F)) (r₀ : Ref sig .tc) (x : (c : Dev nD) → Buf (Elt F) ((c : Thread nD τ).loc r₀))
    (J : ℕ) (r : Ref sig .tc) (c : Dev nD) (h : r ≠ r₀) : outsWith o r₀ x J r c = o J r c := by
  unfold outsWith; rw [dif_neg h]

def outs5 : Gen.Outs (F := F) :=
  outsWith (outsBase m) main_v26 fun c => (dat0 (atRefs (Gen.V4 m)) c).arrAt 2 cfg0.N
def outs6 : Gen.Outs (F := F) :=
  outsWith (outs5 m) main_v27 fun c => (dat1 (atRefs (Gen.V5 m (outs5 m))) c).arrAt 2 cfg1.N
def outs7 : Gen.Outs (F := F) :=
  outsWith (outs6 m) main_v28 fun c => (dat2 (atRefs (Gen.V6 m (outs6 m))) c).arrAt 2 cfg2.N
def outs8 : Gen.Outs (F := F) :=
  outsWith (outs7 m) main_v29 fun c => (dat3 (atRefs (Gen.V7 m (outs7 m))) c).arrAt 4 cfg3.N
/-- The regions' output arrays, each defined over the ones before it. -/
def outs : Gen.Outs (F := F) :=
  outsWith (outs8 m) main_v47 fun c => (dat4 (atRefs (Gen.V13 m (outs8 m))) c).arrAt 3 cfg4.N

theorem outs_v26 (J : ℕ) (c : Dev nD) : outs m J main_v26 c = (dat0 (atRefs (Gen.V4 m)) c).arrAt 2 cfg0.N := by
  unfold outs; rw [outsWith_ne _ _ _ _ _ _ (by decide)]
  unfold outs8; rw [outsWith_ne _ _ _ _ _ _ (by decide)]
  unfold outs7; rw [outsWith_ne _ _ _ _ _ _ (by decide)]
  unfold outs6; rw [outsWith_ne _ _ _ _ _ _ (by decide)]
  unfold outs5; rw [outsWith_same]

theorem outs5_v26 (J : ℕ) (c : Dev nD) : outs5 m J main_v26 c = (dat0 (atRefs (Gen.V4 m)) c).arrAt 2 cfg0.N := by
  unfold outs5; rw [outsWith_same]

theorem outs6_v26 (J : ℕ) (c : Dev nD) : outs6 m J main_v26 c = (dat0 (atRefs (Gen.V4 m)) c).arrAt 2 cfg0.N := by
  unfold outs6; rw [outsWith_ne _ _ _ _ _ _ (by decide)]; exact outs5_v26 m J c

theorem outs7_v26 (J : ℕ) (c : Dev nD) : outs7 m J main_v26 c = (dat0 (atRefs (Gen.V4 m)) c).arrAt 2 cfg0.N := by
  unfold outs7; rw [outsWith_ne _ _ _ _ _ _ (by decide)]; exact outs6_v26 m J c

theorem outs8_v26 (J : ℕ) (c : Dev nD) : outs8 m J main_v26 c = (dat0 (atRefs (Gen.V4 m)) c).arrAt 2 cfg0.N := by
  unfold outs8; rw [outsWith_ne _ _ _ _ _ _ (by decide)]; exact outs7_v26 m J c

theorem V5_outs : Gen.V5 m (outs m) = Gen.V5 m (outs5 m) := by
  funext c; show Function.update _ _ _ = Function.update _ _ _
  rw [outs_v26, outs5_v26]
theorem V5_outs6 : Gen.V5 m (outs6 m) = Gen.V5 m (outs5 m) := by
  funext c; show Function.update _ _ _ = Function.update _ _ _
  rw [outs6_v26, outs5_v26]
theorem V5_outs7 : Gen.V5 m (outs7 m) = Gen.V5 m (outs5 m) := by
  funext c; show Function.update _ _ _ = Function.update _ _ _
  rw [outs7_v26, outs5_v26]
theorem V5_outs8 : Gen.V5 m (outs8 m) = Gen.V5 m (outs5 m) := by
  funext c; show Function.update _ _ _ = Function.update _ _ _
  rw [outs8_v26, outs5_v26]

theorem outs6_v27 (J : ℕ) (c : Dev nD) : outs6 m J main_v27 c = (dat1 (atRefs (Gen.V5 m (outs5 m))) c).arrAt 2 cfg1.N := by
  unfold outs6; rw [outsWith_same]
theorem outs7_v27 (J : ℕ) (c : Dev nD) : outs7 m J main_v27 c = (dat1 (atRefs (Gen.V5 m (outs5 m))) c).arrAt 2 cfg1.N := by
  unfold outs7; rw [outsWith_ne _ _ _ _ _ _ (by decide)]; exact outs6_v27 m J c
theorem outs8_v27 (J : ℕ) (c : Dev nD) : outs8 m J main_v27 c = (dat1 (atRefs (Gen.V5 m (outs5 m))) c).arrAt 2 cfg1.N := by
  unfold outs8; rw [outsWith_ne _ _ _ _ _ _ (by decide)]; exact outs7_v27 m J c
theorem outs_v27 (J : ℕ) (c : Dev nD) : outs m J main_v27 c = (dat1 (atRefs (Gen.V5 m (outs5 m))) c).arrAt 2 cfg1.N := by
  unfold outs; rw [outsWith_ne _ _ _ _ _ _ (by decide)]; exact outs8_v27 m J c

theorem V6_outs : Gen.V6 m (outs m) = Gen.V6 m (outs6 m) := by
  funext c; show Function.update (Gen.V5 m (outs m) c) _ _ = Function.update (Gen.V5 m (outs6 m) c) _ _
  rw [V5_outs, V5_outs6, outs_v27, outs6_v27]
theorem V6_outs7 : Gen.V6 m (outs7 m) = Gen.V6 m (outs6 m) := by
  funext c; show Function.update (Gen.V5 m (outs7 m) c) _ _ = Function.update (Gen.V5 m (outs6 m) c) _ _
  rw [V5_outs7, V5_outs6, outs7_v27, outs6_v27]
theorem V6_outs8 : Gen.V6 m (outs8 m) = Gen.V6 m (outs6 m) := by
  funext c; show Function.update (Gen.V5 m (outs8 m) c) _ _ = Function.update (Gen.V5 m (outs6 m) c) _ _
  rw [V5_outs8, V5_outs6, outs8_v27, outs6_v27]

theorem outs7_v28 (J : ℕ) (c : Dev nD) : outs7 m J main_v28 c = (dat2 (atRefs (Gen.V6 m (outs6 m))) c).arrAt 2 cfg2.N := by
  unfold outs7; rw [outsWith_same]
theorem outs8_v28 (J : ℕ) (c : Dev nD) : outs8 m J main_v28 c = (dat2 (atRefs (Gen.V6 m (outs6 m))) c).arrAt 2 cfg2.N := by
  unfold outs8; rw [outsWith_ne _ _ _ _ _ _ (by decide)]; exact outs7_v28 m J c
theorem outs_v28 (J : ℕ) (c : Dev nD) : outs m J main_v28 c = (dat2 (atRefs (Gen.V6 m (outs6 m))) c).arrAt 2 cfg2.N := by
  unfold outs; rw [outsWith_ne _ _ _ _ _ _ (by decide)]; exact outs8_v28 m J c

theorem V7_outs : Gen.V7 m (outs m) = Gen.V7 m (outs7 m) := by
  funext c; show Function.update (Gen.V6 m (outs m) c) _ _ = Function.update (Gen.V6 m (outs7 m) c) _ _
  rw [V6_outs, V6_outs7, outs_v28, outs7_v28]
theorem V7_outs8 : Gen.V7 m (outs8 m) = Gen.V7 m (outs7 m) := by
  funext c; show Function.update (Gen.V6 m (outs8 m) c) _ _ = Function.update (Gen.V6 m (outs7 m) c) _ _
  rw [V6_outs8, V6_outs7, outs8_v28, outs7_v28]

theorem outs8_v29 (J : ℕ) (c : Dev nD) : outs8 m J main_v29 c = (dat3 (atRefs (Gen.V7 m (outs7 m))) c).arrAt 4 cfg3.N := by
  unfold outs8; rw [outsWith_same]
theorem outs_v29 (J : ℕ) (c : Dev nD) : outs m J main_v29 c = (dat3 (atRefs (Gen.V7 m (outs7 m))) c).arrAt 4 cfg3.N := by
  unfold outs; rw [outsWith_ne _ _ _ _ _ _ (by decide)]; exact outs8_v29 m J c

theorem V8_outs : Gen.V8 m (outs m) = Gen.V8 m (outs8 m) := by
  funext c; show Function.update (Gen.V7 m (outs m) c) _ _ = Function.update (Gen.V7 m (outs8 m) c) _ _
  rw [V7_outs, V7_outs8, outs_v29, outs8_v29]
theorem V13_outs : Gen.V13 m (outs m) = Gen.V13 m (outs8 m) := by
  funext c
  exact congrArg (fun v => StableHlo.after hostOps4_4 (StableHlo.after hostOps4_3 (StableHlo.after hostOps4_2
    (StableHlo.after hostOps4_1 (StableHlo.after hostOps4 v))))) (congrFun (V8_outs m) c)

theorem outs_v47 (J : ℕ) (c : Dev nD) : outs m J main_v47 c = (dat4 (atRefs (Gen.V13 m (outs8 m))) c).arrAt 3 cfg4.N := by
  unfold outs; rw [outsWith_same]

theorem outs_at5 (c : Dev nD) : outs m 5 main_v26 c = (dat0 (atRefs (Gen.V4 m)) c).arrAt 2 cfg0.N := outs_v26 m 5 c
theorem outs_at6 (c : Dev nD) : outs m 6 main_v27 c = (dat1 (atRefs (Gen.V5 m (outs m))) c).arrAt 2 cfg1.N := by
  rw [outs_v27, V5_outs]
theorem outs_at7 (c : Dev nD) : outs m 7 main_v28 c = (dat2 (atRefs (Gen.V6 m (outs m))) c).arrAt 2 cfg2.N := by
  rw [outs_v28, V6_outs]
theorem outs_at8 (c : Dev nD) : outs m 8 main_v29 c = (dat3 (atRefs (Gen.V7 m (outs m))) c).arrAt 4 cfg3.N := by
  rw [outs_v29, V7_outs]
theorem outs_at14 (c : Dev nD) : outs m 14 main_v47 c = (dat4 (atRefs (Gen.V13 m (outs m))) c).arrAt 3 cfg4.N := by
  rw [outs_v47, V13_outs]

def pdats : (p : Fin 5) → (c : Dev nD) → Dat τ (Elt F) Unit ℕ (UR sig nD τ) ℕ (cfgs p) c
  | ⟨0, _⟩ => fun c => dat0 (atRefs (Gen.V4 m)) c
  | ⟨1, _⟩ => fun c => dat1 (atRefs (Gen.V5 m (outs m))) c
  | ⟨2, _⟩ => fun c => dat2 (atRefs (Gen.V6 m (outs m))) c
  | ⟨3, _⟩ => fun c => dat3 (atRefs (Gen.V7 m (outs m))) c
  | ⟨4, _⟩ => fun c => dat4 (atRefs (Gen.V13 m (outs m))) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem sub_bound {cfg : Pipeline.Cfg sig Λ₀} {c : Dev nD} (dat : Dat τ (Elt F) Unit ℕ (UR sig nD τ) ℕ cfg c) (t : Fin (cfg.N + 1))
    (h : dat.recorded t = Set.univ) (W : Set (SemLoc sig × Unit)) : W ⊆ dat.bound () t :=
  fun x _ => Or.inl (h ▸ Set.mem_univ x)

theorem recorded_eq0 (V : (c : Dev nD) → (b : Ref sig .tc) → Buf (Elt F) ((c : Thread nD τ).loc b)) (c : Dev nD)
    (j : Fin (cfg0.N + 1)) : (dat0 V c).recorded j = Set.univ := rfl

theorem hF0 (c : Dev nD) : ∀ w : Fin cfg0.W,
    (pdats m 0 c).arrAt w cfg0.N = atRefs (Gen.V5 m (outs m)) c (Pipeline.arrRef spec0 w)
  | ⟨0, _⟩ => ((dat0 (atRefs (Gen.V4 m)) c).arrAt_in 0 rfl _).trans
      ((A_eq0 (atRefs (Gen.V4 m)) c 0).trans (Gen.V5_of m (outs m) c main_arg0 (by decide)).symm)
  | ⟨1, _⟩ => ((dat0 (atRefs (Gen.V4 m)) c).arrAt_in 1 rfl _).trans
      ((A_eq0 (atRefs (Gen.V4 m)) c 1).trans (Gen.V5_of m (outs m) c main_v25 (by decide)).symm)
  | ⟨2, _⟩ => by
    show (dat0 (atRefs (Gen.V4 m)) c).arrAt 2 cfg0.N
      = Function.update (Gen.V4 m c) (Proc.devRef .tc main_v26) (outs m 5 main_v26 c) (Proc.devRef .tc main_v26)
    rw [Function.update_self, outs_v26]
theorem hrest0 (c : Dev nD) : ∀ b, b ∉ Finset.univ.image (Pipeline.arrRef spec0) →
    atRefs (Gen.V5 m (outs m)) c b = atRefs (Gen.V4 m) c b := fun b hb =>
  Gen.V5_of m (outs m) c b fun h => hb (Finset.mem_image.mpr ⟨2, Finset.mem_univ _, (List.mem_singleton.mp h).symm⟩)

set_option backward.isDefEq.respectTransparency.types false in
/-- A region as a segment of the run: entered with every array at the contents left so far, left with its output array at what its points wrote. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (Gen.V4 m)) c).loose
  hwaits := Pipeline.hwaits_of_owed_zero _ _ _ _ L lv 0 fun c t => owed_eq0 (atRefs (Gen.V4 m)) c t
  pre c := iprop(StableHlo.held (c : Thread nD τ) (Pipeline.ucRefs τ sig) (Gen.V4 m c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atRefs (Gen.V4 m) c)
  hentry c := by
    rw [Pipeline.ownSems0_none]
    have hsplit := Pipeline.arrays_of_unscopedBufs (p := 0) (pcfgs (F := F)) Gen.adm (pdats m) launch0.win launch0.arr_whole c
      ((pdats m 0 c).share_full fun w => q_eq0 (atRefs (Gen.V4 m)) c w) (atRefs (Gen.V4 m) c) fun w => A_eq0 (atRefs (Gen.V4 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact sub_bound _ _ (recorded_eq0 (atRefs (Gen.V4 m)) c 0) _
      rw [show (pdats m 0 c).owed 0 = 0 from owed_eq0 (atRefs (Gen.V4 m)) c 0]
      iexact HO
    isplitl [Hp]; · iexact Hp
    iexact Hrest
  hin c := by
    refine BIBase.Entails.trans ?_ (Phi_in0 (atRefs (Gen.V4 m)) c)
    iintro ⟨Hp, -, Hr⟩
    isplitl [Hp]; · iexact Hp
    iexact Hr
  hout c := by
    rw [Pipeline.ownSems0_none]
    refine BIBase.Entails.trans (Phi_out0 (atRefs (Gen.V4 m)) c) ?_
    iintro ⟨Hp, Hr⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => q_eq0 (atRefs (Gen.V4 m)) c w)
      (atRefs (Gen.V4 m) c) (atRefs (Gen.V5 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 0 c).owed (Fin.last _) = 0 from owed_eq0 (atRefs (Gen.V4 m)) c _]
    iexact HO

theorem recorded_eq1 (V : (c : Dev nD) → (b : Ref sig .tc) → Buf (Elt F) ((c : Thread nD τ).loc b)) (c : Dev nD)
    (j : Fin (cfg1.N + 1)) : (dat1 V c).recorded j = Set.univ := rfl

theorem hF1 (c : Dev nD) : ∀ w : Fin cfg1.W,
    (pdats m 1 c).arrAt w cfg1.N = atRefs (Gen.V6 m (outs m)) c (Pipeline.arrRef spec1 w)
  | ⟨0, _⟩ => ((dat1 (atRefs (Gen.V5 m (outs m))) c).arrAt_in 0 rfl _).trans
      ((A_eq1 (atRefs (Gen.V5 m (outs m))) c 0).trans (Gen.V6_of m (outs m) c main_v26 (by decide)).symm)
  | ⟨1, _⟩ => ((dat1 (atRefs (Gen.V5 m (outs m))) c).arrAt_in 1 rfl _).trans
      ((A_eq1 (atRefs (Gen.V5 m (outs m))) c 1).trans (Gen.V6_of m (outs m) c main_arg1 (by decide)).symm)
  | ⟨2, _⟩ => by
    show (dat1 (atRefs (Gen.V5 m (outs m))) c).arrAt 2 cfg1.N
      = Function.update (Gen.V5 m (outs m) c) (Proc.devRef .tc main_v27) (outs m 6 main_v27 c) (Proc.devRef .tc main_v27)
    rw [Function.update_self, outs_v27, V5_outs]
theorem hrest1 (c : Dev nD) : ∀ b, b ∉ Finset.univ.image (Pipeline.arrRef spec1) →
    atRefs (Gen.V6 m (outs m)) c b = atRefs (Gen.V5 m (outs m)) c b := fun b hb =>
  Gen.V6_of m (outs m) c b fun h => hb (Finset.mem_image.mpr ⟨2, Finset.mem_univ _, (List.mem_singleton.mp h).symm⟩)

set_option backward.isDefEq.respectTransparency.types false in
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (Gen.V5 m (outs m))) c).loose
  hwaits := Pipeline.hwaits_of_owed_zero _ _ _ _ L lv 1 fun c t => owed_eq1 (atRefs (Gen.V5 m (outs m))) c t
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atRefs (Gen.V5 m (outs m)) c)
  hentry c := by
    rw [Pipeline.ownSems0_none]
    have hsplit := Pipeline.arrays_of_unscopedBufs (p := 1) (pcfgs (F := F)) Gen.adm (pdats m) launch1.win launch1.arr_whole c
      ((pdats m 1 c).share_full fun w => q_eq1 (atRefs (Gen.V5 m (outs m))) c w) (atRefs (Gen.V5 m (outs m)) c) fun w => A_eq1 (atRefs (Gen.V5 m (outs m))) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact sub_bound _ _ (recorded_eq1 (atRefs (Gen.V5 m (outs m))) c 0) _
      rw [show (pdats m 1 c).owed 0 = 0 from owed_eq1 (atRefs (Gen.V5 m (outs m))) c 0]
      iexact HO
    isplitl [Hp]; · iexact Hp
    iexact Hrest
  hin c := by
    refine BIBase.Entails.trans ?_ (Phi_in1 (atRefs (Gen.V5 m (outs m))) c)
    iintro ⟨Hp, -, Hr⟩
    isplitl [Hp]; · iexact Hp
    iexact Hr
  hout c := by
    rw [Pipeline.ownSems0_none]
    refine BIBase.Entails.trans (Phi_out1 (atRefs (Gen.V5 m (outs m))) c) ?_
    iintro ⟨Hp, Hr⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun w => q_eq1 (atRefs (Gen.V5 m (outs m))) c w)
      (atRefs (Gen.V5 m (outs m)) c) (atRefs (Gen.V6 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 1 c).owed (Fin.last _) = 0 from owed_eq1 (atRefs (Gen.V5 m (outs m))) c _]
    iexact HO

theorem recorded_eq2 (V : (c : Dev nD) → (b : Ref sig .tc) → Buf (Elt F) ((c : Thread nD τ).loc b)) (c : Dev nD)
    (j : Fin (cfg2.N + 1)) : (dat2 V c).recorded j = Set.univ := rfl

theorem hF2 (c : Dev nD) : ∀ w : Fin cfg2.W,
    (pdats m 2 c).arrAt w cfg2.N = atRefs (Gen.V7 m (outs m)) c (Pipeline.arrRef spec2 w)
  | ⟨0, _⟩ => ((dat2 (atRefs (Gen.V6 m (outs m))) c).arrAt_in 0 rfl _).trans
      ((A_eq2 (atRefs (Gen.V6 m (outs m))) c 0).trans (Gen.V7_of m (outs m) c main_v27 (by decide)).symm)
  | ⟨1, _⟩ => ((dat2 (atRefs (Gen.V6 m (outs m))) c).arrAt_in 1 rfl _).trans
      ((A_eq2 (atRefs (Gen.V6 m (outs m))) c 1).trans (Gen.V7_of m (outs m) c main_arg1 (by decide)).symm)
  | ⟨2, _⟩ => by
    show (dat2 (atRefs (Gen.V6 m (outs m))) c).arrAt 2 cfg2.N
      = Function.update (Gen.V6 m (outs m) c) (Proc.devRef .tc main_v28) (outs m 7 main_v28 c) (Proc.devRef .tc main_v28)
    rw [Function.update_self, outs_v28, V6_outs]
theorem hrest2 (c : Dev nD) : ∀ b, b ∉ Finset.univ.image (Pipeline.arrRef spec2) →
    atRefs (Gen.V7 m (outs m)) c b = atRefs (Gen.V6 m (outs m)) c b := fun b hb =>
  Gen.V7_of m (outs m) c b fun h => hb (Finset.mem_image.mpr ⟨2, Finset.mem_univ _, (List.mem_singleton.mp h).symm⟩)

set_option backward.isDefEq.respectTransparency.types false in
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (Gen.V6 m (outs m))) c).loose
  hwaits := Pipeline.hwaits_of_owed_zero _ _ _ _ L lv 2 fun c t => owed_eq2 (atRefs (Gen.V6 m (outs m))) c t
  pre c := iprop(StableHlo.held (c : Thread nD τ) (Pipeline.ucRefs τ sig) (Gen.V6 m (outs m) c) ∗ R c)
  post c := iprop(StableHlo.held (c : Thread nD τ) (Pipeline.ucRefs τ sig) (Gen.V7 m (outs m) c) ∗ R c)
  X c := iprop(∃ r, prngReg c r)
  Y c := iprop(∃ r, prngReg c r)
  Z c := Pipeline.unscopedRest (Ix := Unit) (Name := ℕ) (U := UR sig nD τ) (Lvl := ℕ) spec2 c (atRefs (Gen.V6 m (outs m)) c)
  hentry c := by
    rw [Pipeline.ownSems0_none]
    have hsplit := Pipeline.arrays_of_unscopedBufs (p := 2) (pcfgs (F := F)) Gen.adm (pdats m) launch2.win launch2.arr_whole c
      ((pdats m 2 c).share_full fun w => q_eq2 (atRefs (Gen.V6 m (outs m))) c w) (atRefs (Gen.V6 m (outs m)) c) fun w => A_eq2 (atRefs (Gen.V6 m (outs m))) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact sub_bound _ _ (recorded_eq2 (atRefs (Gen.V6 m (outs m))) c 0) _
      rw [show (pdats m 2 c).owed 0 = 0 from owed_eq2 (atRefs (Gen.V6 m (outs m))) c 0]
      iexact HO
    isplitl [Hp]; · iexact Hp
    iexact Hrest
  hin c := by
    refine BIBase.Entails.trans ?_ (Phi_in2 (atRefs (Gen.V6 m (outs m))) c)
    iintro ⟨Hp, -, Hr⟩
    isplitl [Hp]; · iexact Hp
    iexact Hr
  hout c := by
    rw [Pipeline.ownSems0_none]
    refine BIBase.Entails.trans (Phi_out2 (atRefs (Gen.V6 m (outs m))) c) ?_
    iintro ⟨Hp, Hr⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun w => q_eq2 (atRefs (Gen.V6 m (outs m))) c w)
      (atRefs (Gen.V6 m (outs m)) c) (atRefs (Gen.V7 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 2 c).owed (Fin.last _) = 0 from owed_eq2 (atRefs (Gen.V6 m (outs m))) c _]
    iexact HO

theorem recorded_eq3 (V : (c : Dev nD) → (b : Ref sig .tc) → Buf (Elt F) ((c : Thread nD τ).loc b)) (c : Dev nD)
    (j : Fin (cfg3.N + 1)) : (dat3 V c).recorded j = Set.univ := rfl

theorem hF3 (c : Dev nD) : ∀ w : Fin cfg3.W,
    (pdats m 3 c).arrAt w cfg3.N = atRefs (Gen.V8 m (outs m)) c (Pipeline.arrRef spec3 w)
  | ⟨0, _⟩ => ((dat3 (atRefs (Gen.V7 m (outs m))) c).arrAt_in 0 rfl _).trans
      ((A_eq3 (atRefs (Gen.V7 m (outs m))) c 0).trans (Gen.V8_of m (outs m) c main_v28 (by decide)).symm)
  | ⟨1, _⟩ => ((dat3 (atRefs (Gen.V7 m (outs m))) c).arrAt_in 1 rfl _).trans
      ((A_eq3 (atRefs (Gen.V7 m (outs m))) c 1).trans (Gen.V8_of m (outs m) c main_v26 (by decide)).symm)
  | ⟨2, _⟩ => ((dat3 (atRefs (Gen.V7 m (outs m))) c).arrAt_in 2 rfl _).trans
      ((A_eq3 (atRefs (Gen.V7 m (outs m))) c 2).trans (Gen.V8_of m (outs m) c main_arg4 (by decide)).symm)
  | ⟨3, _⟩ => ((dat3 (atRefs (Gen.V7 m (outs m))) c).arrAt_in 3 rfl _).trans
      ((A_eq3 (atRefs (Gen.V7 m (outs m))) c 3).trans (Gen.V8_of m (outs m) c main_arg5 (by decide)).symm)
  | ⟨4, _⟩ => by
    show (dat3 (atRefs (Gen.V7 m (outs m))) c).arrAt 4 cfg3.N
      = Function.update (Gen.V7 m (outs m) c) (Proc.devRef .tc main_v29) (outs m 8 main_v29 c) (Proc.devRef .tc main_v29)
    rw [Function.update_self, outs_v29, V7_outs]
theorem hrest3 (c : Dev nD) : ∀ b, b ∉ Finset.univ.image (Pipeline.arrRef spec3) →
    atRefs (Gen.V8 m (outs m)) c b = atRefs (Gen.V7 m (outs m)) c b := fun b hb =>
  Gen.V8_of m (outs m) c b fun h => hb (Finset.mem_image.mpr ⟨4, Finset.mem_univ _, (List.mem_singleton.mp h).symm⟩)

set_option backward.isDefEq.respectTransparency.types false in
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (Gen.V7 m (outs m))) c).loose
  hwaits := Pipeline.hwaits_of_owed_zero _ _ _ _ L lv 3 fun c t => owed_eq3 (atRefs (Gen.V7 m (outs m))) c t
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (atRefs (Gen.V7 m (outs m)) c)
  hentry c := by
    rw [Pipeline.ownSems0_none]
    have hsplit := Pipeline.arrays_of_unscopedBufs (p := 3) (pcfgs (F := F)) Gen.adm (pdats m) launch3.win launch3.arr_whole c
      ((pdats m 3 c).share_full fun w => q_eq3 (atRefs (Gen.V7 m (outs m))) c w) (atRefs (Gen.V7 m (outs m)) c) fun w => A_eq3 (atRefs (Gen.V7 m (outs m))) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact sub_bound _ _ (recorded_eq3 (atRefs (Gen.V7 m (outs m))) c 0) _
      rw [show (pdats m 3 c).owed 0 = 0 from owed_eq3 (atRefs (Gen.V7 m (outs m))) c 0]
      iexact HO
    isplitl [Hp]; · iexact Hp
    iexact Hrest
  hin c := by
    refine BIBase.Entails.trans ?_ (Phi_in3 (atRefs (Gen.V7 m (outs m))) c)
    iintro ⟨Hp, -, Hr⟩
    isplitl [Hp]; · iexact Hp
    iexact Hr
  hout c := by
    rw [Pipeline.ownSems0_none]
    refine BIBase.Entails.trans (Phi_out3 (atRefs (Gen.V7 m (outs m))) c) ?_
    iintro ⟨Hp, Hr⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun w => q_eq3 (atRefs (Gen.V7 m (outs m))) c w)
      (atRefs (Gen.V7 m (outs m)) c) (atRefs (Gen.V8 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 3 c).owed (Fin.last _) = 0 from owed_eq3 (atRefs (Gen.V7 m (outs m))) c _]
    iexact HO

theorem recorded_eq4 (V : (c : Dev nD) → (b : Ref sig .tc) → Buf (Elt F) ((c : Thread nD τ).loc b)) (c : Dev nD)
    (j : Fin (cfg4.N + 1)) : (dat4 V c).recorded j = Set.univ := rfl

theorem hF4 (c : Dev nD) : ∀ w : Fin cfg4.W,
    (pdats m 4 c).arrAt w cfg4.N = atRefs (Gen.V14 m (outs m)) c (Pipeline.arrRef spec4 w)
  | ⟨0, _⟩ => ((dat4 (atRefs (Gen.V13 m (outs m))) c).arrAt_in 0 rfl _).trans
      ((A_eq4 (atRefs (Gen.V13 m (outs m))) c 0).trans (Gen.V14_of m (outs m) c main_v45 (by decide)).symm)
  | ⟨1, _⟩ => ((dat4 (atRefs (Gen.V13 m (outs m))) c).arrAt_in 1 rfl _).trans
      ((A_eq4 (atRefs (Gen.V13 m (outs m))) c 1).trans (Gen.V14_of m (outs m) c main_v46 (by decide)).symm)
  | ⟨2, _⟩ => ((dat4 (atRefs (Gen.V13 m (outs m))) c).arrAt_in 2 rfl _).trans
      ((A_eq4 (atRefs (Gen.V13 m (outs m))) c 2).trans (Gen.V14_of m (outs m) c main_v25 (by decide)).symm)
  | ⟨3, _⟩ => by
    show (dat4 (atRefs (Gen.V13 m (outs m))) c).arrAt 3 cfg4.N
      = Function.update (Gen.V13 m (outs m) c) (Proc.devRef .tc main_v47) (outs m 14 main_v47 c) (Proc.devRef .tc main_v47)
    rw [Function.update_self, outs_v47, V13_outs]
theorem hrest4 (c : Dev nD) : ∀ b, b ∉ Finset.univ.image (Pipeline.arrRef spec4) →
    atRefs (Gen.V14 m (outs m)) c b = atRefs (Gen.V13 m (outs m)) c b := fun b hb =>
  Gen.V14_of m (outs m) c b fun h => hb (Finset.mem_image.mpr ⟨3, Finset.mem_univ _, (List.mem_singleton.mp h).symm⟩)

set_option backward.isDefEq.respectTransparency.types false in
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atRefs (Gen.V13 m (outs m))) c).loose
  hwaits := Pipeline.hwaits_of_owed_zero _ _ _ _ L lv 4 fun c t => owed_eq4 (atRefs (Gen.V13 m (outs m))) c t
  pre c := iprop(StableHlo.held (c : Thread nD τ) (Pipeline.ucRefs τ sig) (Gen.V13 m (outs m) c) ∗ R c)
  post c := iprop(StableHlo.held (c : Thread nD τ) (Pipeline.ucRefs τ sig) (Gen.V14 m (outs m) c) ∗ R c)
  X c := iprop(∃ r, prngReg c r)
  Y c := iprop(∃ r, prngReg c r)
  Z c := Pipeline.unscopedRest (Ix := Unit) (Name := ℕ) (U := UR sig nD τ) (Lvl := ℕ) spec4 c (atRefs (Gen.V13 m (outs m)) c)
  hentry c := by
    rw [Pipeline.ownSems0_none]
    have hsplit := Pipeline.arrays_of_unscopedBufs (p := 4) (pcfgs (F := F)) Gen.adm (pdats m) launch4.win launch4.arr_whole c
      ((pdats m 4 c).share_full fun w => q_eq4 (atRefs (Gen.V13 m (outs m))) c w) (atRefs (Gen.V13 m (outs m)) c) fun w => A_eq4 (atRefs (Gen.V13 m (outs m))) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact sub_bound _ _ (recorded_eq4 (atRefs (Gen.V13 m (outs m))) c 0) _
      rw [show (pdats m 4 c).owed 0 = 0 from owed_eq4 (atRefs (Gen.V13 m (outs m))) c 0]
      iexact HO
    isplitl [Hp]; · iexact Hp
    iexact Hrest
  hin c := by
    refine BIBase.Entails.trans ?_ (Phi_in4 (atRefs (Gen.V13 m (outs m))) c)
    iintro ⟨Hp, -, Hr⟩
    isplitl [Hp]; · iexact Hp
    iexact Hr
  hout c := by
    rw [Pipeline.ownSems0_none]
    refine BIBase.Entails.trans (Phi_out4 (atRefs (Gen.V13 m (outs m))) c) ?_
    iintro ⟨Hp, Hr⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun w => q_eq4 (atRefs (Gen.V13 m (outs m))) c w)
      (atRefs (Gen.V13 m (outs m)) c) (atRefs (Gen.V14 m (outs m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 4 c).owed (Fin.last _) = 0 from owed_eq4 (atRefs (Gen.V13 m (outs m))) c _]
    iexact HO

end Cert.Kernel.Hand

end
-- ==== Proof.Region0.lean ====
import proofs.«408051_j35570919145766_3_alg».proof.Proof.Gen.KernelIdeal.Launch
import proofs.«408051_j35570919145766_3_alg».proof.Proof.Gen.KernelIdeal.Skeleton
import proofs.«408051_j35570919145766_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

abbrev rAll0 : Rect S128x8192 := Rect.unit (s := S128x8192) ![0, 0] S128x8192.size inb_S128x8192_S128x8192_0_0

abbrev rRow0 (i : grid0.Coords) : Rect S4x8192 := Rect.unit (s := S4x8192) (k0_off1 i) S1x8192.size (k0_off1_inb i)

def out0_2 (i : grid0.Coords) (x0 : Vec F S128x8192 .f32) (x1 : Vec F S4x8192 .f32) : Vec F S128x8192 .bf16 :=
  View.canon [⟨rAll0, k0_pay1 (View.ld x0 rAll0) (View.ld x1 (rRow0 i))⟩]

theorem cover0_2 (p0 : Vec F S128x8192 .bf16) (y : S128x8192.Idx) :
    ∃ pc ∈ ([⟨rAll0, p0⟩] : List (View.Piece (Elt F) S128x8192 .bf16)), y ∈ pc.1.set :=
  View.cover_of_tiled [⟨rAll0, p0⟩] S128x8192.size (by rfl) y

set_option maxHeartbeats 1000000 in
theorem sound_kernel0 (c : Dev nD) (E : Set ℕ) (i : grid0.Coords)
    (arg2 : Memref sig .tc .vmem S128x8192 .f32) (harg2 : arg2.IsWhole) (arg3 : Memref sig .tc .vmem S4x8192 .f32) (harg3 : arg3.IsWhole)
    (arg4 : Memref sig .tc .vmem S128x8192 .bf16) (harg4 : arg4.IsWhole)
    (x0 : Vec F S128x8192 .f32) (x1 : Vec F S4x8192 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 i x0 x1)) -∗ K ⟨⟩))
      ⊢ wp frame (wpE (defs₀ (F := F)) Variants.none c none) E (cc0__prep_xk_kernel i arg2 harg2 arg3 harg3 arg4 harg4) K := by
  simp only [cc0__prep_xk_kernel_eq_skeleton]; unfold cc0__prep_xk_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (j : Fin (cfg0.N + 1)) : (dat0 V c).owed j = 0 := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (grid0.coords t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem Phi_in0 (c : Dev nD) :
    (iprop((∃ r, prngReg c r) ∗ Pipeline.scopedRest (Ix := Unit) (Name := ℕ) (U := UR sig nD τ) (Lvl := ℕ) spec0 c) : sProp 𝕄) ⊢ (dat0 V c).Φ 0 := by
  rw [show (dat0 V c).Φ 0 = Pipeline.ΦA spec0 c from rfl]; unfold Pipeline.ΦA
  iintro ⟨Hp, Hr⟩
  isplitl [Hr]; · iexact Hr
  iexact Hp

theorem Phi_out0 (c : Dev nD) :
    (dat0 V c).Φ (Fin.last cfg0.N) ⊢ (iprop((∃ r, prngReg c r) ∗ Pipeline.scopedRest (Ix := Unit) (Name := ℕ) (U := UR sig nD τ) (Lvl := ℕ) spec0 c) : sProp 𝕄) := by
  rw [show (dat0 V c).Φ (Fin.last cfg0.N) = Pipeline.ΦA spec0 c from rfl]; unfold Pipeline.ΦA
  iintro ⟨Hr, Hp⟩
  isplitl [Hp]; · iexact Hp
  iexact Hr

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- Every point loads its two blocks and stores the whole output block; nothing is carried from point to point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
import proofs.«408051_j35570919145766_3_alg».proof.Proof.Gen.KernelIdeal.Launch
import proofs.«408051_j35570919145766_3_alg».proof.Proof.Gen.KernelIdeal.Skeleton
import proofs.«408051_j35570919145766_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)

abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

theorem liveAt1_0 : ∀ i : grid1.Coords, cfg1.idle 0 i = false := fun _ => rfl
theorem liveAt1_1 : ∀ i : grid1.Coords, cfg1.idle 1 i = false := fun _ => rfl
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

theorem zerosAcc1 : (![0, 0] : Fin 2 → Nat) = fun _ => 0 := funext fun a => by fin_cases a <;> rfl

abbrev cols1 (i : grid1.Coords) : Rect S2048x8192 := Rect.unit (s := S2048x8192) (k1_off1 i) S2048x256.size (k1_off1_inb i)

def step1 (i : grid1.Coords) (x0 : Vec F S2048x8192 .bf16) (x1 : Vec F S256x512 .f32) (a : Vec F S2048x512 .f32) : Vec F S2048x512 .f32 :=
  k1_pay2 (View.ld x0 (cols1 i)) x1 a

section runs
variable (c : Dev nD) (i : grid1.Coords) (arg2 : Memref sig .tc .vmem S2048x8192 .bf16) (harg2 : arg2.IsWhole) (arg3 : Memref sig .tc .vmem S256x512 .f32) (harg3 : arg3.IsWhole) (arg4 : Memref sig .tc .vmem S2048x512 .bf16) (harg4 : arg4.IsWhole) (arg5 : Memref sig .tc .vmem S2048x512 .f32) (harg5 : arg5.IsWhole)

set_option maxHeartbeats 1000000 in
/-- At a first step the accumulator ends at the step onto zero, whatever it held. -/
theorem run1_A (hc0 : cond1_0 i) (hc1 : ¬cond1_1 i) (x0 : Vec F S2048x8192 .bf16) (x1 : Vec F S256x512 .f32) (xi2 : Vec F S2048x512 .bf16)
    (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (step1 i x0 x1 k1_pay1)) -∗ K ⟨⟩))
      ⊢ wp frame (wpE (defs₀ (F := F)) Variants.none c none) E (cc1__hop_matmul_kernel i arg2 harg2 arg3 harg3 arg4 harg4 arg5 harg5) K := by
  simp only [cc1__hop_matmul_kernel_eq_skeleton]; unfold cc1__hop_matmul_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  try sl_unfold_words
  rw [View.read_writes_eq_canon _ _ _ (fun y => ⟨_, List.mem_cons_self .., View.mem_set_unit_zero zerosAcc1 inb_S2048x512_S2048x512_0_0 y⟩)]
  rw [View.canon_cons_unit_zero zerosAcc1, View.readCov_unit_zero _ zerosAcc1]
  simp only [View.readAt_eq_ld, harg2.read_unread, harg3.read_unread, View.ld_unit_zero (S := S256x512) zerosAcc1]
  rfl

set_option maxHeartbeats 1000000 in
/-- At a middle step it ends at the step onto what it held. -/
theorem run1_B (hc0 : ¬cond1_0 i) (hc1 : ¬cond1_1 i) (x0 : Vec F S2048x8192 .bf16) (x1 : Vec F S256x512 .f32) (xi2 : Vec F S2048x512 .bf16) (xs0 : Vec F S2048x512 .f32)
    (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (step1 i x0 x1 xs0)) -∗ K ⟨⟩))
      ⊢ wp frame (wpE (defs₀ (F := F)) Variants.none c none) E (cc1__hop_matmul_kernel i arg2 harg2 arg3 harg3 arg4 harg4 arg5 harg5) K := by
  simp only [cc1__hop_matmul_kernel_eq_skeleton]; unfold cc1__hop_matmul_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  try sl_unfold_words
  rw [View.read_writes_eq_canon _ _ _ (fun y => ⟨_, List.mem_cons_self .., View.mem_set_unit_zero zerosAcc1 inb_S2048x512_S2048x512_0_0 y⟩)]
  rw [View.canon_unit_zero zerosAcc1]
  simp only [View.readAt_eq_ld, harg2.read_unread, harg3.read_unread, harg5.read_unread, View.ld_unit_zero (S := S256x512) zerosAcc1, View.ld_unit_zero (S := S2048x512) zerosAcc1]
  rfl

set_option maxHeartbeats 1000000 in
/-- At a last step likewise, and the output block ends at the accumulator rounded. -/
theorem run1_C (hc0 : ¬cond1_0 i) (hc1 : cond1_1 i) (x0 : Vec F S2048x8192 .bf16) (x1 : Vec F S256x512 .f32) (xs0 : Vec F S2048x512 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (k1_pay3 (step1 i x0 x1 xs0)) ∗ owns (c : Thread nD τ) arg5 fullShare (step1 i x0 x1 xs0)) -∗ K ⟨⟩))
      ⊢ wp frame (wpE (defs₀ (F := F)) Variants.none c none) E (cc1__hop_matmul_kernel i arg2 harg2 arg3 harg3 arg4 harg4 arg5 harg5) K := by
  simp only [cc1__hop_matmul_kernel_eq_skeleton]; unfold cc1__hop_matmul_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    try sl_unfold_words
    rw [View.read_writes_eq_canon _ _ _ (fun y => ⟨_, List.mem_cons_self .., View.mem_set_unit_zero zerosAcc1 inb_S2048x512_S2048x512_0_0 y⟩)]
    rw [View.canon_unit_zero zerosAcc1, View.readCov_unit_zero _ zerosAcc1]
    simp only [View.readAt_eq_ld, harg2.read_unread, harg3.read_unread, harg5.read_unread, View.ld_unit_zero (S := S256x512) zerosAcc1, View.ld_unit_zero (S := S2048x512) zerosAcc1]
    rfl
  iexists _; isplitr
  swap; · iexact HS0
  ipureintro
  try sl_unfold_words
  rw [View.read_writes_eq_canon _ _ _ (fun y => ⟨_, List.mem_cons_self .., View.mem_set_unit_zero zerosAcc1 inb_S2048x512_S2048x512_0_0 y⟩)]
  rw [View.canon_unit_zero zerosAcc1]
  simp only [View.readAt_eq_ld, harg2.read_unread, harg3.read_unread, harg5.read_unread, View.ld_unit_zero (S := S256x512) zerosAcc1, View.ld_unit_zero (S := S2048x512) zerosAcc1]
  rfl

end runs

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the accumulator holds after point n: the step onto zero at a first reduction step, else onto what the point before left. -/
def acc1 (c : Dev nD) : (n : ℕ) → n < cfg1.N → Vec F S2048x512 .f32
  | 0, hn => step1 (grid1.coords ⟨0, hn⟩) (iblk1 V c 0 ⟨0, hn⟩) (iblk1 V c 1 ⟨0, hn⟩) k1_pay1
  | n + 1, hn => step1 (grid1.coords ⟨n + 1, hn⟩) (iblk1 V c 0 ⟨n + 1, hn⟩) (iblk1 V c 1 ⟨n + 1, hn⟩)
      (if (n + 1) % 32 = 0 then k1_pay1 else acc1 c n (Nat.lt_of_succ_lt hn))

theorem acc1_reset (c : Dev nD) (t : Fin cfg1.N) (h : t.val % 32 = 0) :
    acc1 V c t.val t.isLt = step1 (grid1.coords t) (iblk1 V c 0 t) (iblk1 V c 1 t) k1_pay1 := by
  obtain ⟨n, hn⟩ := t
  cases n with
  | zero => rfl
  | succ n => show acc1 V c (n + 1) hn = _; rw [acc1, if_pos h]

theorem acc1_step (c : Dev nD) (t : Fin cfg1.N) (h : ¬t.val % 32 = 0) :
    acc1 V c t.val t.isLt = step1 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => show acc1 V c (n + 1) hn = _; rw [acc1, if_neg h]; rfl

abbrev scM1 : Memref sig .tc .vmem S2048x512 .f32 := Memref.whole cc1_scratch0

def scr1 (c : Dev nD) : (n : ℕ) → n ≤ cfg1.N → sProp 𝕄
  | 0, _ => iprop(∃ d, owns (c : Thread nD τ) scM1 fullShare d)
  | n + 1, hn => owns (c : Thread nD τ) scM1 fullShare (acc1 V c n hn)

def PhiS1 (c : Dev nD) (n : ℕ) (hn : n ≤ cfg1.N) : sProp 𝕄 :=
  iprop((∃ r, prngReg c r) ∗ scr1 V c n hn
    ∗ Pipeline.scopedRestBut (Ix := Unit) (Name := ℕ) (U := UR sig nD τ) (Lvl := ℕ) (Val := Elt F) spec1 c [cc1_scratch0])

theorem scr1_succ (c : Dev nD) (n : ℕ) (hn : n < cfg1.N) :
    scr1 V c (n + 1) hn = owns (c : Thread nD τ) scM1 fullShare (acc1 V c n hn) := rfl

theorem scr1_pos (c : Dev nD) (n : ℕ) (h : n ≤ cfg1.N) (hz : n ≠ 0) :
    scr1 V c n h = owns (c : Thread nD τ) scM1 fullShare (acc1 V c (n - 1) (by omega)) := by
  cases n with
  | zero => exact absurd rfl hz
  | succ n => rfl

theorem scr1_any (c : Dev nD) (n : ℕ) (h : n ≤ cfg1.N) : scr1 V c n h ⊢ iprop(∃ d, owns (c : Thread nD τ) scM1 fullShare d) := by
  cases n with
  | zero => exact Idealize.SL.BI.Entails.refl _
  | succ n => rw [scr1_succ]; iintro H; iexists _; iexact H

def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (j : Fin (cfg1.N + 1)) : (dat1 V c).owed j = 0 := by
  dsimp only [dat1]

theorem Phi_castSucc1 (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

abbrev ms1_0 (t : Fin cfg1.N) : Memref sig .tc .vmem S2048x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x512 .bf16 := win1_2.stage (cfg1.slots t 2)
abbrev hs1_2 (t : Fin cfg1.N) : (ms1_2 t).IsWhole := hstage1_2 ((cfg1.slots t 2).cast nbuf1_2)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) :
    (dat1 V c).leavesExact 0 t = owns (c : Thread nD τ) (ms1_0 t) fullShare (iblk1 V c 0 t) := by
  rw [← after1_0]
theorem leaves1_1 (c : Dev nD) (t : Fin cfg1.N) :
    (dat1 V c).leavesExact 1 t = owns (c : Thread nD τ) (ms1_1 t) fullShare (iblk1 V c 1 t) := by
  rw [← after1_1]

set_option maxHeartbeats 4000000 in
/-- The point's place among its 32 reduction steps says which case runs; the accumulator is handed from point to point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, Phi_castSucc1]
  rw [leaves1_0, leaves1_1]
  unfold PhiS1
  rw [scr1_succ]
  by_cases h0 : t.val % 32 = 0
  · have hc1 : ¬cond1_1 (grid1.coords t) := fun h => by have := (hcond1_1 t).mp h; omega
    rw [Dat.leavesExact_idle (dat1 V c) 2 t (idleAt1_2 t hc1) (noFlush1_2 t hc1)]
    rw [acc1_reset V c t h0]
    iintro ⟨⟨Hg, HS, HR⟩, Ho, ⟨%d0, H0⟩, ⟨%d1, H1⟩, ⟨%d2, H2⟩⟩
    iapply (run1_A c (grid1.coords t) (ms1_0 t) (hs1_0 t) (ms1_1 t) (hs1_1 t) (ms1_2 t) (hs1_2 t) scM1 (Memref.isWhole_whole _)
      ((hcond1_0 t).mpr h0) hc1 (iblk1 V c 0 t) (iblk1 V c 1 t) ((dat1 V c).before 2 t d2) Set.univ _)
    isplitl [H0]; · iexact H0
    isplitl [H1]; · iexact H1
    isplitl [H2]; · iexact H2
    isplitl [HS]; · iapply (scr1_any V c); iexact HS
    iintro ⟨H0, H1, H2, HS⟩
    isplitl [Hg HS HR]
    · isplitl [Hg]; · iexact Hg
      isplitl [HS]; · iexact HS
      iexact HR
    isplitl [Ho]; · iexact Ho
    isplitl [H0]; · iexact H0
    isplitl [H1]; · iexact H1
    iexists _; iexact H2
  · have hc0 : ¬cond1_0 (grid1.coords t) := fun h => h0 ((hcond1_0 t).mp h)
    have hz : t.val ≠ 0 := fun e => h0 (by rw [e])
    rw [scr1_pos V c _ _ hz, acc1_step V c t h0]
    by_cases h1 : t.val % 32 = 31
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, acc1_step V c t h0]
      iintro ⟨⟨Hg, HS, HR⟩, Ho, ⟨%d0, H0⟩, ⟨%d1, H1⟩, ⟨%d2, H2⟩⟩
      iapply (run1_C c (grid1.coords t) (ms1_0 t) (hs1_0 t) (ms1_1 t) (hs1_1 t) (ms1_2 t) (hs1_2 t) scM1 (Memref.isWhole_whole _)
        hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [Hg HS HR]
      · isplitl [Hg]; · iexact Hg
        isplitl [HS]; · iexact HS
        iexact HR
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨Hg, HS, HR⟩, Ho, ⟨%d0, H0⟩, ⟨%d1, H1⟩, ⟨%d2, H2⟩⟩
      iapply (run1_B c (grid1.coords t) (ms1_0 t) (hs1_0 t) (ms1_1 t) (hs1_1 t) (ms1_2 t) (hs1_2 t) scM1 (Memref.isWhole_whole _)
        hc0 hc1 (iblk1 V c 0 t) (iblk1 V c 1 t) ((dat1 V c).before 2 t d2) _ Set.univ _)
      isplitl [H0]; · iexact H0
      isplitl [H1]; · iexact H1
      isplitl [H2]; · iexact H2
      isplitl [HS]; · iexact HS
      iintro ⟨H0, H1, H2, HS⟩
      isplitl [Hg HS HR]
      · isplitl [Hg]; · iexact Hg
        isplitl [HS]; · iexact HS
        iexact HR
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem Phi_in1 (c : Dev nD) :
    (iprop((∃ r, prngReg c r) ∗ Pipeline.scopedRest (Ix := Unit) (Name := ℕ) (U := UR sig nD τ) (Lvl := ℕ) spec1 c) : sProp 𝕄) ⊢ (dat1 V c).Φ 0 := by
  rw [show (dat1 V c).Φ 0 = PhiS1 V c 0 (Nat.zero_le _) from rfl]
  unfold PhiS1 scr1
  rw [scopedRest1_split]
  simp only [scM1, owns_whole]
  exact Idealize.SL.BI.Entails.refl _

theorem Phi_out1 (c : Dev nD) :
    (dat1 V c).Φ (Fin.last cfg1.N) ⊢ (iprop((∃ r, prngReg c r) ∗ Pipeline.scopedRest (Ix := Unit) (Name := ℕ) (U := UR sig nD τ) (Lvl := ℕ) spec1 c) : sProp 𝕄) := by
  have hN : cfg1.N ≠ 0 := by rw [show cfg1.N = 512 from N_1]; decide
  rw [show (dat1 V c).Φ (Fin.last cfg1.N) = PhiS1 V c cfg1.N (Nat.le_refl _) from rfl]
  unfold PhiS1
  rw [scr1_pos V c _ _ hN, scopedRest1_split]
  simp only [scM1, owns_whole]
  iintro ⟨Hg, HS, HR⟩
  isplitl [Hg]; · iexact Hg
  isplitl [HS]; · iexists _; iexact HS
  iexact HR

end Cert.KernelIdeal.Hand

end
-- ==== Proof.Region2.lean ====
import proofs.«408051_j35570919145766_3_alg».proof.Proof.Gen.KernelIdeal.Launch
import proofs.«408051_j35570919145766_3_alg».proof.Proof.Gen.KernelIdeal.Skeleton
import proofs.«408051_j35570919145766_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 32 = 0 :=
  (by decide +kernel : ∀ t : Fin grid2.N, cond2_0 (grid2.coords t) ↔ t.val % 32 = 0)

abbrev cond2_1 (i : grid2.Coords) : Prop := k2_cond2 i = 1#1
theorem hcond2_1 : ∀ t : Fin cfg2.N, cond2_1 (grid2.coords t) ↔ t.val % 32 = 31 :=
  (by decide +kernel : ∀ t : Fin grid2.N, cond2_1 (grid2.coords t) ↔ t.val % 32 = 31)

theorem liveAt2_0 : ∀ i : grid2.Coords, cfg2.idle 0 i = false := fun _ => rfl
theorem liveAt2_1 : ∀ i : grid2.Coords, cfg2.idle 1 i = false := fun _ => rfl
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

theorem zerosAcc2 : (![0, 0] : Fin 2 → Nat) = fun _ => 0 := funext fun a => by fin_cases a <;> rfl

abbrev cols2 (i : grid2.Coords) : Rect S2048x8192 := Rect.unit (s := S2048x8192) (k2_off1 i) S2048x256.size (k2_off1_inb i)

def step2 (i : grid2.Coords) (x0 : Vec F S2048x8192 .bf16) (x1 : Vec F S256x512 .f32) (a : Vec F S2048x512 .f32) : Vec F S2048x512 .f32 :=
  k2_pay2 (View.ld x0 (cols2 i)) x1 a

section runs
variable (c : Dev nD) (i : grid2.Coords) (arg2 : Memref sig .tc .vmem S2048x8192 .bf16) (harg2 : arg2.IsWhole) (arg3 : Memref sig .tc .vmem S256x512 .f32) (harg3 : arg3.IsWhole) (arg4 : Memref sig .tc .vmem S2048x512 .bf16) (harg4 : arg4.IsWhole) (arg5 : Memref sig .tc .vmem S2048x512 .f32) (harg5 : arg5.IsWhole)

set_option maxHeartbeats 1000000 in
/-- At a first step the accumulator ends at the step onto zero, whatever it held. -/
theorem run2_A (hc0 : cond2_0 i) (hc1 : ¬cond2_1 i) (x0 : Vec F S2048x8192 .bf16) (x1 : Vec F S256x512 .f32) (xi2 : Vec F S2048x512 .bf16)
    (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (step2 i x0 x1 k2_pay1)) -∗ K ⟨⟩))
      ⊢ wp frame (wpE (defs₀ (F := F)) Variants.none c none) E (cc2__hop_matmul_kernel i arg2 harg2 arg3 harg3 arg4 harg4 arg5 harg5) K := by
  simp only [cc2__hop_matmul_kernel_eq_skeleton]; unfold cc2__hop_matmul_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  try sl_unfold_words
  rw [View.read_writes_eq_canon _ _ _ (fun y => ⟨_, List.mem_cons_self .., View.mem_set_unit_zero zerosAcc2 inb_S2048x512_S2048x512_0_0 y⟩)]
  rw [View.canon_cons_unit_zero zerosAcc2, View.readCov_unit_zero _ zerosAcc2]
  simp only [View.readAt_eq_ld, harg2.read_unread, harg3.read_unread, View.ld_unit_zero (S := S256x512) zerosAcc2]
  rfl

set_option maxHeartbeats 1000000 in
/-- At a middle step it ends at the step onto what it held. -/
theorem run2_B (hc0 : ¬cond2_0 i) (hc1 : ¬cond2_1 i) (x0 : Vec F S2048x8192 .bf16) (x1 : Vec F S256x512 .f32) (xi2 : Vec F S2048x512 .bf16) (xs0 : Vec F S2048x512 .f32)
    (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (step2 i x0 x1 xs0)) -∗ K ⟨⟩))
      ⊢ wp frame (wpE (defs₀ (F := F)) Variants.none c none) E (cc2__hop_matmul_kernel i arg2 harg2 arg3 harg3 arg4 harg4 arg5 harg5) K := by
  simp only [cc2__hop_matmul_kernel_eq_skeleton]; unfold cc2__hop_matmul_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  try sl_unfold_words
  rw [View.read_writes_eq_canon _ _ _ (fun y => ⟨_, List.mem_cons_self .., View.mem_set_unit_zero zerosAcc2 inb_S2048x512_S2048x512_0_0 y⟩)]
  rw [View.canon_unit_zero zerosAcc2]
  simp only [View.readAt_eq_ld, harg2.read_unread, harg3.read_unread, harg5.read_unread, View.ld_unit_zero (S := S256x512) zerosAcc2, View.ld_unit_zero (S := S2048x512) zerosAcc2]
  rfl

set_option maxHeartbeats 1000000 in
/-- At a last step likewise, and the output block ends at the accumulator rounded. -/
theorem run2_C (hc0 : ¬cond2_0 i) (hc1 : cond2_1 i) (x0 : Vec F S2048x8192 .bf16) (x1 : Vec F S256x512 .f32) (xs0 : Vec F S2048x512 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (k2_pay3 (step2 i x0 x1 xs0)) ∗ owns (c : Thread nD τ) arg5 fullShare (step2 i x0 x1 xs0)) -∗ K ⟨⟩))
      ⊢ wp frame (wpE (defs₀ (F := F)) Variants.none c none) E (cc2__hop_matmul_kernel i arg2 harg2 arg3 harg3 arg4 harg4 arg5 harg5) K := by
  simp only [cc2__hop_matmul_kernel_eq_skeleton]; unfold cc2__hop_matmul_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    try sl_unfold_words
    rw [View.read_writes_eq_canon _ _ _ (fun y => ⟨_, List.mem_cons_self .., View.mem_set_unit_zero zerosAcc2 inb_S2048x512_S2048x512_0_0 y⟩)]
    rw [View.canon_unit_zero zerosAcc2, View.readCov_unit_zero _ zerosAcc2]
    simp only [View.readAt_eq_ld, harg2.read_unread, harg3.read_unread, harg5.read_unread, View.ld_unit_zero (S := S256x512) zerosAcc2, View.ld_unit_zero (S := S2048x512) zerosAcc2]
    rfl
  iexists _; isplitr
  swap; · iexact HS0
  ipureintro
  try sl_unfold_words
  rw [View.read_writes_eq_canon _ _ _ (fun y => ⟨_, List.mem_cons_self .., View.mem_set_unit_zero zerosAcc2 inb_S2048x512_S2048x512_0_0 y⟩)]
  rw [View.canon_unit_zero zerosAcc2]
  simp only [View.readAt_eq_ld, harg2.read_unread, harg3.read_unread, harg5.read_unread, View.ld_unit_zero (S := S256x512) zerosAcc2, View.ld_unit_zero (S := S2048x512) zerosAcc2]
  rfl

end runs

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the accumulator holds after point n: the step onto zero at a first reduction step, else onto what the point before left. -/
def acc2 (c : Dev nD) : (n : ℕ) → n < cfg2.N → Vec F S2048x512 .f32
  | 0, hn => step2 (grid2.coords ⟨0, hn⟩) (iblk2 V c 0 ⟨0, hn⟩) (iblk2 V c 1 ⟨0, hn⟩) k2_pay1
  | n + 1, hn => step2 (grid2.coords ⟨n + 1, hn⟩) (iblk2 V c 0 ⟨n + 1, hn⟩) (iblk2 V c 1 ⟨n + 1, hn⟩)
      (if (n + 1) % 32 = 0 then k2_pay1 else acc2 c n (Nat.lt_of_succ_lt hn))

theorem acc2_reset (c : Dev nD) (t : Fin cfg2.N) (h : t.val % 32 = 0) :
    acc2 V c t.val t.isLt = step2 (grid2.coords t) (iblk2 V c 0 t) (iblk2 V c 1 t) k2_pay1 := by
  obtain ⟨n, hn⟩ := t
  cases n with
  | zero => rfl
  | succ n => show acc2 V c (n + 1) hn = _; rw [acc2, if_pos h]

theorem acc2_step (c : Dev nD) (t : Fin cfg2.N) (h : ¬t.val % 32 = 0) :
    acc2 V c t.val t.isLt = step2 (grid2.coords t) (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h
  | succ n => show acc2 V c (n + 1) hn = _; rw [acc2, if_neg h]; rfl

abbrev scM2 : Memref sig .tc .vmem S2048x512 .f32 := Memref.whole cc2_scratch0

def scr2 (c : Dev nD) : (n : ℕ) → n ≤ cfg2.N → sProp 𝕄
  | 0, _ => iprop(∃ d, owns (c : Thread nD τ) scM2 fullShare d)
  | n + 1, hn => owns (c : Thread nD τ) scM2 fullShare (acc2 V c n hn)

def PhiS2 (c : Dev nD) (n : ℕ) (hn : n ≤ cfg2.N) : sProp 𝕄 :=
  iprop((∃ r, prngReg c r) ∗ scr2 V c n hn
    ∗ Pipeline.scopedRestBut (Ix := Unit) (Name := ℕ) (U := UR sig nD τ) (Lvl := ℕ) (Val := Elt F) spec2 c [cc2_scratch0])

theorem scr2_succ (c : Dev nD) (n : ℕ) (hn : n < cfg2.N) :
    scr2 V c (n + 1) hn = owns (c : Thread nD τ) scM2 fullShare (acc2 V c n hn) := rfl

theorem scr2_pos (c : Dev nD) (n : ℕ) (h : n ≤ cfg2.N) (hz : n ≠ 0) :
    scr2 V c n h = owns (c : Thread nD τ) scM2 fullShare (acc2 V c (n - 1) (by omega)) := by
  cases n with
  | zero => exact absurd rfl hz
  | succ n => rfl

theorem scr2_any (c : Dev nD) (n : ℕ) (h : n ≤ cfg2.N) : scr2 V c n h ⊢ iprop(∃ d, owns (c : Thread nD τ) scM2 fullShare d) := by
  cases n with
  | zero => exact Idealize.SL.BI.Entails.refl _
  | succ n => rw [scr2_succ]; iintro H; iexists _; iexact H

def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := by
  dsimp only [dat2]

theorem owed_eq2 (c : Dev nD) (j : Fin (cfg2.N + 1)) : (dat2 V c).owed j = 0 := by
  dsimp only [dat2]

theorem Phi_castSucc2 (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (acc2 V c t.val t.isLt) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

abbrev ms2_0 (t : Fin cfg2.N) : Memref sig .tc .vmem S2048x8192 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x512 .bf16 := win2_2.stage (cfg2.slots t 2)
abbrev hs2_2 (t : Fin cfg2.N) : (ms2_2 t).IsWhole := hstage2_2 ((cfg2.slots t 2).cast nbuf2_2)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem leaves2_0 (c : Dev nD) (t : Fin cfg2.N) :
    (dat2 V c).leavesExact 0 t = owns (c : Thread nD τ) (ms2_0 t) fullShare (iblk2 V c 0 t) := by
  rw [← after2_0]
theorem leaves2_1 (c : Dev nD) (t : Fin cfg2.N) :
    (dat2 V c).leavesExact 1 t = owns (c : Thread nD τ) (ms2_1 t) fullShare (iblk2 V c 1 t) := by
  rw [← after2_1]

set_option maxHeartbeats 4000000 in
/-- The point's place among its 32 reduction steps says which case runs; the accumulator is handed from point to point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, Phi_castSucc2]
  rw [leaves2_0, leaves2_1]
  unfold PhiS2
  rw [scr2_succ]
  by_cases h0 : t.val % 32 = 0
  · have hc1 : ¬cond2_1 (grid2.coords t) := fun h => by have := (hcond2_1 t).mp h; omega
    rw [Dat.leavesExact_idle (dat2 V c) 2 t (idleAt2_2 t hc1) (noFlush2_2 t hc1)]
    rw [acc2_reset V c t h0]
    iintro ⟨⟨Hg, HS, HR⟩, Ho, ⟨%d0, H0⟩, ⟨%d1, H1⟩, ⟨%d2, H2⟩⟩
    iapply (run2_A c (grid2.coords t) (ms2_0 t) (hs2_0 t) (ms2_1 t) (hs2_1 t) (ms2_2 t) (hs2_2 t) scM2 (Memref.isWhole_whole _)
      ((hcond2_0 t).mpr h0) hc1 (iblk2 V c 0 t) (iblk2 V c 1 t) ((dat2 V c).before 2 t d2) Set.univ _)
    isplitl [H0]; · iexact H0
    isplitl [H1]; · iexact H1
    isplitl [H2]; · iexact H2
    isplitl [HS]; · iapply (scr2_any V c); iexact HS
    iintro ⟨H0, H1, H2, HS⟩
    isplitl [Hg HS HR]
    · isplitl [Hg]; · iexact Hg
      isplitl [HS]; · iexact HS
      iexact HR
    isplitl [Ho]; · iexact Ho
    isplitl [H0]; · iexact H0
    isplitl [H1]; · iexact H1
    iexists _; iexact H2
  · have hc0 : ¬cond2_0 (grid2.coords t) := fun h => h0 ((hcond2_0 t).mp h)
    have hz : t.val ≠ 0 := fun e => h0 (by rw [e])
    rw [scr2_pos V c _ _ hz, acc2_step V c t h0]
    by_cases h1 : t.val % 32 = 31
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2, acc2_step V c t h0]
      iintro ⟨⟨Hg, HS, HR⟩, Ho, ⟨%d0, H0⟩, ⟨%d1, H1⟩, ⟨%d2, H2⟩⟩
      iapply (run2_C c (grid2.coords t) (ms2_0 t) (hs2_0 t) (ms2_1 t) (hs2_1 t) (ms2_2 t) (hs2_2 t) scM2 (Memref.isWhole_whole _)
        hc0 hc1 (iblk2 V c 0 t) (iblk2 V c 1 t) _ Set.univ _)
      isplitl [H0]; · iexact H0
      isplitl [H1]; · iexact H1
      isplitl [H2]; · iexists _; iexact H2
      isplitl [HS]; · iexact HS
      iintro ⟨H0, H1, H2, HS⟩
      isplitl [Hg HS HR]
      · isplitl [Hg]; · iexact Hg
        isplitl [HS]; · iexact HS
        iexact HR
      isplitl [Ho]; · iexact Ho
      isplitl [H0]; · iexact H0
      isplitl [H1]; · iexact H1
      iexact H2
    · have hc1 : ¬cond2_1 (grid2.coords t) := fun h => h1 ((hcond2_1 t).mp h)
      rw [Dat.leavesExact_idle (dat2 V c) 2 t (idleAt2_2 t hc1) (noFlush2_2 t hc1)]
      iintro ⟨⟨Hg, HS, HR⟩, Ho, ⟨%d0, H0⟩, ⟨%d1, H1⟩, ⟨%d2, H2⟩⟩
      iapply (run2_B c (grid2.coords t) (ms2_0 t) (hs2_0 t) (ms2_1 t) (hs2_1 t) (ms2_2 t) (hs2_2 t) scM2 (Memref.isWhole_whole _)
        hc0 hc1 (iblk2 V c 0 t) (iblk2 V c 1 t) ((dat2 V c).before 2 t d2) _ Set.univ _)
      isplitl [H0]; · iexact H0
      isplitl [H1]; · iexact H1
      isplitl [H2]; · iexact H2
      isplitl [HS]; · iexact HS
      iintro ⟨H0, H1, H2, HS⟩
      isplitl [Hg HS HR]
      · isplitl [Hg]; · iexact Hg
        isplitl [HS]; · iexact HS
        iexact HR
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

theorem Phi_in2 (c : Dev nD) :
    (iprop((∃ r, prngReg c r) ∗ Pipeline.scopedRest (Ix := Unit) (Name := ℕ) (U := UR sig nD τ) (Lvl := ℕ) spec2 c) : sProp 𝕄) ⊢ (dat2 V c).Φ 0 := by
  rw [show (dat2 V c).Φ 0 = PhiS2 V c 0 (Nat.zero_le _) from rfl]
  unfold PhiS2 scr2
  rw [scopedRest2_split]
  simp only [scM2, owns_whole]
  exact Idealize.SL.BI.Entails.refl _

theorem Phi_out2 (c : Dev nD) :
    (dat2 V c).Φ (Fin.last cfg2.N) ⊢ (iprop((∃ r, prngReg c r) ∗ Pipeline.scopedRest (Ix := Unit) (Name := ℕ) (U := UR sig nD τ) (Lvl := ℕ) spec2 c) : sProp 𝕄) := by
  have hN : cfg2.N ≠ 0 := by rw [show cfg2.N = 512 from N_2]; decide
  rw [show (dat2 V c).Φ (Fin.last cfg2.N) = PhiS2 V c cfg2.N (Nat.le_refl _) from rfl]
  unfold PhiS2
  rw [scr2_pos V c _ _ hN, scopedRest2_split]
  simp only [scM2, owns_whole]
  iintro ⟨Hg, HS, HR⟩
  isplitl [Hg]; · iexact Hg
  isplitl [HS]; · iexists _; iexact HS
  iexact HR

end Cert.KernelIdeal.Hand

end
-- ==== Proof.Region3.lean ====
import proofs.«408051_j35570919145766_3_alg».proof.Proof.Gen.KernelIdeal.Launch
import proofs.«408051_j35570919145766_3_alg».proof.Proof.Gen.KernelIdeal.Skeleton
import proofs.«408051_j35570919145766_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond3_0 (i : grid3.Coords) : Prop :=
  (Scalar.cmpi .ne (Scalar.extui (Scalar.cmpi .eq (BitVec.ofNat 32 (i 1).val) 0#32)) 0#32) = 1#1
theorem hcond3_0 : ∀ t : Fin cfg3.N, cond3_0 (grid3.coords t) ↔ t.val % 16 = 0 :=
  (by decide +kernel : ∀ t : Fin grid3.N, cond3_0 (grid3.coords t) ↔ t.val % 16 = 0)

abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

theorem zero3_2 : (![0, 0] : Fin 2 → ℕ) = fun _ => 0 := by funext a; fin_cases a <;> rfl
theorem zero3_1 : (![0] : Fin 1 → ℕ) = fun _ => 0 := by funext a; fin_cases a; rfl

theorem readAt_whole3 {sp : Space} {S : Shape} {e : EltTy} (m : Memref sig .tc sp S e) (hm : m.IsWhole) (x : S.Idx → Elt F e)
    {off : Fin S.rank → ℕ} (h : off = fun _ => 0) (inb : ∀ a, off a + S.size a ≤ S.size a) :
    View.readAt (Elt F) m.view (Rect.unit off S.size inb).toLoadRect (hm.unread x) = x := by
  rw [View.readAt_eq_ld, hm.read_unread]; exact View.ld_unit_zero h inb x

theorem read_writes_whole3 {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩)]
  exact View.canon_cons_unit_zero h inb w L

set_option maxHeartbeats 1000000 in
theorem kernelRun3_A (c : Dev nD) (i : grid3.Coords)
    (arg2 : Memref sig .tc .vmem S1024x512 .bf16) (harg2 : arg2.IsWhole) (arg3 : Memref sig .tc .vmem S1024x512 .bf16) (harg3 : arg3.IsWhole)
    (arg4 : Memref sig .tc .vmem S128x512 .f32) (harg4 : arg4.IsWhole) (arg5 : Memref sig .tc .vmem S128 .f32) (harg5 : arg5.IsWhole)
    (arg6 : Memref sig .tc .vmem S1024x128 .f32) (harg6 : arg6.IsWhole) (arg7 : Memref sig .tc .vmem S1024x128 .f32) (harg7 : arg7.IsWhole)
    (hc0 : cond3_0 i) (hc1 : ¬cond3_1 i)
    (x0 x1 : Vec F S1024x512 .bf16) (x2 : Vec F S128x512 .f32) (x3 : Vec F S128 .f32) (xi4 : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4
            ∗ owns (c : Thread nD τ) arg7 fullShare (k3_pay2 x0 x1 x2 (k3_pay1 (F := F)))) -∗ K ⟨⟩))
      ⊢ wp frame (wpE (defs₀ (F := F)) Variants.none c none) E
          (cc3__combine_encode_kernel i arg2 harg2 arg3 harg3 arg4 harg4 arg5 harg5 arg6 harg6 arg7 harg7) K := by
  simp only [cc3__combine_encode_kernel_eq_skeleton]; unfold cc3__combine_encode_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  rw [read_writes_whole3 _ _ zero3_2]
  rw [readAt_whole3 arg2 harg2 x0 zero3_2, readAt_whole3 arg3 harg3 x1 zero3_2, readAt_whole3 arg4 harg4 x2 zero3_2]
  unfold kernelRun3_A.sl.v16 kernelRun3_A.sl.HS_1
  rw [View.readCov_unit_zero _ zero3_2]

set_option maxHeartbeats 1000000 in
theorem kernelRun3_B (c : Dev nD) (i : grid3.Coords)
    (arg2 : Memref sig .tc .vmem S1024x512 .bf16) (harg2 : arg2.IsWhole) (arg3 : Memref sig .tc .vmem S1024x512 .bf16) (harg3 : arg3.IsWhole)
    (arg4 : Memref sig .tc .vmem S128x512 .f32) (harg4 : arg4.IsWhole) (arg5 : Memref sig .tc .vmem S128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond3_0 i) (hc1 : ¬cond3_1 i)
    (x0 x1 : Vec F S1024x512 .bf16) (x2 : Vec F S128x512 .f32) (x3 : Vec F S128 .f32) (xi4 xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4
            ∗ owns (c : Thread nD τ) arg7 fullShare (k3_pay2 x0 x1 x2 xs)) -∗ K ⟨⟩))
      ⊢ wp frame (wpE (defs₀ (F := F)) Variants.none c none) E
          (cc3__combine_encode_kernel i arg2 harg2 arg3 harg3 arg4 harg4 arg5 harg5 arg6 harg6 arg7 harg7) K := by
  simp only [cc3__combine_encode_kernel_eq_skeleton]; unfold cc3__combine_encode_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  rw [read_writes_whole3 _ _ zero3_2]
  rw [readAt_whole3 arg2 harg2 x0 zero3_2, readAt_whole3 arg3 harg3 x1 zero3_2, readAt_whole3 arg4 harg4 x2 zero3_2,
    readAt_whole3 arg7 harg7 xs zero3_2]

set_option maxHeartbeats 1000000 in
theorem kernelRun3_C (c : Dev nD) (i : grid3.Coords)
    (arg2 : Memref sig .tc .vmem S1024x512 .bf16) (harg2 : arg2.IsWhole) (arg3 : Memref sig .tc .vmem S1024x512 .bf16) (harg3 : arg3.IsWhole)
    (arg4 : Memref sig .tc .vmem S128x512 .f32) (harg4 : arg4.IsWhole) (arg5 : Memref sig .tc .vmem S128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond3_0 i) (hc1 : cond3_1 i)
    (x0 x1 : Vec F S1024x512 .bf16) (x2 : Vec F S128x512 .f32) (x3 : Vec F S128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k3_pay3 (k3_pay2 x0 x1 x2 xs) x3)
            ∗ owns (c : Thread nD τ) arg7 fullShare (k3_pay2 x0 x1 x2 xs)) -∗ K ⟨⟩))
      ⊢ wp frame (wpE (defs₀ (F := F)) Variants.none c none) E
          (cc3__combine_encode_kernel i arg2 harg2 arg3 harg3 arg4 harg4 arg5 harg5 arg6 harg6 arg7 harg7) K := by
  simp only [cc3__combine_encode_kernel_eq_skeleton]; unfold cc3__combine_encode_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [read_writes_whole3 _ _ zero3_2]
    unfold kernelRun3_C.sl.v24 kernelRun3_C.sl.HS_1
    rw [View.readCov_unit_zero _ zero3_2, readAt_whole3 arg5 harg5 x3 zero3_1]
    rw [readAt_whole3 arg2 harg2 x0 zero3_2, readAt_whole3 arg3 harg3 x1 zero3_2, readAt_whole3 arg4 harg4 x2 zero3_2,
      readAt_whole3 arg7 harg7 xs zero3_2]
  iexists _; isplitr
  swap; · iexact HS
  ipureintro
  unfold kernelRun3_C.sl.HS_1
  rw [read_writes_whole3 _ _ zero3_2]
  rw [readAt_whole3 arg2 harg2 x0 zero3_2, readAt_whole3 arg3 harg3 x1 zero3_2, readAt_whole3 arg4 harg4 x2 zero3_2,
    readAt_whole3 arg7 harg7 xs zero3_2]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev ms3_0 (t : Fin cfg3.N) : Memref sig .tc .vmem S1024x512 .bf16 := win3_0.stage (cfg3.slots t 0)
abbrev ms3_1 (t : Fin cfg3.N) : Memref sig .tc .vmem S1024x512 .bf16 := win3_1.stage (cfg3.slots t 1)
abbrev ms3_2 (t : Fin cfg3.N) : Memref sig .tc .vmem S128x512 .f32 := win3_2.stage (cfg3.slots t 2)
abbrev ms3_3 (t : Fin cfg3.N) : Memref sig .tc .vmem S128 .f32 := win3_3.stage (cfg3.slots t 3)
abbrev ms3_4 (t : Fin cfg3.N) : Memref sig .tc .vmem S1024x128 .f32 := win3_4.stage (cfg3.slots t 4)
abbrev scM3 : Memref sig .tc .vmem S1024x128 .f32 := Memref.whole cc3_scratch0

def step3 (c : Dev nD) (t : Fin cfg3.N) (xs : Vec F S1024x128 .f32) : Vec F S1024x128 .f32 :=
  k3_pay2 (iblk3 V c 0 t) (iblk3 V c 1 t) (iblk3 V c 2 t) xs

def acc3 (c : Dev nD) : (n : ℕ) → n < cfg3.N → Vec F S1024x128 .f32
  | 0, hn => step3 V c ⟨0, hn⟩ (k3_pay1 (F := F))
  | n + 1, hn => step3 V c ⟨n + 1, hn⟩ (if (n + 1) % 16 = 0 then (k3_pay1 (F := F)) else acc3 c n (Nat.lt_of_succ_lt hn))

theorem acc3_reset (c : Dev nD) (t : Fin cfg3.N) (h : t.val % 16 = 0) :
    acc3 V c t.val t.isLt = step3 V c t (k3_pay1 (F := F)) := by
  obtain ⟨n, hn⟩ := t
  cases n with
  | zero => rw [acc3]
  | succ n => rw [acc3, if_pos h]

theorem acc3_step (c : Dev nD) (t : Fin cfg3.N) (h : ¬t.val % 16 = 0) :
    acc3 V c t.val t.isLt = step3 V c t (acc3 V c (t.val - 1) (Nat.lt_of_le_of_lt (Nat.sub_le _ _) t.isLt)) := by
  obtain ⟨n, hn⟩ := t
  cases n with
  | zero => exact absurd (Nat.zero_mod _) h
  | succ n => rw [acc3, if_neg h]; rfl

def out3 (c : Dev nD) (t : Fin cfg3.N) : Vec F S1024x128 .f32 :=
  k3_pay3 (acc3 V c t.val t.isLt) (iblk3 V c 3 t)

def Phi3 (c : Dev nD) : (n : ℕ) → n ≤ cfg3.N → sProp 𝕄
  | 0, _ => iprop((∃ r, prngReg c r) ∗ Pipeline.scopedRest (Ix := Unit) (Name := ℕ) (U := UR sig nD τ) (Lvl := ℕ) spec3 c)
  | n + 1, hn => iprop((∃ r, prngReg c r) ∗ owns (c : Thread nD τ) scM3 fullShare (acc3 V c n hn)
      ∗ Pipeline.scopedRestBut (Ix := Unit) (Name := ℕ) (U := UR sig nD τ) (Lvl := ℕ) spec3 c [cc3_scratch0])

theorem Phi3_zero (c : Dev nD) (n : ℕ) (h : n ≤ cfg3.N) (hz : n = 0) :
    Phi3 V c n h = iprop((∃ r, prngReg c r) ∗ Pipeline.scopedRest (Ix := Unit) (Name := ℕ) (U := UR sig nD τ) (Lvl := ℕ) spec3 c) := by
  subst hz; rfl

theorem Phi3_succ (c : Dev nD) (n : ℕ) (hn : n < cfg3.N) :
    Phi3 V c (n + 1) hn = iprop((∃ r, prngReg c r) ∗ owns (c : Thread nD τ) scM3 fullShare (acc3 V c n hn)
      ∗ Pipeline.scopedRestBut (Ix := Unit) (Name := ℕ) (U := UR sig nD τ) (Lvl := ℕ) spec3 c [cc3_scratch0]) := rfl

theorem Phi3_pos (c : Dev nD) (n : ℕ) (h : n ≤ cfg3.N) (hz : n ≠ 0) :
    Phi3 V c n h = iprop((∃ r, prngReg c r) ∗ owns (c : Thread nD τ) scM3 fullShare (acc3 V c (n - 1) (by omega))
      ∗ Pipeline.scopedRestBut (Ix := Unit) (Name := ℕ) (U := UR sig nD τ) (Lvl := ℕ) spec3 c [cc3_scratch0]) := by
  cases n with
  | zero => exact absurd rfl hz
  | succ n => rfl

theorem rest3_eq (c : Dev nD) :
    (iprop((∃ r, prngReg c r) ∗ Pipeline.scopedRest (Ix := Unit) (Name := ℕ) (U := UR sig nD τ) (Lvl := ℕ) spec3 c) : sProp 𝕄)
      = iprop((∃ r, prngReg c r) ∗ (∃ d, owns (c : Thread nD τ) scM3 fullShare d)
          ∗ Pipeline.scopedRestBut (Ix := Unit) (Name := ℕ) (U := UR sig nD τ) (Lvl := ℕ) spec3 c [cc3_scratch0]) := by
  rw [scopedRest3_split]; simp only [scM3, owns_whole]; try rfl

def dat3 (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 V c t
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := rfl

theorem owed_eq3 (c : Dev nD) (j : Fin (cfg3.N + 1)) : (dat3 V c).owed j = 0 := rfl

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 V c t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

theorem leaves3_0 (c : Dev nD) (t : Fin cfg3.N) : (dat3 V c).leavesExact 0 t = owns (c : Thread nD τ) (ms3_0 t) fullShare (iblk3 V c 0 t) := by
  rw [show (dat3 V c).leavesExact 0 t = owns (c : Thread nD τ) (ms3_0 t) fullShare ((dat3 V c).after 0 t) from by
    unfold Dat.leavesExact; rw [liveAt3_0 t], after3_0]
theorem leaves3_1 (c : Dev nD) (t : Fin cfg3.N) : (dat3 V c).leavesExact 1 t = owns (c : Thread nD τ) (ms3_1 t) fullShare (iblk3 V c 1 t) := by
  rw [show (dat3 V c).leavesExact 1 t = owns (c : Thread nD τ) (ms3_1 t) fullShare ((dat3 V c).after 1 t) from by
    unfold Dat.leavesExact; rw [liveAt3_1 t], after3_1]
theorem leaves3_2 (c : Dev nD) (t : Fin cfg3.N) : (dat3 V c).leavesExact 2 t = owns (c : Thread nD τ) (ms3_2 t) fullShare (iblk3 V c 2 t) := by
  rw [show (dat3 V c).leavesExact 2 t = owns (c : Thread nD τ) (ms3_2 t) fullShare ((dat3 V c).after 2 t) from by
    unfold Dat.leavesExact; rw [liveAt3_2 t], after3_2]
theorem leaves3_3 (c : Dev nD) (t : Fin cfg3.N) : (dat3 V c).leavesExact 3 t = owns (c : Thread nD τ) (ms3_3 t) fullShare (iblk3 V c 3 t) := by
  rw [show (dat3 V c).leavesExact 3 t = owns (c : Thread nD τ) (ms3_3 t) fullShare ((dat3 V c).after 3 t) from by
    unfold Dat.leavesExact; rw [liveAt3_3 t], after3_3]

theorem Phi_in3 (c : Dev nD) :
    (iprop((∃ r, prngReg c r) ∗ Pipeline.scopedRest (Ix := Unit) (Name := ℕ) (U := UR sig nD τ) (Lvl := ℕ) spec3 c) : sProp 𝕄) ⊢ (dat3 V c).Φ 0 := by
  rw [show (dat3 V c).Φ 0 = Phi3 V c 0 (Nat.zero_le _) from rfl, Phi3_zero V c 0 _ rfl]
  try exact Idealize.SL.BI.Entails.refl _

theorem Phi_out3 (c : Dev nD) :
    (dat3 V c).Φ (Fin.last cfg3.N) ⊢ (iprop((∃ r, prngReg c r) ∗ Pipeline.scopedRest (Ix := Unit) (Name := ℕ) (U := UR sig nD τ) (Lvl := ℕ) spec3 c) : sProp 𝕄) := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 32 := N_3; omega), rest3_eq]
  iintro ⟨Hg, HS, HR⟩
  isplitl [Hg]; · iexact Hg
  isplitl [HS]; · iexists _; iexact HS
  iexact HR

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The point's place among its 16 reduction steps says which case runs; the accumulator is handed from point to point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = Phi3 V c (t.val + 1) t.isLt from rfl, Phi3_succ]
  rw [leaves3_0, leaves3_1, leaves3_2, leaves3_3]
  have hN : t.val < 32 := lt_of_lt_of_eq t.isLt (show cfg3.N = 32 from N_3)
  by_cases h0 : t.val % 16 = 0
  · have h1 : ¬t.val % 16 = 15 := by omega
    have hc0 : cond3_0 (grid3.coords t) := (hcond3_0 t).mpr h0
    have hc1 : ¬cond3_1 (grid3.coords t) := fun h => h1 ((hcond3_1 t).mp h)
    rw [Dat.leavesExact_idle (dat3 V c) 4 t (idleAt3_4 t hc1) (noFlush3_4 t hc1)]
    rw [acc3_reset V c t h0]; unfold step3
    by_cases hz : t.val = 0
    · rw [Phi3_castSucc V c t, Phi3_zero V c _ _ hz, rest3_eq]
      iintro ⟨⟨Hg, HS, HR⟩, Ho, ⟨%d0, H0⟩, ⟨%d1, H1⟩, ⟨%d2, H2⟩, ⟨%d3, H3⟩, ⟨%d4, H4⟩⟩
      iapply (kernelRun3_A c (grid3.coords t) _ _ _ _ _ _ _ _ _ _ _ _ hc0 hc1 (iblk3 V c 0 t) (iblk3 V c 1 t) (iblk3 V c 2 t) (iblk3 V c 3 t) ((dat3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      iexists _; iexact H4
    · rw [Phi3_castSucc V c t, Phi3_pos V c _ _ hz]
      iintro ⟨⟨Hg, HS, HR⟩, Ho, ⟨%d0, H0⟩, ⟨%d1, H1⟩, ⟨%d2, H2⟩, ⟨%d3, H3⟩, ⟨%d4, H4⟩⟩
      iapply (kernelRun3_A c (grid3.coords t) _ _ _ _ _ _ _ _ _ _ _ _ hc0 hc1 (iblk3 V c 0 t) (iblk3 V c 1 t) (iblk3 V c 2 t) (iblk3 V c 3 t) ((dat3 V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond3_0 (grid3.coords t) := fun h => h0 ((hcond3_0 t).mp h)
    by_cases h1 : t.val % 16 = 15
    · have hc1 : cond3_1 (grid3.coords t) := (hcond3_1 t).mpr h1
      rw [show (dat3 V c).leavesExact 4 t = owns (c : Thread nD τ) (ms3_4 t) fullShare ((dat3 V c).after 4 t) from by
        unfold Dat.leavesExact; rw [liveAt3_4 t hc1], after3_4]
      unfold out3
      rw [acc3_step V c t h0]; unfold step3
      rw [Phi3_castSucc V c t, Phi3_pos V c _ _ hz]
      iintro ⟨⟨Hg, HS, HR⟩, Ho, ⟨%d0, H0⟩, ⟨%d1, H1⟩, ⟨%d2, H2⟩, ⟨%d3, H3⟩, ⟨%d4, H4⟩⟩
      iapply (kernelRun3_C c (grid3.coords t) _ _ _ _ _ _ _ _ _ _ _ _ hc0 hc1 (iblk3 V c 0 t) (iblk3 V c 1 t) (iblk3 V c 2 t) (iblk3 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      iexact H4
    · have hc1 : ¬cond3_1 (grid3.coords t) := fun h => h1 ((hcond3_1 t).mp h)
      rw [Dat.leavesExact_idle (dat3 V c) 4 t (idleAt3_4 t hc1) (noFlush3_4 t hc1)]
      rw [acc3_step V c t h0]; unfold step3
      rw [Phi3_castSucc V c t, Phi3_pos V c _ _ hz]
      iintro ⟨⟨Hg, HS, HR⟩, Ho, ⟨%d0, H0⟩, ⟨%d1, H1⟩, ⟨%d2, H2⟩, ⟨%d3, H3⟩, ⟨%d4, H4⟩⟩
      iapply (kernelRun3_B c (grid3.coords t) _ _ _ _ _ _ _ _ _ _ _ _ hc0 hc1 (iblk3 V c 0 t) (iblk3 V c 1 t) (iblk3 V c 2 t) (iblk3 V c 3 t) ((dat3 V c).before 4 t d4) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      iexists _; iexact H4

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Region4.lean ====
import proofs.«408051_j35570919145766_3_alg».proof.Proof.Gen.KernelIdeal.Launch
import proofs.«408051_j35570919145766_3_alg».proof.Proof.Gen.KernelIdeal.Skeleton
import proofs.«408051_j35570919145766_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)

abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

abbrev ms4_0 (t : Fin cfg4.N) : Memref sig .tc .vmem S512x64 .bf16 := win4_0.stage (cfg4.slots t 0)
abbrev ms4_1 (t : Fin cfg4.N) : Memref sig .tc .vmem S1024x64 .bf16 := win4_1.stage (cfg4.slots t 1)
abbrev ms4_2 (t : Fin cfg4.N) : Memref sig .tc .vmem S4x1024 .f32 := win4_2.stage (cfg4.slots t 2)
abbrev ms4_3 (t : Fin cfg4.N) : Memref sig .tc .vmem S512x1024 .f32 := win4_3.stage (cfg4.slots t 3)
abbrev scM4 : Memref sig .tc .vmem S512x1024 .f32 := Memref.whole cc4_scratch0

theorem hz4 : (![0, 0] : Fin 2 → Nat) = fun _ => 0 := funext fun a => by fin_cases a <;> rfl

def crow4 (i : grid4.Coords) (x2 : Vec F S4x1024 .f32) : Vec F S1x1024 .f32 :=
  View.ld x2 (Rect.unit (s := S4x1024) (k4_off1 i) S1x1024.size (k4_off1_inb i))

def step4 (i : grid4.Coords) (x0 : Vec F S512x64 .bf16) (x1 : Vec F S1024x64 .bf16) (x2 : Vec F S4x1024 .f32) (acc : Vec F S512x1024 .f32) : Vec F S512x1024 .f32 :=
  k4_pay2 x0 x1 (crow4 i x2) acc

section runs
variable (c : Dev nD) (i : grid4.Coords) (arg2 : Memref sig .tc .vmem S512x64 .bf16) (harg2 : arg2.IsWhole) (arg3 : Memref sig .tc .vmem S1024x64 .bf16) (harg3 : arg3.IsWhole) (arg4 : Memref sig .tc .vmem S4x1024 .f32) (harg4 : arg4.IsWhole) (arg5 : Memref sig .tc .vmem S512x1024 .f32) (harg5 : arg5.IsWhole) (arg6 : Memref sig .tc .vmem S512x1024 .f32) (harg6 : arg6.IsWhole)

set_option maxHeartbeats 1000000 in
/-- At a first step the accumulator ends at the step onto zero, whatever it held. -/
theorem run4_A (hc0 : cond4_0 i) (hc1 : ¬cond4_1 i) (x0 : Vec F S512x64 .bf16) (x1 : Vec F S1024x64 .bf16) (x2 : Vec F S4x1024 .f32) (xi3 : Vec F S512x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (step4 i x0 x1 x2 (k4_pay1 (F := F)))) -∗ K ⟨⟩))
      ⊢ wp frame (wpE (defs₀ (F := F)) Variants.none c none) E (cc4__final_logits_kernel i arg2 harg2 arg3 harg3 arg4 harg4 arg5 harg5 arg6 harg6) K := by
  simp only [cc4__final_logits_kernel_eq_skeleton]; unfold cc4__final_logits_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  try sl_unfold_words
  rw [View.read_writes_eq_canon _ _ _ (fun y => ⟨_, List.mem_cons_self .., View.mem_set_unit_zero hz4 inb_S512x1024_S512x1024_0_0 y⟩)]
  rw [View.canon_cons_unit_zero (S := S512x1024) hz4, View.readCov_unit_zero (S := S512x1024) _ hz4]
  unfold step4 crow4
  simp only [View.readAt_eq_ld, harg2.read_unread, harg3.read_unread, harg4.read_unread, View.ld_unit_zero (S := S512x64) hz4, View.ld_unit_zero (S := S1024x64) hz4]
  try rfl

set_option maxHeartbeats 1000000 in
/-- At a middle step it ends at the step onto what it held. -/
theorem run4_B (hc0 : ¬cond4_0 i) (hc1 : ¬cond4_1 i) (x0 : Vec F S512x64 .bf16) (x1 : Vec F S1024x64 .bf16) (x2 : Vec F S4x1024 .f32) (xs : Vec F S512x1024 .f32) (xi3 : Vec F S512x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (step4 i x0 x1 x2 xs)) -∗ K ⟨⟩))
      ⊢ wp frame (wpE (defs₀ (F := F)) Variants.none c none) E (cc4__final_logits_kernel i arg2 harg2 arg3 harg3 arg4 harg4 arg5 harg5 arg6 harg6) K := by
  simp only [cc4__final_logits_kernel_eq_skeleton]; unfold cc4__final_logits_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  try sl_unfold_words
  rw [View.read_writes_eq_canon _ _ _ (fun y => ⟨_, List.mem_cons_self .., View.mem_set_unit_zero hz4 inb_S512x1024_S512x1024_0_0 y⟩)]
  rw [View.canon_unit_zero (S := S512x1024) hz4]
  unfold step4 crow4
  simp only [View.readAt_eq_ld, harg2.read_unread, harg3.read_unread, harg4.read_unread, harg6.read_unread, View.ld_unit_zero (S := S512x64) hz4, View.ld_unit_zero (S := S1024x64) hz4, View.ld_unit_zero (S := S512x1024) hz4]
  try rfl

set_option maxHeartbeats 1000000 in
/-- At a last step likewise, and the output block ends at the accumulator's logarithm. -/
theorem run4_C (hc0 : ¬cond4_0 i) (hc1 : cond4_1 i) (x0 : Vec F S512x64 .bf16) (x1 : Vec F S1024x64 .bf16) (x2 : Vec F S4x1024 .f32) (xs : Vec F S512x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k4_pay3 (step4 i x0 x1 x2 xs)) ∗ owns (c : Thread nD τ) arg6 fullShare (step4 i x0 x1 x2 xs)) -∗ K ⟨⟩))
      ⊢ wp frame (wpE (defs₀ (F := F)) Variants.none c none) E (cc4__final_logits_kernel i arg2 harg2 arg3 harg3 arg4 harg4 arg5 harg5 arg6 harg6) K := by
  simp only [cc4__final_logits_kernel_eq_skeleton]; unfold cc4__final_logits_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    try sl_unfold_words
    rw [View.read_writes_eq_canon _ _ _ (fun y => ⟨_, List.mem_cons_self .., View.mem_set_unit_zero hz4 inb_S512x1024_S512x1024_0_0 y⟩)]
    rw [View.canon_unit_zero (S := S512x1024) hz4, View.readCov_unit_zero (S := S512x1024) _ hz4]
    unfold step4 crow4
    simp only [View.readAt_eq_ld, harg2.read_unread, harg3.read_unread, harg4.read_unread, harg6.read_unread, View.ld_unit_zero (S := S512x64) hz4, View.ld_unit_zero (S := S1024x64) hz4, View.ld_unit_zero (S := S512x1024) hz4]
    try rfl
  iexists _; isplitr
  swap; · iexact HS
  ipureintro
  try sl_unfold_words
  rw [View.read_writes_eq_canon _ _ _ (fun y => ⟨_, List.mem_cons_self .., View.mem_set_unit_zero hz4 inb_S512x1024_S512x1024_0_0 y⟩)]
  rw [View.canon_unit_zero (S := S512x1024) hz4]
  unfold step4 crow4
  simp only [View.readAt_eq_ld, harg2.read_unread, harg3.read_unread, harg4.read_unread, harg6.read_unread, View.ld_unit_zero (S := S512x64) hz4, View.ld_unit_zero (S := S1024x64) hz4, View.ld_unit_zero (S := S512x1024) hz4]
  try rfl

end runs

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

def acc4 (c : Dev nD) : (n : ℕ) → n < cfg4.N → Vec F S512x1024 .f32
  | 0, hn => step4 (grid4.coords ⟨0, hn⟩) (iblk4 V c 0 ⟨0, hn⟩) (iblk4 V c 1 ⟨0, hn⟩) (iblk4 V c 2 ⟨0, hn⟩) (k4_pay1 (F := F))
  | n + 1, hn => step4 (grid4.coords ⟨n + 1, hn⟩) (iblk4 V c 0 ⟨n + 1, hn⟩) (iblk4 V c 1 ⟨n + 1, hn⟩) (iblk4 V c 2 ⟨n + 1, hn⟩)
      (if (n + 1) % 4 = 0 then k4_pay1 (F := F) else acc4 c n (Nat.lt_of_succ_lt hn))

theorem acc4_reset (c : Dev nD) (t : Fin cfg4.N) (h : t.val % 4 = 0) :
    acc4 V c t.val t.isLt = step4 (grid4.coords t) (iblk4 V c 0 t) (iblk4 V c 1 t) (iblk4 V c 2 t) (k4_pay1 (F := F)) := by
  obtain ⟨n, hn⟩ := t
  cases n with
  | zero => rfl
  | succ n => exact congrArg (step4 _ _ _ _) (if_pos h)

theorem acc4_step (c : Dev nD) (t : Fin cfg4.N) (h : ¬t.val % 4 = 0) :
    acc4 V c t.val t.isLt = step4 (grid4.coords t) (iblk4 V c 0 t) (iblk4 V c 1 t) (iblk4 V c 2 t)
      (acc4 V c (t.val - 1) (Nat.lt_of_le_of_lt (Nat.sub_le _ _) t.isLt)) := by
  obtain ⟨n, hn⟩ := t
  cases n with
  | zero => exact absurd (Nat.zero_mod _) h
  | succ n => exact congrArg (step4 _ _ _ _) (if_neg h)

def Phi4 (c : Dev nD) : (n : ℕ) → n ≤ cfg4.N → sProp 𝕄
  | 0, _ => iprop((∃ r, prngReg c r) ∗ Pipeline.scopedRest (Ix := Unit) (Name := ℕ) (U := UR sig nD τ) (Lvl := ℕ) spec4 c)
  | n + 1, hn => iprop((∃ r, prngReg c r) ∗ owns (c : Thread nD τ) scM4 fullShare (acc4 V c n hn)
      ∗ Pipeline.scopedRestBut (Ix := Unit) (Name := ℕ) (U := UR sig nD τ) (Lvl := ℕ) spec4 c [cc4_scratch0])

theorem Phi4_zero (c : Dev nD) (n : ℕ) (h : n ≤ cfg4.N) (hz : n = 0) :
    Phi4 V c n h = iprop((∃ r, prngReg c r) ∗ Pipeline.scopedRest (Ix := Unit) (Name := ℕ) (U := UR sig nD τ) (Lvl := ℕ) spec4 c) := by
  subst hz; rfl

theorem Phi4_succ (c : Dev nD) (n : ℕ) (hn : n < cfg4.N) :
    Phi4 V c (n + 1) hn = iprop((∃ r, prngReg c r) ∗ owns (c : Thread nD τ) scM4 fullShare (acc4 V c n hn)
      ∗ Pipeline.scopedRestBut (Ix := Unit) (Name := ℕ) (U := UR sig nD τ) (Lvl := ℕ) spec4 c [cc4_scratch0]) := rfl

theorem Phi4_pos (c : Dev nD) (n : ℕ) (h : n ≤ cfg4.N) (hz : n ≠ 0) :
    Phi4 V c n h = iprop((∃ r, prngReg c r) ∗ owns (c : Thread nD τ) scM4 fullShare (acc4 V c (n - 1) (by omega))
      ∗ Pipeline.scopedRestBut (Ix := Unit) (Name := ℕ) (U := UR sig nD τ) (Lvl := ℕ) spec4 c [cc4_scratch0]) := by
  cases n with
  | zero => exact absurd rfl hz
  | succ n => rfl

theorem scopedRest4_acc (c : Dev nD) :
    (Pipeline.scopedRest (Ix := Unit) (Name := ℕ) (U := UR sig nD τ) (Lvl := ℕ) spec4 c : sProp 𝕄)
      = iprop(iprop((∃ d, owns (c : Thread nD τ) scM4 fullShare d))
          ∗ Pipeline.scopedRestBut (Ix := Unit) (Name := ℕ) (U := UR sig nD τ) (Lvl := ℕ) spec4 c [cc4_scratch0]) := by
  rw [scopedRest4_split]; simp only [scM4, owns_whole]; try rfl

def dat4 (V : (c : Dev nD) → (b : Ref sig .tc) → Buf (Elt F) ((c : Thread nD τ).loc b)) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val t.isLt)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem q_eq4 (c : Dev nD) (w : Fin cfg4.W) : (dat4 V c).q w = fullShare := by
  dsimp only [dat4]

theorem owed_eq4 (c : Dev nD) (j : Fin (cfg4.N + 1)) : (dat4 V c).owed j = 0 := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = k4_pay3 (acc4 V c t.val t.isLt) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

theorem Phi_in4 (c : Dev nD) :
    (iprop((∃ r, prngReg c r) ∗ Pipeline.scopedRest (Ix := Unit) (Name := ℕ) (U := UR sig nD τ) (Lvl := ℕ) spec4 c) : sProp 𝕄) ⊢ (dat4 V c).Φ 0 := by
  rw [show (dat4 V c).Φ 0 = Phi4 V c 0 (Nat.zero_le _) from rfl, Phi4_zero V c 0 _ rfl]
  try exact Idealize.SL.BI.Entails.refl _

theorem Phi_out4 (c : Dev nD) :
    (dat4 V c).Φ (Fin.last cfg4.N) ⊢ (iprop((∃ r, prngReg c r) ∗ Pipeline.scopedRest (Ix := Unit) (Name := ℕ) (U := UR sig nD τ) (Lvl := ℕ) spec4 c) : sProp 𝕄) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 32 := N_4; omega), scopedRest4_acc]
  iintro ⟨Hg, HS, HR⟩
  isplitl [Hg]; · iexact Hg
  isplitl [HS]
  · iexists _; iexact HS
  iexact HR

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The point's place among its 4 prototype steps says which case runs; the accumulator is handed from point to point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  have hN : t.val < 32 := lt_of_lt_of_eq t.isLt (show cfg4.N = 32 from N_4)
  by_cases h0 : t.val % 4 = 0
  · have hc0 : cond4_0 (grid4.coords t) := (hcond4_0 t).mpr h0
    have hc1 : ¬cond4_1 (grid4.coords t) := fun h => by have := (hcond4_1 t).mp h; omega
    rw [Dat.leavesExact_idle (dat4 V c) 3 t (idleAt4_3 t hc1) (noFlush4_3 t hc1)]
    rw [acc4_reset V c t h0]
    by_cases hz : t.val = 0
    · rw [Phi4_castSucc V c t, Phi4_zero V c _ _ hz, scopedRest4_acc]
      iintro ⟨⟨Hg, HS, HR⟩, Ho, ⟨%d0, H0⟩, ⟨%d1, H1⟩, ⟨%d2, H2⟩, ⟨%d3, H3⟩⟩
      iapply (run4_A c (grid4.coords t) _ _ _ _ _ _ _ _ _ _ hc0 hc1 (iblk4 V c 0 t) (iblk4 V c 1 t) (iblk4 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      iexists _; iexact H3
    · rw [Phi4_castSucc V c t, Phi4_pos V c _ _ hz]
      iintro ⟨⟨Hg, HS, HR⟩, Ho, ⟨%d0, H0⟩, ⟨%d1, H1⟩, ⟨%d2, H2⟩, ⟨%d3, H3⟩⟩
      iapply (run4_A c (grid4.coords t) _ _ _ _ _ _ _ _ _ _ hc0 hc1 (iblk4 V c 0 t) (iblk4 V c 1 t) (iblk4 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      iexists _; iexact H3
  · have hc0 : ¬cond4_0 (grid4.coords t) := fun h => h0 ((hcond4_0 t).mp h)
    have hz : t.val ≠ 0 := fun e => h0 (by rw [e])
    rw [acc4_step V c t h0]
    rw [Phi4_castSucc V c t, Phi4_pos V c _ _ hz]
    by_cases h3 : t.val % 4 = 3
    · have hc1 : cond4_1 (grid4.coords t) := (hcond4_1 t).mpr h3
      rw [show (dat4 V c).leavesExact 3 t = owns (c : Thread nD τ) (ms4_3 t) fullShare ((dat4 V c).after 3 t) from by
        unfold Dat.leavesExact; rw [liveAt4_3 t hc1], after4_3, acc4_step V c t h0]
      iintro ⟨⟨Hg, HS, HR⟩, Ho, ⟨%d0, H0⟩, ⟨%d1, H1⟩, ⟨%d2, H2⟩, ⟨%d3, H3⟩⟩
      iapply (run4_C c (grid4.coords t) _ _ _ _ _ _ _ _ _ _ hc0 hc1 (iblk4 V c 0 t) (iblk4 V c 1 t) (iblk4 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      iexact H3
    · have hc1 : ¬cond4_1 (grid4.coords t) := fun h => h3 ((hcond4_1 t).mp h)
      rw [Dat.leavesExact_idle (dat4 V c) 3 t (idleAt4_3 t hc1) (noFlush4_3 t hc1)]
      iintro ⟨⟨Hg, HS, HR⟩, Ho, ⟨%d0, H0⟩, ⟨%d1, H1⟩, ⟨%d2, H2⟩, ⟨%d3, H3⟩⟩
      iapply (run4_B c (grid4.coords t) _ _ _ _ _ _ _ _ _ _ hc0 hc1 (iblk4 V c 0 t) (iblk4 V c 1 t) (iblk4 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      iexists _; iexact H3

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.Segs.lean ====
import proofs.«408051_j35570919145766_3_alg».proof.Proof.Region0
import proofs.«408051_j35570919145766_3_alg».proof.Proof.Region1
import proofs.«408051_j35570919145766_3_alg».proof.Proof.Region2
import proofs.«408051_j35570919145766_3_alg».proof.Proof.Region3
import proofs.«408051_j35570919145766_3_alg».proof.Proof.Region4
import proofs.«408051_j35570919145766_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

def outsBase : Gen.Outs (F := F) := fun _ r c => m ((c : Thread nD τ).loc r)

def outsWith (o : Gen.Outs (F := F)) (r₀ : Ref sig .tc) (x : (c : Dev nD) → Buf (Elt F) ((c : Thread nD τ).loc r₀)) : Gen.Outs (F := F) :=
  fun J r c => if h : r = r₀ then h ▸ x c else o J r c

theorem outsWith_same (o : Gen.Outs (F := F)) (r₀ : Ref sig .tc) (x : (c : Dev nD) → Buf (Elt F) ((c : Thread nD τ).loc r₀))
    (J : ℕ) (c : Dev nD) : outsWith o r₀ x J r₀ c = x c := by
  unfold outsWith; rw [dif_pos rfl]

theorem outsWith_ne (o : Gen.Outs (F := F)) (r₀ : Ref sig .tc) (x : (c : Dev nD) → Buf (Elt F) ((c : Thread nD τ).loc r₀))
    (J : ℕ) (r : Ref sig .tc) (c : Dev nD) (h : r ≠ r₀) : outsWith o r₀ x J r c = o J r c := by
  unfold outsWith; rw [dif_neg h]

def outs5 : Gen.Outs (F := F) :=
  outsWith (outsBase m) main_v26 fun c => (dat0 (atRefs (Gen.V4 m)) c).arrAt 2 cfg0.N
def outs6 : Gen.Outs (F := F) :=
  outsWith (outs5 m) main_v27 fun c => (dat1 (atRefs (Gen.V5 m (outs5 m))) c).arrAt 2 cfg1.N
def outs7 : Gen.Outs (F := F) :=
  outsWith (outs6 m) main_v28 fun c => (dat2 (atRefs (Gen.V6 m (outs6 m))) c).arrAt 2 cfg2.N
def outs8 : Gen.Outs (F := F) :=
  outsWith (outs7 m) main_v29 fun c => (dat3 (atRefs (Gen.V7 m (outs7 m))) c).arrAt 4 cfg3.N
/-- The regions' output arrays, each defined over the ones before it. -/
def outs : Gen.Outs (F := F) :=
  outsWith (outs8 m) main_v47 fun c => (dat4 (atRefs (Gen.V13 m (outs8 m))) c).arrAt 3 cfg4.N

theorem outs_v26 (J : ℕ) (c : Dev nD) : outs m J main_v26 c = (dat0 (atRefs (Gen.V4 m)) c).arrAt 2 cfg0.N := by
  unfold outs; rw [outsWith_ne _ _ _ _ _ _ (by decide)]
  unfold outs8; rw [outsWith_ne _ _ _ _ _ _ (by decide)]
  unfold outs7; rw [outsWith_ne _ _ _ _ _ _ (by decide)]
  unfold outs6; rw [outsWith_ne _ _ _ _ _ _ (by decide)]
  unfold outs5; rw [outsWith_same]

theorem outs5_v26 (J : ℕ) (c : Dev nD) : outs5 m J main_v26 c = (dat0 (atRefs (Gen.V4 m)) c).arrAt 2 cfg0.N := by
  unfold outs5; rw [outsWith_same]

theorem outs6_v26 (J : ℕ) (c : Dev nD) : outs6 m J main_v26 c = (dat0 (atRefs (Gen.V4 m)) c).arrAt 2 cfg0.N := by
  unfold outs6; rw [outsWith_ne _ _ _ _ _ _ (by decide)]; exact outs5_v26 m J c

theorem outs7_v26 (J : ℕ) (c : Dev nD) : outs7 m J main_v26 c = (dat0 (atRefs (Gen.V4 m)) c).arrAt 2 cfg0.N := by
  unfold outs7; rw [outsWith_ne _ _ _ _ _ _ (by decide)]; exact outs6_v26 m J c

theorem outs8_v26 (J : ℕ) (c : Dev nD) : outs8 m J main_v26 c = (dat0 (atRefs (Gen.V4 m)) c).arrAt 2 cfg0.N := by
  unfold outs8; rw [outsWith_ne _ _ _ _ _ _ (by decide)]; exact outs7_v26 m J c

theorem V5_outs : Gen.V5 m (outs m) = Gen.V5 m (outs5 m) := by
  funext c; show Function.update _ _ _ = Function.update _ _ _
  rw [outs_v26, outs5_v26]
theorem V5_outs6 : Gen.V5 m (outs6 m) = Gen.V5 m (outs5 m) := by
  funext c; show Function.update _ _ _ = Function.update _ _ _
  rw [outs6_v26, outs5_v26]
theorem V5_outs7 : Gen.V5 m (outs7 m) = Gen.V5 m (outs5 m) := by
  funext c; show Function.update _ _ _ = Function.update _ _ _
  rw [outs7_v26, outs5_v26]
theorem V5_outs8 : Gen.V5 m (outs8 m) = Gen.V5 m (outs5 m) := by
  funext c; show Function.update _ _ _ = Function.update _ _ _
  rw [outs8_v26, outs5_v26]

theorem outs6_v27 (J : ℕ) (c : Dev nD) : outs6 m J main_v27 c = (dat1 (atRefs (Gen.V5 m (outs5 m))) c).arrAt 2 cfg1.N := by
  unfold outs6; rw [outsWith_same]
theorem outs7_v27 (J : ℕ) (c : Dev nD) : outs7 m J main_v27 c = (dat1 (atRefs (Gen.V5 m (outs5 m))) c).arrAt 2 cfg1.N := by
  unfold outs7; rw [outsWith_ne _ _ _ _ _ _ (by decide)]; exact outs6_v27 m J c
theorem outs8_v27 (J : ℕ) (c : Dev nD) : outs8 m J main_v27 c = (dat1 (atRefs (Gen.V5 m (outs5 m))) c).arrAt 2 cfg1.N := by
  unfold outs8; rw [outsWith_ne _ _ _ _ _ _ (by decide)]; exact outs7_v27 m J c
theorem outs_v27 (J : ℕ) (c : Dev nD) : outs m J main_v27 c = (dat1 (atRefs (Gen.V5 m (outs5 m))) c).arrAt 2 cfg1.N := by
  unfold outs; rw [outsWith_ne _ _ _ _ _ _ (by decide)]; exact outs8_v27 m J c

theorem V6_outs : Gen.V6 m (outs m) = Gen.V6 m (outs6 m) := by
  funext c; show Function.update (Gen.V5 m (outs m) c) _ _ = Function.update (Gen.V5 m (outs6 m) c) _ _
  rw [V5_outs, V5_outs6, outs_v27, outs6_v27]
theorem V6_outs7 : Gen.V6 m (outs7 m) = Gen.V6 m (outs6 m) := by
  funext c; show Function.update (Gen.V5 m (outs7 m) c) _ _ = Function.update (Gen.V5 m (outs6 m) c) _ _
  rw [V5_outs7, V5_outs6, outs7_v27, outs6_v27]
theorem V6_outs8 : Gen.V6 m (outs8 m) = Gen.V6 m (outs6 m) := by
  funext c; show Function.update (Gen.V5 m (outs8 m) c) _ _ = Function.update (Gen.V5 m (outs6 m) c) _ _
  rw [V5_outs8, V5_outs6, outs8_v27, outs6_v27]

theorem outs7_v28 (J : ℕ) (c : Dev nD) : outs7 m J main_v28 c = (dat2 (atRefs (Gen.V6 m (outs6 m))) c).arrAt 2 cfg2.N := by
  unfold outs7; rw [outsWith_same]
theorem outs8_v28 (J : ℕ) (c : Dev nD) : outs8 m J main_v28 c = (dat2 (atRefs (Gen.V6 m (outs6 m))) c).arrAt 2 cfg2.N := by
  unfold outs8; rw [outsWith_ne _ _ _ _ _ _ (by decide)]; exact outs7_v28 m J c
theorem outs_v28 (J : ℕ) (c : Dev nD) : outs m J main_v28 c = (dat2 (atRefs (Gen.V6 m (outs6 m))) c).arrAt 2 cfg2.N := by
  unfold outs; rw [outsWith_ne _ _ _ _ _ _ (by decide)]; exact outs8_v28 m J c

theorem V7_outs : Gen.V7 m (outs m) = Gen.V7 m (outs7 m) := by
  funext c; show Function.update (Gen.V6 m (outs m) c) _ _ = Function.update (Gen.V6 m (outs7 m) c) _ _
  rw [V6_outs, V6_outs7, outs_v28, outs7_v28]
theorem V7_outs8 : Gen.V7 m (outs8 m) = Gen.V7 m (outs7 m) := by
  funext c; show Function.update (Gen.V6 m (outs8 m) c) _ _ = Function.update (Gen.V6 m (outs7 m) c) _ _
  rw [V6_outs8, V6_outs7, outs8_v28, outs7_v28]

theorem outs8_v29 (J : ℕ) (c : Dev nD) : outs8 m J main_v29 c = (dat3 (atRefs (Gen.V7 m (outs7 m))) c).arrAt 4 cfg3.N := by
  unfold outs8; rw [outsWith_same]
theorem outs_v29 (J : ℕ) (c : Dev nD) : outs m J main_v29 c = (dat3 (atRefs (Gen.V7 m (outs7 m))) c).arrAt 4 cfg3.N := by
  unfold outs; rw [outsWith_ne _ _ _ _ _ _ (by decide)]; exact outs8_v29 m J c

theorem V8_outs : Gen.V8 m (outs m) = Gen.V8 m (outs8 m) := by
  funext c; show Function.update (Gen.V7 m (outs m) c) _ _ = Function.update (Gen.V7 m (outs8 m) c) _ _
  rw [V7_outs, V7_outs8, outs_v29, outs8_v29]
theorem V13_outs : Gen.V13 m (outs m) = Gen.V13 m (outs8 m) := by
  funext c
  exact congrArg (fun v => StableHlo.after hostOps4_4 (StableHlo.after hostOps4_3 (StableHlo.after hostOps4_2
    (StableHlo.after hostOps4_1 (StableHlo.after hostOps4 v))))) (congrFun (V8_outs m) c)

theorem outs_v47 (J : ℕ) (c : Dev nD) : outs m J main_v47 c = (dat4 (atRefs (Gen.V13 m (outs8 m))) c).arrAt 3 cfg4.N := by
  unfold outs; rw [outsWith_same]

theorem outs_at5 (c : Dev nD) : outs m 5 main_v26 c = (dat0 (atRefs (Gen.V4 m)) c).arrAt 2 cfg0.N := outs_v26 m 5 c
theorem outs_at6 (c : Dev nD) : outs m 6 main_v27 c = (dat1 (atRefs (Gen.V5 m (outs m))) c).arrAt 2 cfg1.N := by
  rw [outs_v27, V5_outs]
theorem outs_at7 (c : Dev nD) : outs m 7 main_v28 c = (dat2 (atRefs (Gen.V6 m (outs m))) c).arrAt 2 cfg2.N := by
  rw [outs_v28, V6_outs]
theorem outs_at8 (c : Dev nD) : outs m 8 main_v29 c = (dat3 (atRefs (Gen.V7 m (outs m))) c).arrAt 4 cfg3.N := by
  rw [outs_v29, V7_outs]
theorem outs_at14 (c : Dev nD) : outs m 14 main_v47 c = (dat4 (atRefs (Gen.V13 m (outs m))) c).arrAt 3 cfg4.N := by
  rw [outs_v47, V13_outs]

def pdats : (p : Fin 5) → (c : Dev nD) → Dat τ (Elt F) Unit ℕ (UR sig nD τ) ℕ (cfgs p) c
  | ⟨0, _⟩ => fun c => dat0 (atRefs (Gen.V4 m)) c
  | ⟨1, _⟩ => fun c => dat1 (atRefs (Gen.V5 m (outs m))) c
  | ⟨2, _⟩ => fun c => dat2 (atRefs (Gen.V6 m (outs m))) c
  | ⟨3, _⟩ => fun c => dat3 (atRefs (Gen.V7 m (outs m))) c
  | ⟨4, _⟩ => fun c => dat4 (atRefs (Gen.V13 m (outs m))) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem sub_bound {cfg : Pipeline.Cfg sig Λ₀} {c : Dev nD} (dat : Dat τ (Elt F) Unit ℕ (UR sig nD τ) ℕ cfg c) (t : Fin (cfg.N + 1))
    (h : dat.recorded t = Set.univ) (W : Set (SemLoc sig × Unit)) : W ⊆ dat.bound () t :=
  fun x _ => Or.inl (h ▸ Set.mem_univ x)

theorem recorded_eq0 (V : (c : Dev nD) → (b : Ref sig .tc) → Buf (Elt F) ((c : Thread nD τ).loc b)) (c : Dev nD)
    (j : Fin (cfg0.N + 1)) : (dat0 V c).recorded j = Set.univ := rfl

theorem hF0 (c : Dev nD) : ∀ w : Fin cfg0.W,
    (pdats m 0 c).arrAt w cfg0.N = atRefs (Gen.V5 m (outs m)) c (Pipeline.arrRef spec0 w)
  | ⟨0, _⟩ => ((dat0 (atRefs (Gen.V4 m)) c).arrAt_in 0 rfl _).trans
      ((A_eq0 (atRefs (Gen.V4 m)) c 0).trans (Gen.V5_of m (outs m) c main_arg0 (by decide)).symm)
  | ⟨1, _⟩ => ((dat0 (atRefs (Gen.V4 m)) c).arrAt_in 1 rfl _).trans
      ((A_eq0 (atRefs (Gen.V4 m)) c 1).trans (Gen.V5_of m (outs m) c main_v25 (by decide)).symm)
  | ⟨2, _⟩ => by
    show (dat0 (atRefs (Gen.V4 m)) c).arrAt 2 cfg0.N
      = Function.update (Gen.V4 m c) (Proc.devRef .tc main_v26) (outs m 5 main_v26 c) (Proc.devRef .tc main_v26)
    rw [Function.update_self, outs_v26]
theorem hrest0 (c : Dev nD) : ∀ b, b ∉ Finset.univ.image (Pipeline.arrRef spec0) →
    atRefs (Gen.V5 m (outs m)) c b = atRefs (Gen.V4 m) c b := fun b hb =>
  Gen.V5_of m (outs m) c b fun h => hb (Finset.mem_image.mpr ⟨2, Finset.mem_univ _, (List.mem_singleton.mp h).symm⟩)

set_option backward.isDefEq.respectTransparency.types false in
/-- A region as a segment of the run: entered with every array at the contents left so far, left with its output array at what its points wrote. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (Gen.V4 m)) c).loose
  hwaits := Pipeline.hwaits_of_owed_zero _ _ _ _ L lv 0 fun c t => owed_eq0 (atRefs (Gen.V4 m)) c t
  pre c := iprop(StableHlo.held (c : Thread nD τ) (Pipeline.ucRefs τ sig) (Gen.V4 m c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atRefs (Gen.V4 m) c)
  hentry c := by
    rw [Pipeline.ownSems0_none]
    have hsplit := Pipeline.arrays_of_unscopedBufs (p := 0) (pcfgs (F := F)) Gen.adm (pdats m) launch0.win launch0.arr_whole c
      ((pdats m 0 c).share_full fun w => q_eq0 (atRefs (Gen.V4 m)) c w) (atRefs (Gen.V4 m) c) fun w => A_eq0 (atRefs (Gen.V4 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact sub_bound _ _ (recorded_eq0 (atRefs (Gen.V4 m)) c 0) _
      rw [show (pdats m 0 c).owed 0 = 0 from owed_eq0 (atRefs (Gen.V4 m)) c 0]
      iexact HO
    isplitl [Hp]; · iexact Hp
    iexact Hrest
  hin c := by
    refine BIBase.Entails.trans ?_ (Phi_in0 (atRefs (Gen.V4 m)) c)
    iintro ⟨Hp, -, Hr⟩
    isplitl [Hp]; · iexact Hp
    iexact Hr
  hout c := by
    rw [Pipeline.ownSems0_none]
    refine BIBase.Entails.trans (Phi_out0 (atRefs (Gen.V4 m)) c) ?_
    iintro ⟨Hp, Hr⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => q_eq0 (atRefs (Gen.V4 m)) c w)
      (atRefs (Gen.V4 m) c) (atRefs (Gen.V5 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 0 c).owed (Fin.last _) = 0 from owed_eq0 (atRefs (Gen.V4 m)) c _]
    iexact HO

theorem recorded_eq1 (V : (c : Dev nD) → (b : Ref sig .tc) → Buf (Elt F) ((c : Thread nD τ).loc b)) (c : Dev nD)
    (j : Fin (cfg1.N + 1)) : (dat1 V c).recorded j = Set.univ := rfl

theorem hF1 (c : Dev nD) : ∀ w : Fin cfg1.W,
    (pdats m 1 c).arrAt w cfg1.N = atRefs (Gen.V6 m (outs m)) c (Pipeline.arrRef spec1 w)
  | ⟨0, _⟩ => ((dat1 (atRefs (Gen.V5 m (outs m))) c).arrAt_in 0 rfl _).trans
      ((A_eq1 (atRefs (Gen.V5 m (outs m))) c 0).trans (Gen.V6_of m (outs m) c main_v26 (by decide)).symm)
  | ⟨1, _⟩ => ((dat1 (atRefs (Gen.V5 m (outs m))) c).arrAt_in 1 rfl _).trans
      ((A_eq1 (atRefs (Gen.V5 m (outs m))) c 1).trans (Gen.V6_of m (outs m) c main_arg1 (by decide)).symm)
  | ⟨2, _⟩ => by
    show (dat1 (atRefs (Gen.V5 m (outs m))) c).arrAt 2 cfg1.N
      = Function.update (Gen.V5 m (outs m) c) (Proc.devRef .tc main_v27) (outs m 6 main_v27 c) (Proc.devRef .tc main_v27)
    rw [Function.update_self, outs_v27, V5_outs]
theorem hrest1 (c : Dev nD) : ∀ b, b ∉ Finset.univ.image (Pipeline.arrRef spec1) →
    atRefs (Gen.V6 m (outs m)) c b = atRefs (Gen.V5 m (outs m)) c b := fun b hb =>
  Gen.V6_of m (outs m) c b fun h => hb (Finset.mem_image.mpr ⟨2, Finset.mem_univ _, (List.mem_singleton.mp h).symm⟩)

set_option backward.isDefEq.respectTransparency.types false in
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (Gen.V5 m (outs m))) c).loose
  hwaits := Pipeline.hwaits_of_owed_zero _ _ _ _ L lv 1 fun c t => owed_eq1 (atRefs (Gen.V5 m (outs m))) c t
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atRefs (Gen.V5 m (outs m)) c)
  hentry c := by
    rw [Pipeline.ownSems0_none]
    have hsplit := Pipeline.arrays_of_unscopedBufs (p := 1) (pcfgs (F := F)) Gen.adm (pdats m) launch1.win launch1.arr_whole c
      ((pdats m 1 c).share_full fun w => q_eq1 (atRefs (Gen.V5 m (outs m))) c w) (atRefs (Gen.V5 m (outs m)) c) fun w => A_eq1 (atRefs (Gen.V5 m (outs m))) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact sub_bound _ _ (recorded_eq1 (atRefs (Gen.V5 m (outs m))) c 0) _
      rw [show (pdats m 1 c).owed 0 = 0 from owed_eq1 (atRefs (Gen.V5 m (outs m))) c 0]
      iexact HO
    isplitl [Hp]; · iexact Hp
    iexact Hrest
  hin c := by
    refine BIBase.Entails.trans ?_ (Phi_in1 (atRefs (Gen.V5 m (outs m))) c)
    iintro ⟨Hp, -, Hr⟩
    isplitl [Hp]; · iexact Hp
    iexact Hr
  hout c := by
    rw [Pipeline.ownSems0_none]
    refine BIBase.Entails.trans (Phi_out1 (atRefs (Gen.V5 m (outs m))) c) ?_
    iintro ⟨Hp, Hr⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun w => q_eq1 (atRefs (Gen.V5 m (outs m))) c w)
      (atRefs (Gen.V5 m (outs m)) c) (atRefs (Gen.V6 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 1 c).owed (Fin.last _) = 0 from owed_eq1 (atRefs (Gen.V5 m (outs m))) c _]
    iexact HO

theorem recorded_eq2 (V : (c : Dev nD) → (b : Ref sig .tc) → Buf (Elt F) ((c : Thread nD τ).loc b)) (c : Dev nD)
    (j : Fin (cfg2.N + 1)) : (dat2 V c).recorded j = Set.univ := rfl

theorem hF2 (c : Dev nD) : ∀ w : Fin cfg2.W,
    (pdats m 2 c).arrAt w cfg2.N = atRefs (Gen.V7 m (outs m)) c (Pipeline.arrRef spec2 w)
  | ⟨0, _⟩ => ((dat2 (atRefs (Gen.V6 m (outs m))) c).arrAt_in 0 rfl _).trans
      ((A_eq2 (atRefs (Gen.V6 m (outs m))) c 0).trans (Gen.V7_of m (outs m) c main_v27 (by decide)).symm)
  | ⟨1, _⟩ => ((dat2 (atRefs (Gen.V6 m (outs m))) c).arrAt_in 1 rfl _).trans
      ((A_eq2 (atRefs (Gen.V6 m (outs m))) c 1).trans (Gen.V7_of m (outs m) c main_arg1 (by decide)).symm)
  | ⟨2, _⟩ => by
    show (dat2 (atRefs (Gen.V6 m (outs m))) c).arrAt 2 cfg2.N
      = Function.update (Gen.V6 m (outs m) c) (Proc.devRef .tc main_v28) (outs m 7 main_v28 c) (Proc.devRef .tc main_v28)
    rw [Function.update_self, outs_v28, V6_outs]
theorem hrest2 (c : Dev nD) : ∀ b, b ∉ Finset.univ.image (Pipeline.arrRef spec2) →
    atRefs (Gen.V7 m (outs m)) c b = atRefs (Gen.V6 m (outs m)) c b := fun b hb =>
  Gen.V7_of m (outs m) c b fun h => hb (Finset.mem_image.mpr ⟨2, Finset.mem_univ _, (List.mem_singleton.mp h).symm⟩)

set_option backward.isDefEq.respectTransparency.types false in
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (Gen.V6 m (outs m))) c).loose
  hwaits := Pipeline.hwaits_of_owed_zero _ _ _ _ L lv 2 fun c t => owed_eq2 (atRefs (Gen.V6 m (outs m))) c t
  pre c := iprop(StableHlo.held (c : Thread nD τ) (Pipeline.ucRefs τ sig) (Gen.V6 m (outs m) c) ∗ R c)
  post c := iprop(StableHlo.held (c : Thread nD τ) (Pipeline.ucRefs τ sig) (Gen.V7 m (outs m) c) ∗ R c)
  X c := iprop(∃ r, prngReg c r)
  Y c := iprop(∃ r, prngReg c r)
  Z c := Pipeline.unscopedRest (Ix := Unit) (Name := ℕ) (U := UR sig nD τ) (Lvl := ℕ) spec2 c (atRefs (Gen.V6 m (outs m)) c)
  hentry c := by
    rw [Pipeline.ownSems0_none]
    have hsplit := Pipeline.arrays_of_unscopedBufs (p := 2) (pcfgs (F := F)) Gen.adm (pdats m) launch2.win launch2.arr_whole c
      ((pdats m 2 c).share_full fun w => q_eq2 (atRefs (Gen.V6 m (outs m))) c w) (atRefs (Gen.V6 m (outs m)) c) fun w => A_eq2 (atRefs (Gen.V6 m (outs m))) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact sub_bound _ _ (recorded_eq2 (atRefs (Gen.V6 m (outs m))) c 0) _
      rw [show (pdats m 2 c).owed 0 = 0 from owed_eq2 (atRefs (Gen.V6 m (outs m))) c 0]
      iexact HO
    isplitl [Hp]; · iexact Hp
    iexact Hrest
  hin c := by
    refine BIBase.Entails.trans ?_ (Phi_in2 (atRefs (Gen.V6 m (outs m))) c)
    iintro ⟨Hp, -, Hr⟩
    isplitl [Hp]; · iexact Hp
    iexact Hr
  hout c := by
    rw [Pipeline.ownSems0_none]
    refine BIBase.Entails.trans (Phi_out2 (atRefs (Gen.V6 m (outs m))) c) ?_
    iintro ⟨Hp, Hr⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun w => q_eq2 (atRefs (Gen.V6 m (outs m))) c w)
      (atRefs (Gen.V6 m (outs m)) c) (atRefs (Gen.V7 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 2 c).owed (Fin.last _) = 0 from owed_eq2 (atRefs (Gen.V6 m (outs m))) c _]
    iexact HO

theorem recorded_eq3 (V : (c : Dev nD) → (b : Ref sig .tc) → Buf (Elt F) ((c : Thread nD τ).loc b)) (c : Dev nD)
    (j : Fin (cfg3.N + 1)) : (dat3 V c).recorded j = Set.univ := rfl

theorem hF3 (c : Dev nD) : ∀ w : Fin cfg3.W,
    (pdats m 3 c).arrAt w cfg3.N = atRefs (Gen.V8 m (outs m)) c (Pipeline.arrRef spec3 w)
  | ⟨0, _⟩ => ((dat3 (atRefs (Gen.V7 m (outs m))) c).arrAt_in 0 rfl _).trans
      ((A_eq3 (atRefs (Gen.V7 m (outs m))) c 0).trans (Gen.V8_of m (outs m) c main_v28 (by decide)).symm)
  | ⟨1, _⟩ => ((dat3 (atRefs (Gen.V7 m (outs m))) c).arrAt_in 1 rfl _).trans
      ((A_eq3 (atRefs (Gen.V7 m (outs m))) c 1).trans (Gen.V8_of m (outs m) c main_v26 (by decide)).symm)
  | ⟨2, _⟩ => ((dat3 (atRefs (Gen.V7 m (outs m))) c).arrAt_in 2 rfl _).trans
      ((A_eq3 (atRefs (Gen.V7 m (outs m))) c 2).trans (Gen.V8_of m (outs m) c main_arg4 (by decide)).symm)
  | ⟨3, _⟩ => ((dat3 (atRefs (Gen.V7 m (outs m))) c).arrAt_in 3 rfl _).trans
      ((A_eq3 (atRefs (Gen.V7 m (outs m))) c 3).trans (Gen.V8_of m (outs m) c main_arg5 (by decide)).symm)
  | ⟨4, _⟩ => by
    show (dat3 (atRefs (Gen.V7 m (outs m))) c).arrAt 4 cfg3.N
      = Function.update (Gen.V7 m (outs m) c) (Proc.devRef .tc main_v29) (outs m 8 main_v29 c) (Proc.devRef .tc main_v29)
    rw [Function.update_self, outs_v29, V7_outs]
theorem hrest3 (c : Dev nD) : ∀ b, b ∉ Finset.univ.image (Pipeline.arrRef spec3) →
    atRefs (Gen.V8 m (outs m)) c b = atRefs (Gen.V7 m (outs m)) c b := fun b hb =>
  Gen.V8_of m (outs m) c b fun h => hb (Finset.mem_image.mpr ⟨4, Finset.mem_univ _, (List.mem_singleton.mp h).symm⟩)

set_option backward.isDefEq.respectTransparency.types false in
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (Gen.V7 m (outs m))) c).loose
  hwaits := Pipeline.hwaits_of_owed_zero _ _ _ _ L lv 3 fun c t => owed_eq3 (atRefs (Gen.V7 m (outs m))) c t
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (atRefs (Gen.V7 m (outs m)) c)
  hentry c := by
    rw [Pipeline.ownSems0_none]
    have hsplit := Pipeline.arrays_of_unscopedBufs (p := 3) (pcfgs (F := F)) Gen.adm (pdats m) launch3.win launch3.arr_whole c
      ((pdats m 3 c).share_full fun w => q_eq3 (atRefs (Gen.V7 m (outs m))) c w) (atRefs (Gen.V7 m (outs m)) c) fun w => A_eq3 (atRefs (Gen.V7 m (outs m))) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact sub_bound _ _ (recorded_eq3 (atRefs (Gen.V7 m (outs m))) c 0) _
      rw [show (pdats m 3 c).owed 0 = 0 from owed_eq3 (atRefs (Gen.V7 m (outs m))) c 0]
      iexact HO
    isplitl [Hp]; · iexact Hp
    iexact Hrest
  hin c := by
    refine BIBase.Entails.trans ?_ (Phi_in3 (atRefs (Gen.V7 m (outs m))) c)
    iintro ⟨Hp, -, Hr⟩
    isplitl [Hp]; · iexact Hp
    iexact Hr
  hout c := by
    rw [Pipeline.ownSems0_none]
    refine BIBase.Entails.trans (Phi_out3 (atRefs (Gen.V7 m (outs m))) c) ?_
    iintro ⟨Hp, Hr⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun w => q_eq3 (atRefs (Gen.V7 m (outs m))) c w)
      (atRefs (Gen.V7 m (outs m)) c) (atRefs (Gen.V8 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 3 c).owed (Fin.last _) = 0 from owed_eq3 (atRefs (Gen.V7 m (outs m))) c _]
    iexact HO

theorem recorded_eq4 (V : (c : Dev nD) → (b : Ref sig .tc) → Buf (Elt F) ((c : Thread nD τ).loc b)) (c : Dev nD)
    (j : Fin (cfg4.N + 1)) : (dat4 V c).recorded j = Set.univ := rfl

theorem hF4 (c : Dev nD) : ∀ w : Fin cfg4.W,
    (pdats m 4 c).arrAt w cfg4.N = atRefs (Gen.V14 m (outs m)) c (Pipeline.arrRef spec4 w)
  | ⟨0, _⟩ => ((dat4 (atRefs (Gen.V13 m (outs m))) c).arrAt_in 0 rfl _).trans
      ((A_eq4 (atRefs (Gen.V13 m (outs m))) c 0).trans (Gen.V14_of m (outs m) c main_v45 (by decide)).symm)
  | ⟨1, _⟩ => ((dat4 (atRefs (Gen.V13 m (outs m))) c).arrAt_in 1 rfl _).trans
      ((A_eq4 (atRefs (Gen.V13 m (outs m))) c 1).trans (Gen.V14_of m (outs m) c main_v46 (by decide)).symm)
  | ⟨2, _⟩ => ((dat4 (atRefs (Gen.V13 m (outs m))) c).arrAt_in 2 rfl _).trans
      ((A_eq4 (atRefs (Gen.V13 m (outs m))) c 2).trans (Gen.V14_of m (outs m) c main_v25 (by decide)).symm)
  | ⟨3, _⟩ => by
    show (dat4 (atRefs (Gen.V13 m (outs m))) c).arrAt 3 cfg4.N
      = Function.update (Gen.V13 m (outs m) c) (Proc.devRef .tc main_v47) (outs m 14 main_v47 c) (Proc.devRef .tc main_v47)
    rw [Function.update_self, outs_v47, V13_outs]
theorem hrest4 (c : Dev nD) : ∀ b, b ∉ Finset.univ.image (Pipeline.arrRef spec4) →
    atRefs (Gen.V14 m (outs m)) c b = atRefs (Gen.V13 m (outs m)) c b := fun b hb =>
  Gen.V14_of m (outs m) c b fun h => hb (Finset.mem_image.mpr ⟨3, Finset.mem_univ _, (List.mem_singleton.mp h).symm⟩)

set_option backward.isDefEq.respectTransparency.types false in
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atRefs (Gen.V13 m (outs m))) c).loose
  hwaits := Pipeline.hwaits_of_owed_zero _ _ _ _ L lv 4 fun c t => owed_eq4 (atRefs (Gen.V13 m (outs m))) c t
  pre c := iprop(StableHlo.held (c : Thread nD τ) (Pipeline.ucRefs τ sig) (Gen.V13 m (outs m) c) ∗ R c)
  post c := iprop(StableHlo.held (c : Thread nD τ) (Pipeline.ucRefs τ sig) (Gen.V14 m (outs m) c) ∗ R c)
  X c := iprop(∃ r, prngReg c r)
  Y c := iprop(∃ r, prngReg c r)
  Z c := Pipeline.unscopedRest (Ix := Unit) (Name := ℕ) (U := UR sig nD τ) (Lvl := ℕ) spec4 c (atRefs (Gen.V13 m (outs m)) c)
  hentry c := by
    rw [Pipeline.ownSems0_none]
    have hsplit := Pipeline.arrays_of_unscopedBufs (p := 4) (pcfgs (F := F)) Gen.adm (pdats m) launch4.win launch4.arr_whole c
      ((pdats m 4 c).share_full fun w => q_eq4 (atRefs (Gen.V13 m (outs m))) c w) (atRefs (Gen.V13 m (outs m)) c) fun w => A_eq4 (atRefs (Gen.V13 m (outs m))) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact sub_bound _ _ (recorded_eq4 (atRefs (Gen.V13 m (outs m))) c 0) _
      rw [show (pdats m 4 c).owed 0 = 0 from owed_eq4 (atRefs (Gen.V13 m (outs m))) c 0]
      iexact HO
    isplitl [Hp]; · iexact Hp
    iexact Hrest
  hin c := by
    refine BIBase.Entails.trans ?_ (Phi_in4 (atRefs (Gen.V13 m (outs m))) c)
    iintro ⟨Hp, -, Hr⟩
    isplitl [Hp]; · iexact Hp
    iexact Hr
  hout c := by
    rw [Pipeline.ownSems0_none]
    refine BIBase.Entails.trans (Phi_out4 (atRefs (Gen.V13 m (outs m))) c) ?_
    iintro ⟨Hp, Hr⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun w => q_eq4 (atRefs (Gen.V13 m (outs m))) c w)
      (atRefs (Gen.V13 m (outs m)) c) (atRefs (Gen.V14 m (outs m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 4 c).owed (Fin.last _) = 0 from owed_eq4 (atRefs (Gen.V13 m (outs m))) c _]
    iexact HO

end Cert.KernelIdeal.Hand

end
-- ==== Proof.RefRead.lean ====
import proofs.«408051_j35570919145766_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

/-- The contents of an f32 buffer of shape `S`. -/
abbrev FArr (F : FTy → Type) (S : Shape) : Type := (⟨S, .f32⟩ : BufTy).Contents (Elt F)

variable {F : FTy → Type} [FloatOps F]

/-- Each operation of the reference as a function of the arguments it depends on; where a later proof reads it, also its value at an index. -/
def val_main_call0_v0 (x3 : FArr F S4x64) : FArr F S4x64 :=
  mulf (x3) (x3)

def val_main_call0_cst : FArr F S_ :=
  constant S_ .f32 0x00000000#32

def val_main_call0_v1 (x3 : FArr F S4x64) : FArr F S4 :=
  Host.reduceAdd (val_main_call0_v0 (F := F) x3) (val_main_call0_cst (F := F)) reducesTo_S4x64_S4_d1 h_S_

def val_main_call0_v2 (x3 : FArr F S4x64) : FArr F S4x1 :=
  broadcastInDim S4x1 ![0] bcast_S4_S4x1_0 (val_main_call0_v1 (F := F) x3)

def val_main_v0 (x3 : FArr F S4x64) : FArr F S4x1 :=
  Host.sqrt (val_main_call0_v2 (F := F) x3)

def val_main_cst : FArr F S_ :=
  constant S_ .f32 0x2B8CBCCC#32

def val_main_v1 : FArr F S4x1 :=
  broadcastInDim S4x1 ![] bcast_S_S4x1 (val_main_cst (F := F))

def val_main_v2 (x3 : FArr F S4x64) : FArr F S4x1 :=
  maximumf (val_main_v0 (F := F) x3) (val_main_v1 (F := F))

def val_main_v3 (x3 : FArr F S4x64) : FArr F S4x64 :=
  broadcastInDim S4x64 ![0, 1] bcast_S4x1_S4x64_0_1 (val_main_v2 (F := F) x3)

def val_main_v4 (x3 : FArr F S4x64) : FArr F S4x64 :=
  Host.divf (x3) (val_main_v3 (F := F) x3)

def val_main_call1_v0 (x2 : FArr F S8192x64) : FArr F S8192x64 :=
  mulf (x2) (x2)

def val_main_call1_cst : FArr F S_ :=
  constant S_ .f32 0x00000000#32

def val_main_call1_v1 (x2 : FArr F S8192x64) : FArr F S8192 :=
  Host.reduceAdd (val_main_call1_v0 (F := F) x2) (val_main_call1_cst (F := F)) reducesTo_S8192x64_S8192_d1 h_S_

def val_main_call1_v2 (x2 : FArr F S8192x64) : FArr F S8192x1 :=
  broadcastInDim S8192x1 ![0] bcast_S8192_S8192x1_0 (val_main_call1_v1 (F := F) x2)

def val_main_v5 (x2 : FArr F S8192x64) : FArr F S8192x1 :=
  Host.sqrt (val_main_call1_v2 (F := F) x2)

def val_main_cst_0 : FArr F S_ :=
  constant S_ .f32 0x2B8CBCCC#32

def val_main_v6 : FArr F S8192x1 :=
  broadcastInDim S8192x1 ![] bcast_S_S8192x1 (val_main_cst_0 (F := F))

def val_main_v7 (x2 : FArr F S8192x64) : FArr F S8192x1 :=
  maximumf (val_main_v5 (F := F) x2) (val_main_v6 (F := F))

def val_main_v8 (x2 : FArr F S8192x64) : FArr F S8192x64 :=
  broadcastInDim S8192x64 ![0, 1] bcast_S8192x1_S8192x64_0_1 (val_main_v7 (F := F) x2)

def val_main_v9 (x2 : FArr F S8192x64) : FArr F S8192x64 :=
  Host.divf (x2) (val_main_v8 (F := F) x2)

def val_main_v10 (x3 : FArr F S4x64) : FArr F S64x4 :=
  transpose S64x4 [1, 0] (val_main_v4 (F := F) x3) transposes_S4x64_S64x4_1_0

def val_main_v11 (x2 : FArr F S8192x64) (x3 : FArr F S4x64) : FArr F S8192x4 :=
  Host.dotGeneral dot_S8192x64_S64x4_S8192x4_1_0_0_1_n_n none (val_main_v9 (F := F) x2) (val_main_v10 (F := F) x3)

def val_main_cst_1 : FArr F S_ :=
  constant S_ .f32 0x3F800000#32

def val_main_v12 : FArr F S8192x4 :=
  broadcastInDim S8192x4 ![] bcast_S_S8192x4 (val_main_cst_1 (F := F))

def val_main_v13 (x2 : FArr F S8192x64) (x3 : FArr F S4x64) : FArr F S8192x4 :=
  Host.divf (val_main_v11 (F := F) x2 x3) (val_main_v12 (F := F))

def val_main_cst_2 : FArr F S_ :=
  constant S_ .f32 0xFF800000#32

def val_main_v14 (x2 : FArr F S8192x64) (x3 : FArr F S4x64) : FArr F S8192 :=
  Host.reduce FloatOps.maximumf (val_main_v13 (F := F) x2 x3) (val_main_cst_2 (F := F)) reducesTo_S8192x4_S8192_d1 h_S_

def val_main_cst_3 : FArr F S_ :=
  constant S_ .f32 0xFF800000#32

def val_main_v15 : FArr F S8192 :=
  broadcastInDim S8192 ![] bcast_S_S8192 (val_main_cst_3 (F := F))

def val_main_v16 (x2 : FArr F S8192x64) (x3 : FArr F S4x64) : FArr F S8192 :=
  maximumf (val_main_v15 (F := F)) (val_main_v14 (F := F) x2 x3)

def val_main_v17 (x2 : FArr F S8192x64) (x3 : FArr F S4x64) : FArr F S8192x1 :=
  broadcastInDim S8192x1 ![0] bcast_S8192_S8192x1_0 (val_main_v16 (F := F) x2 x3)

def val_main_v18 (x2 : FArr F S8192x64) (x3 : FArr F S4x64) : FArr F S8192x4 :=
  broadcastInDim S8192x4 ![0, 1] bcast_S8192x1_S8192x4_0_1 (val_main_v17 (F := F) x2 x3)

def val_main_v19 (x2 : FArr F S8192x64) (x3 : FArr F S4x64) : FArr F S8192x4 :=
  subf (val_main_v13 (F := F) x2 x3) (val_main_v18 (F := F) x2 x3)

def val_main_v20 (x2 : FArr F S8192x64) (x3 : FArr F S4x64) : FArr F S8192x4 :=
  Host.exp (val_main_v19 (F := F) x2 x3)

def val_main_cst_4 : FArr F S_ :=
  constant S_ .f32 0x00000000#32

def val_main_v21 (x2 : FArr F S8192x64) (x3 : FArr F S4x64) : FArr F S8192 :=
  Host.reduceAdd (val_main_v20 (F := F) x2 x3) (val_main_cst_4 (F := F)) reducesTo_S8192x4_S8192_d1 h_S_

def val_main_v22 (x2 : FArr F S8192x64) (x3 : FArr F S4x64) : FArr F S8192x1 :=
  broadcastInDim S8192x1 ![0] bcast_S8192_S8192x1_0 (val_main_v21 (F := F) x2 x3)

def val_main_v23 (x2 : FArr F S8192x64) (x3 : FArr F S4x64) : FArr F S8192x4 :=
  broadcastInDim S8192x4 ![0, 1] bcast_S8192x1_S8192x4_0_1 (val_main_v22 (F := F) x2 x3)

def val_main_v24 (x2 : FArr F S8192x64) (x3 : FArr F S4x64) : FArr F S8192x4 :=
  Host.divf (val_main_v20 (F := F) x2 x3) (val_main_v23 (F := F) x2 x3)

def val_main_v25 (x0 : FArr F S512x8192) : FArr F S1x512x8192 :=
  broadcastInDim S1x512x8192 ![1, 2] bcast_S512x8192_S1x512x8192_1_2 (x0)

abbrev idx_main_v25 (i : S1x512x8192.Idx) : S512x8192.Idx := fun a => match a with
  | ⟨0, _⟩ => ⟨(i 1).val, (i 1).isLt⟩
  | ⟨1, _⟩ => ⟨(i 2).val, (i 2).isLt⟩

theorem val_main_v25_apply (x0 : FArr F S512x8192) (i : S1x512x8192.Idx) :
    val_main_v25 (F := F) x0 i = x0 (idx_main_v25 i) := by
  unfold val_main_v25
  exact broadcastInDim_apply _ bcast_S512x8192_S1x512x8192_1_2 x0 i (idx_main_v25 i) (fun a => match a with
    | ⟨0, _⟩ => by show (i 1).val = if (512 : Nat) = 1 then 0 else (i 1).val; rw [if_neg (by decide)]
    | ⟨1, _⟩ => by show (i 2).val = if (8192 : Nat) = 1 then 0 else (i 2).val; rw [if_neg (by decide)])

def val_main_v26 (x2 : FArr F S8192x64) (x3 : FArr F S4x64) : FArr F S4x8192 :=
  transpose S4x8192 [1, 0] (val_main_v24 (F := F) x2 x3) transposes_S8192x4_S4x8192_1_0

def val_main_v27 (x2 : FArr F S8192x64) (x3 : FArr F S4x64) : FArr F S4x1x8192 :=
  broadcastInDim S4x1x8192 ![0, 2] bcast_S4x8192_S4x1x8192_0_2 (val_main_v26 (F := F) x2 x3)

abbrev idx_main_v27 (i : S4x1x8192.Idx) : S4x8192.Idx := fun a => match a with
  | ⟨0, _⟩ => ⟨(i 0).val, (i 0).isLt⟩
  | ⟨1, _⟩ => ⟨(i 2).val, (i 2).isLt⟩

theorem val_main_v27_apply (x2 : FArr F S8192x64) (x3 : FArr F S4x64) (i : S4x1x8192.Idx) :
    val_main_v27 (F := F) x2 x3 i = val_main_v26 (F := F) x2 x3 (idx_main_v27 i) := by
  unfold val_main_v27
  generalize val_main_v26 (F := F) x2 x3 = y
  exact broadcastInDim_apply _ bcast_S4x8192_S4x1x8192_0_2 y i (idx_main_v27 i) (fun a => match a with
    | ⟨0, _⟩ => by show (i 0).val = if (4 : Nat) = 1 then 0 else (i 0).val; rw [if_neg (by decide)]
    | ⟨1, _⟩ => by show (i 2).val = if (8192 : Nat) = 1 then 0 else (i 2).val; rw [if_neg (by decide)])

def val_main_v28 (x0 : FArr F S512x8192) : FArr F S4x512x8192 :=
  broadcastInDim S4x512x8192 ![0, 1, 2] bcast_S1x512x8192_S4x512x8192_0_1_2 (val_main_v25 (F := F) x0)

abbrev idx_main_v28 (i : S4x512x8192.Idx) : S1x512x8192.Idx := fun a => match a with
  | ⟨0, _⟩ => ⟨0, Nat.one_pos⟩
  | ⟨1, _⟩ => ⟨(i 1).val, (i 1).isLt⟩
  | ⟨2, _⟩ => ⟨(i 2).val, (i 2).isLt⟩

theorem val_main_v28_apply (x0 : FArr F S512x8192) (i : S4x512x8192.Idx) :
    val_main_v28 (F := F) x0 i = val_main_v25 (F := F) x0 (idx_main_v28 i) := by
  unfold val_main_v28
  generalize val_main_v25 (F := F) x0 = y
  exact broadcastInDim_apply _ bcast_S1x512x8192_S4x512x8192_0_1_2 y i (idx_main_v28 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)]
    | ⟨2, _⟩ => by show (i 2).val = if (8192 : Nat) = 1 then 0 else (i 2).val; rw [if_neg (by decide)])

def val_main_v29 (x2 : FArr F S8192x64) (x3 : FArr F S4x64) : FArr F S4x512x8192 :=
  broadcastInDim S4x512x8192 ![0, 1, 2] bcast_S4x1x8192_S4x512x8192_0_1_2 (val_main_v27 (F := F) x2 x3)

abbrev idx_main_v29 (i : S4x512x8192.Idx) : S4x1x8192.Idx := fun a => match a with
  | ⟨0, _⟩ => ⟨(i 0).val, (i 0).isLt⟩
  | ⟨1, _⟩ => ⟨0, Nat.one_pos⟩
  | ⟨2, _⟩ => ⟨(i 2).val, (i 2).isLt⟩

theorem val_main_v29_apply (x2 : FArr F S8192x64) (x3 : FArr F S4x64) (i : S4x512x8192.Idx) :
    val_main_v29 (F := F) x2 x3 i = val_main_v27 (F := F) x2 x3 (idx_main_v29 i) := by
  unfold val_main_v29
  generalize val_main_v27 (F := F) x2 x3 = y
  exact broadcastInDim_apply _ bcast_S4x1x8192_S4x512x8192_0_1_2 y i (idx_main_v29 i) (fun a => match a with
    | ⟨0, _⟩ => by show (i 0).val = if (4 : Nat) = 1 then 0 else (i 0).val; rw [if_neg (by decide)]
    | ⟨1, _⟩ => by show 0 = if (1 : Nat) = 1 then 0 else (i 1).val; rw [if_pos rfl]
    | ⟨2, _⟩ => by show (i 2).val = if (8192 : Nat) = 1 then 0 else (i 2).val; rw [if_neg (by decide)])

def val_main_v30 (x0 : FArr F S512x8192) (x2 : FArr F S8192x64) (x3 : FArr F S4x64) : FArr F S4x512x8192 :=
  mulf (val_main_v28 (F := F) x0) (val_main_v29 (F := F) x2 x3)

theorem val_main_v30_apply (x0 : FArr F S512x8192) (x2 : FArr F S8192x64) (x3 : FArr F S4x64) (i : S4x512x8192.Idx) :
    val_main_v30 (F := F) x0 x2 x3 i = FloatOps.mulf (val_main_v28 (F := F) x0 i) (val_main_v29 (F := F) x2 x3 i) := rfl

def val_main_call2_v0 (x0 : FArr F S512x8192) (x2 : FArr F S8192x64) (x3 : FArr F S4x64) : FArr F S4x512x8192 :=
  mulf (val_main_v30 (F := F) x0 x2 x3) (val_main_v30 (F := F) x0 x2 x3)

theorem val_main_call2_v0_apply (x0 : FArr F S512x8192) (x2 : FArr F S8192x64) (x3 : FArr F S4x64) (i : S4x512x8192.Idx) :
    val_main_call2_v0 (F := F) x0 x2 x3 i = FloatOps.mulf (val_main_v30 (F := F) x0 x2 x3 i) (val_main_v30 (F := F) x0 x2 x3 i) := rfl

def val_main_call2_cst : FArr F S_ :=
  constant S_ .f32 0x00000000#32

theorem val_main_call2_cst_apply (i : S_.Idx) :
    val_main_call2_cst (F := F) i = FloatOps.ofBits .f32 0x00000000#32 := rfl

def val_main_call2_v1 (x0 : FArr F S512x8192) (x2 : FArr F S8192x64) (x3 : FArr F S4x64) : FArr F S4x512 :=
  Host.reduceAdd (val_main_call2_v0 (F := F) x0 x2 x3) (val_main_call2_cst (F := F)) reducesTo_S4x512x8192_S4x512_d2 h_S_

abbrev idx_main_call2_v1 (i : S4x512.Idx) (k : Fin 8192) : S4x512x8192.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_call2_v1_apply (x0 : FArr Ideal S512x8192) (x2 : FArr Ideal S8192x64) (x3 : FArr Ideal S4x64) (i : S4x512.Idx) :
    val_main_call2_v1 (F := Ideal) x0 x2 x3 i = (val_main_call2_cst (F := Ideal)) (Shape.Idx.first h_S_) + ∑ k : Fin 8192, (val_main_call2_v0 (F := Ideal) x0 x2 x3) (idx_main_call2_v1 i k) := by
  unfold val_main_call2_v1
  generalize val_main_call2_v0 (F := Ideal) x0 x2 x3 = y0
  simp only [Host.reduceAdd, Ideal.hostReduceAdd_def]
  rw [Ideal.hostReduceAdd_single reducesTo_S4x512x8192_S4x512_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_call2_v2 (x0 : FArr F S512x8192) (x2 : FArr F S8192x64) (x3 : FArr F S4x64) : FArr F S4x512x1 :=
  broadcastInDim S4x512x1 ![0, 1] bcast_S4x512_S4x512x1_0_1 (val_main_call2_v1 (F := F) x0 x2 x3)

abbrev idx_main_call2_v2 (i : S4x512x1.Idx) : S4x512.Idx := fun a => match a with
  | ⟨0, _⟩ => ⟨(i 0).val, (i 0).isLt⟩
  | ⟨1, _⟩ => ⟨(i 1).val, (i 1).isLt⟩

theorem val_main_call2_v2_apply (x0 : FArr F S512x8192) (x2 : FArr F S8192x64) (x3 : FArr F S4x64) (i : S4x512x1.Idx) :
    val_main_call2_v2 (F := F) x0 x2 x3 i = val_main_call2_v1 (F := F) x0 x2 x3 (idx_main_call2_v2 i) := by
  unfold val_main_call2_v2
  generalize val_main_call2_v1 (F := F) x0 x2 x3 = y
  exact broadcastInDim_apply _ bcast_S4x512_S4x512x1_0_1 y i (idx_main_call2_v2 i) (fun a => match a with
    | ⟨0, _⟩ => by show (i 0).val = if (4 : Nat) = 1 then 0 else (i 0).val; rw [if_neg (by decide)]
    | ⟨1, _⟩ => by show (i 1).val = if (512 : Nat) = 1 then 0 else (i 1).val; rw [if_neg (by decide)])

def val_main_v31 (x0 : FArr F S512x8192) (x2 : FArr F S8192x64) (x3 : FArr F S4x64) : FArr F S4x512x1 :=
  Host.sqrt (val_main_call2_v2 (F := F) x0 x2 x3)

theorem val_main_v31_apply (x0 : FArr F S512x8192) (x2 : FArr F S8192x64) (x3 : FArr F S4x64) (i : S4x512x1.Idx) :
    val_main_v31 (F := F) x0 x2 x3 i = FloatOps.hostUnary .sqrt (val_main_call2_v2 (F := F) x0 x2 x3 i) := rfl

def val_main_cst_5 : FArr F S_ :=
  constant S_ .f32 0x2B8CBCCC#32

theorem val_main_cst_5_apply (i : S_.Idx) :
    val_main_cst_5 (F := F) i = FloatOps.ofBits .f32 0x2B8CBCCC#32 := rfl

def val_main_v32 : FArr F S4x512x1 :=
  broadcastInDim S4x512x1 ![] bcast_S_S4x512x1 (val_main_cst_5 (F := F))

abbrev idx_main_v32 (i : S4x512x1.Idx) : S_.Idx := fun a => a.elim0

theorem val_main_v32_apply (i : S4x512x1.Idx) :
    val_main_v32 (F := F) i = val_main_cst_5 (F := F) (idx_main_v32 i) := by
  unfold val_main_v32
  generalize val_main_cst_5 (F := F) = y
  exact broadcastInDim_apply _ bcast_S_S4x512x1 y i (idx_main_v32 i) (fun a => a.elim0)

def val_main_v33 (x0 : FArr F S512x8192) (x2 : FArr F S8192x64) (x3 : FArr F S4x64) : FArr F S4x512x1 :=
  maximumf (val_main_v31 (F := F) x0 x2 x3) (val_main_v32 (F := F))

theorem val_main_v33_apply (x0 : FArr F S512x8192) (x2 : FArr F S8192x64) (x3 : FArr F S4x64) (i : S4x512x1.Idx) :
    val_main_v33 (F := F) x0 x2 x3 i = FloatOps.maximumf (val_main_v31 (F := F) x0 x2 x3 i) (val_main_v32 (F := F) i) := rfl

def val_main_v34 (x0 : FArr F S512x8192) (x2 : FArr F S8192x64) (x3 : FArr F S4x64) : FArr F S4x512x8192 :=
  broadcastInDim S4x512x8192 ![0, 1, 2] bcast_S4x512x1_S4x512x8192_0_1_2 (val_main_v33 (F := F) x0 x2 x3)

abbrev idx_main_v34 (i : S4x512x8192.Idx) : S4x512x1.Idx := fun a => match a with
  | ⟨0, _⟩ => ⟨(i 0).val, (i 0).isLt⟩
  | ⟨1, _⟩ => ⟨(i 1).val, (i 1).isLt⟩
  | ⟨2, _⟩ => ⟨0, Nat.one_pos⟩

theorem val_main_v34_apply (x0 : FArr F S512x8192) (x2 : FArr F S8192x64) (x3 : FArr F S4x64) (i : S4x512x8192.Idx) :
    val_main_v34 (F := F) x0 x2 x3 i = val_main_v33 (F := F) x0 x2 x3 (idx_main_v34 i) := by
  unfold val_main_v34
  generalize val_main_v33 (F := F) x0 x2 x3 = y
  exact broadcastInDim_apply _ bcast_S4x512x1_S4x512x8192_0_1_2 y i (idx_main_v34 i) (fun a => match a with
    | ⟨0, _⟩ => by show (i 0).val = if (4 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

def val_main_v35 (x0 : FArr F S512x8192) (x2 : FArr F S8192x64) (x3 : FArr F S4x64) : FArr F S4x512x8192 :=
  Host.divf (val_main_v30 (F := F) x0 x2 x3) (val_main_v34 (F := F) x0 x2 x3)

theorem val_main_v35_apply (x0 : FArr F S512x8192) (x2 : FArr F S8192x64) (x3 : FArr F S4x64) (i : S4x512x8192.Idx) :
    val_main_v35 (F := F) x0 x2 x3 i = FloatOps.hostDivf (val_main_v30 (F := F) x0 x2 x3 i) (val_main_v34 (F := F) x0 x2 x3 i) := rfl

def val_main_v36 (x0 : FArr F S512x8192) (x1 : FArr F S8192x8192) (x2 : FArr F S8192x64) (x3 : FArr F S4x64) : FArr F S4x512x8192 :=
  Host.dotGeneral dot_S4x512x8192_S8192x8192_S4x512x8192_2_0_01_1_n_n none (val_main_v35 (F := F) x0 x2 x3) (x1)

theorem lhs_main_v36_0 (i : S4x512x8192.Idx) (q : dot_S4x512x8192_S8192x8192_S4x512x8192_2_0_01_1_n_n.contr.Idx) :
    (dot_S4x512x8192_S8192x8192_S4x512x8192_2_0_01_1_n_n.lhsIdx i q 0).val = (i 0).val := by
  unfold DotDims.lhsIdx
  rw [dif_neg (show ¬(0 : Fin S4x512x8192.rank) ∈ dot_S4x512x8192_S8192x8192_S4x512x8192_2_0_01_1_n_n.lhsBatch by decide), dif_pos (show (0 : Fin S4x512x8192.rank) ∈ dot_S4x512x8192_S8192x8192_S4x512x8192_2_0_01_1_n_n.lhsNonContracting by decide)]
  rfl

theorem lhs_main_v36_1 (i : S4x512x8192.Idx) (q : dot_S4x512x8192_S8192x8192_S4x512x8192_2_0_01_1_n_n.contr.Idx) :
    (dot_S4x512x8192_S8192x8192_S4x512x8192_2_0_01_1_n_n.lhsIdx i q 1).val = (i 1).val := by
  unfold DotDims.lhsIdx
  rw [dif_neg (show ¬(1 : Fin S4x512x8192.rank) ∈ dot_S4x512x8192_S8192x8192_S4x512x8192_2_0_01_1_n_n.lhsBatch by decide), dif_pos (show (1 : Fin S4x512x8192.rank) ∈ dot_S4x512x8192_S8192x8192_S4x512x8192_2_0_01_1_n_n.lhsNonContracting by decide)]
  rfl

theorem lhs_main_v36_2 (i : S4x512x8192.Idx) (q : dot_S4x512x8192_S8192x8192_S4x512x8192_2_0_01_1_n_n.contr.Idx) :
    (dot_S4x512x8192_S8192x8192_S4x512x8192_2_0_01_1_n_n.lhsIdx i q 2).val = (q ⟨0, by decide⟩).val :=
  dot_S4x512x8192_S8192x8192_S4x512x8192_2_0_01_1_n_n.lhsIdx_val_of_single rfl i q

theorem rhs_main_v36_0 (i : S4x512x8192.Idx) (q : dot_S4x512x8192_S8192x8192_S4x512x8192_2_0_01_1_n_n.contr.Idx) :
    (dot_S4x512x8192_S8192x8192_S4x512x8192_2_0_01_1_n_n.rhsIdx i q 0).val = (q ⟨0, by decide⟩).val :=
  dot_S4x512x8192_S8192x8192_S4x512x8192_2_0_01_1_n_n.rhsIdx_val_of_single rfl i q

theorem rhs_main_v36_1 (i : S4x512x8192.Idx) (q : dot_S4x512x8192_S8192x8192_S4x512x8192_2_0_01_1_n_n.contr.Idx) :
    (dot_S4x512x8192_S8192x8192_S4x512x8192_2_0_01_1_n_n.rhsIdx i q 1).val = (i 2).val := by
  unfold DotDims.rhsIdx
  rw [dif_neg (show ¬(1 : Fin S8192x8192.rank) ∈ dot_S4x512x8192_S8192x8192_S4x512x8192_2_0_01_1_n_n.rhsBatch by decide), dif_pos (show (1 : Fin S8192x8192.rank) ∈ dot_S4x512x8192_S8192x8192_S4x512x8192_2_0_01_1_n_n.rhsNonContracting by decide)]
  rfl

abbrev lidx_main_v36 (i : S4x512x8192.Idx) (k : Fin 8192) : S4x512x8192.Idx := fun a => match a with
  | ⟨0, _⟩ => ⟨(i 0).val, (i 0).isLt⟩
  | ⟨1, _⟩ => ⟨(i 1).val, (i 1).isLt⟩
  | ⟨2, _⟩ => ⟨k.val, k.isLt⟩

abbrev ridx_main_v36 (i : S4x512x8192.Idx) (k : Fin 8192) : S8192x8192.Idx := fun a => match a with
  | ⟨0, _⟩ => ⟨k.val, k.isLt⟩
  | ⟨1, _⟩ => ⟨(i 2).val, (i 2).isLt⟩

theorem val_main_v36_apply (x0 : FArr Ideal S512x8192) (x1 : FArr Ideal S8192x8192) (x2 : FArr Ideal S8192x64) (x3 : FArr Ideal S4x64) (i : S4x512x8192.Idx) :
    val_main_v36 (F := Ideal) x0 x1 x2 x3 i = ∑ k : Fin 8192, (val_main_v35 (F := Ideal) x0 x2 x3) (lidx_main_v36 i k) * x1 (ridx_main_v36 i k) := by
  unfold val_main_v36
  generalize val_main_v35 (F := Ideal) x0 x2 x3 = y0
  simp only [Host.dotGeneral]
  rw [Ideal.dotGeneral_apply, ← Equiv.sum_comp (ValueIdx.contrEquiv1 dot_S4x512x8192_S8192x8192_S4x512x8192_2_0_01_1_n_n 8192 rfl rfl).symm]
  refine Finset.sum_congr rfl fun k _ => ?_
  have hk := ValueIdx.contrEquiv1_symm_val dot_S4x512x8192_S8192x8192_S4x512x8192_2_0_01_1_n_n 8192 rfl rfl k
  have el : dot_S4x512x8192_S8192x8192_S4x512x8192_2_0_01_1_n_n.lhsIdx i ((ValueIdx.contrEquiv1 dot_S4x512x8192_S8192x8192_S4x512x8192_2_0_01_1_n_n 8192 rfl rfl).symm k) = lidx_main_v36 i k := funext fun a => Fin.ext (by
    match a with
    | ⟨0, _⟩ => exact lhs_main_v36_0 _ _
    | ⟨1, _⟩ => exact lhs_main_v36_1 _ _
    | ⟨2, _⟩ => exact (lhs_main_v36_2 _ _).trans hk)
  have er : dot_S4x512x8192_S8192x8192_S4x512x8192_2_0_01_1_n_n.rhsIdx i ((ValueIdx.contrEquiv1 dot_S4x512x8192_S8192x8192_S4x512x8192_2_0_01_1_n_n 8192 rfl rfl).symm k) = ridx_main_v36 i k := funext fun a => Fin.ext (by
    match a with
    | ⟨0, _⟩ => exact (rhs_main_v36_0 _ _).trans hk
    | ⟨1, _⟩ => exact rhs_main_v36_1 _ _)
  rw [el, er]

def val_main_v37 (x0 : FArr F S512x8192) (x1 : FArr F S8192x8192) (x2 : FArr F S8192x64) (x3 : FArr F S4x64) : FArr F S4x512x8192 :=
  Host.dotGeneral dot_S4x512x8192_S8192x8192_S4x512x8192_2_0_01_1_n_n none (val_main_v36 (F := F) x0 x1 x2 x3) (x1)

theorem lhs_main_v37_0 (i : S4x512x8192.Idx) (q : dot_S4x512x8192_S8192x8192_S4x512x8192_2_0_01_1_n_n.contr.Idx) :
    (dot_S4x512x8192_S8192x8192_S4x512x8192_2_0_01_1_n_n.lhsIdx i q 0).val = (i 0).val := by
  unfold DotDims.lhsIdx
  rw [dif_neg (show ¬(0 : Fin S4x512x8192.rank) ∈ dot_S4x512x8192_S8192x8192_S4x512x8192_2_0_01_1_n_n.lhsBatch by decide), dif_pos (show (0 : Fin S4x512x8192.rank) ∈ dot_S4x512x8192_S8192x8192_S4x512x8192_2_0_01_1_n_n.lhsNonContracting by decide)]
  rfl

theorem lhs_main_v37_1 (i : S4x512x8192.Idx) (q : dot_S4x512x8192_S8192x8192_S4x512x8192_2_0_01_1_n_n.contr.Idx) :
    (dot_S4x512x8192_S8192x8192_S4x512x8192_2_0_01_1_n_n.lhsIdx i q 1).val = (i 1).val := by
  unfold DotDims.lhsIdx
  rw [dif_neg (show ¬(1 : Fin S4x512x8192.rank) ∈ dot_S4x512x8192_S8192x8192_S4x512x8192_2_0_01_1_n_n.lhsBatch by decide), dif_pos (show (1 : Fin S4x512x8192.rank) ∈ dot_S4x512x8192_S8192x8192_S4x512x8192_2_0_01_1_n_n.lhsNonContracting by decide)]
  rfl

theorem lhs_main_v37_2 (i : S4x512x8192.Idx) (q : dot_S4x512x8192_S8192x8192_S4x512x8192_2_0_01_1_n_n.contr.Idx) :
    (dot_S4x512x8192_S8192x8192_S4x512x8192_2_0_01_1_n_n.lhsIdx i q 2).val = (q ⟨0, by decide⟩).val :=
  dot_S4x512x8192_S8192x8192_S4x512x8192_2_0_01_1_n_n.lhsIdx_val_of_single rfl i q

theorem rhs_main_v37_0 (i : S4x512x8192.Idx) (q : dot_S4x512x8192_S8192x8192_S4x512x8192_2_0_01_1_n_n.contr.Idx) :
    (dot_S4x512x8192_S8192x8192_S4x512x8192_2_0_01_1_n_n.rhsIdx i q 0).val = (q ⟨0, by decide⟩).val :=
  dot_S4x512x8192_S8192x8192_S4x512x8192_2_0_01_1_n_n.rhsIdx_val_of_single rfl i q

theorem rhs_main_v37_1 (i : S4x512x8192.Idx) (q : dot_S4x512x8192_S8192x8192_S4x512x8192_2_0_01_1_n_n.contr.Idx) :
    (dot_S4x512x8192_S8192x8192_S4x512x8192_2_0_01_1_n_n.rhsIdx i q 1).val = (i 2).val := by
  unfold DotDims.rhsIdx
  rw [dif_neg (show ¬(1 : Fin S8192x8192.rank) ∈ dot_S4x512x8192_S8192x8192_S4x512x8192_2_0_01_1_n_n.rhsBatch by decide), dif_pos (show (1 : Fin S8192x8192.rank) ∈ dot_S4x512x8192_S8192x8192_S4x512x8192_2_0_01_1_n_n.rhsNonContracting by decide)]
  rfl

abbrev lidx_main_v37 (i : S4x512x8192.Idx) (k : Fin 8192) : S4x512x8192.Idx := fun a => match a with
  | ⟨0, _⟩ => ⟨(i 0).val, (i 0).isLt⟩
  | ⟨1, _⟩ => ⟨(i 1).val, (i 1).isLt⟩
  | ⟨2, _⟩ => ⟨k.val, k.isLt⟩

abbrev ridx_main_v37 (i : S4x512x8192.Idx) (k : Fin 8192) : S8192x8192.Idx := fun a => match a with
  | ⟨0, _⟩ => ⟨k.val, k.isLt⟩
  | ⟨1, _⟩ => ⟨(i 2).val, (i 2).isLt⟩

theorem val_main_v37_apply (x0 : FArr Ideal S512x8192) (x1 : FArr Ideal S8192x8192) (x2 : FArr Ideal S8192x64) (x3 : FArr Ideal S4x64) (i : S4x512x8192.Idx) :
    val_main_v37 (F := Ideal) x0 x1 x2 x3 i = ∑ k : Fin 8192, (val_main_v36 (F := Ideal) x0 x1 x2 x3) (lidx_main_v37 i k) * x1 (ridx_main_v37 i k) := by
  unfold val_main_v37
  generalize val_main_v36 (F := Ideal) x0 x1 x2 x3 = y0
  simp only [Host.dotGeneral]
  rw [Ideal.dotGeneral_apply, ← Equiv.sum_comp (ValueIdx.contrEquiv1 dot_S4x512x8192_S8192x8192_S4x512x8192_2_0_01_1_n_n 8192 rfl rfl).symm]
  refine Finset.sum_congr rfl fun k _ => ?_
  have hk := ValueIdx.contrEquiv1_symm_val dot_S4x512x8192_S8192x8192_S4x512x8192_2_0_01_1_n_n 8192 rfl rfl k
  have el : dot_S4x512x8192_S8192x8192_S4x512x8192_2_0_01_1_n_n.lhsIdx i ((ValueIdx.contrEquiv1 dot_S4x512x8192_S8192x8192_S4x512x8192_2_0_01_1_n_n 8192 rfl rfl).symm k) = lidx_main_v37 i k := funext fun a => Fin.ext (by
    match a with
    | ⟨0, _⟩ => exact lhs_main_v37_0 _ _
    | ⟨1, _⟩ => exact lhs_main_v37_1 _ _
    | ⟨2, _⟩ => exact (lhs_main_v37_2 _ _).trans hk)
  have er : dot_S4x512x8192_S8192x8192_S4x512x8192_2_0_01_1_n_n.rhsIdx i ((ValueIdx.contrEquiv1 dot_S4x512x8192_S8192x8192_S4x512x8192_2_0_01_1_n_n 8192 rfl rfl).symm k) = ridx_main_v37 i k := funext fun a => Fin.ext (by
    match a with
    | ⟨0, _⟩ => exact (rhs_main_v37_0 _ _).trans hk
    | ⟨1, _⟩ => exact rhs_main_v37_1 _ _)
  rw [el, er]

def val_main_v38 (x0 : FArr F S512x8192) (x1 : FArr F S8192x8192) (x2 : FArr F S8192x64) (x3 : FArr F S4x64) : FArr F S4x512x8192 :=
  addf (val_main_v37 (F := F) x0 x1 x2 x3) (val_main_v35 (F := F) x0 x2 x3)

theorem val_main_v38_apply (x0 : FArr F S512x8192) (x1 : FArr F S8192x8192) (x2 : FArr F S8192x64) (x3 : FArr F S4x64) (i : S4x512x8192.Idx) :
    val_main_v38 (F := F) x0 x1 x2 x3 i = FloatOps.addf (val_main_v37 (F := F) x0 x1 x2 x3 i) (val_main_v35 (F := F) x0 x2 x3 i) := rfl

def val_main_cst_6 : FArr F S_ :=
  constant S_ .f32 0x40000000#32

theorem val_main_cst_6_apply (i : S_.Idx) :
    val_main_cst_6 (F := F) i = FloatOps.ofBits .f32 0x40000000#32 := rfl

def val_main_v39 : FArr F S4x512x8192 :=
  broadcastInDim S4x512x8192 ![] bcast_S_S4x512x8192 (val_main_cst_6 (F := F))

abbrev idx_main_v39 (i : S4x512x8192.Idx) : S_.Idx := fun a => a.elim0

theorem val_main_v39_apply (i : S4x512x8192.Idx) :
    val_main_v39 (F := F) i = val_main_cst_6 (F := F) (idx_main_v39 i) := by
  unfold val_main_v39
  generalize val_main_cst_6 (F := F) = y
  exact broadcastInDim_apply _ bcast_S_S4x512x8192 y i (idx_main_v39 i) (fun a => a.elim0)

def val_main_v40 (x0 : FArr F S512x8192) (x1 : FArr F S8192x8192) (x2 : FArr F S8192x64) (x3 : FArr F S4x64) : FArr F S4x512x8192 :=
  Host.divf (val_main_v38 (F := F) x0 x1 x2 x3) (val_main_v39 (F := F))

theorem val_main_v40_apply (x0 : FArr F S512x8192) (x1 : FArr F S8192x8192) (x2 : FArr F S8192x64) (x3 : FArr F S4x64) (i : S4x512x8192.Idx) :
    val_main_v40 (F := F) x0 x1 x2 x3 i = FloatOps.hostDivf (val_main_v38 (F := F) x0 x1 x2 x3 i) (val_main_v39 (F := F) i) := rfl

def val_main_v41 (x0 : FArr F S512x8192) (x1 : FArr F S8192x8192) (x2 : FArr F S8192x64) (x3 : FArr F S4x64) (x4 : FArr F S128x8192) : FArr F S4x512x128 :=
  Host.dotGeneral dot_S4x512x8192_S128x8192_S4x512x128_2_1_01_0_n_n none (val_main_v40 (F := F) x0 x1 x2 x3) (x4)

theorem lhs_main_v41_0 (i : S4x512x128.Idx) (q : dot_S4x512x8192_S128x8192_S4x512x128_2_1_01_0_n_n.contr.Idx) :
    (dot_S4x512x8192_S128x8192_S4x512x128_2_1_01_0_n_n.lhsIdx i q 0).val = (i 0).val := by
  unfold DotDims.lhsIdx
  rw [dif_neg (show ¬(0 : Fin S4x512x8192.rank) ∈ dot_S4x512x8192_S128x8192_S4x512x128_2_1_01_0_n_n.lhsBatch by decide), dif_pos (show (0 : Fin S4x512x8192.rank) ∈ dot_S4x512x8192_S128x8192_S4x512x128_2_1_01_0_n_n.lhsNonContracting by decide)]
  rfl

theorem lhs_main_v41_1 (i : S4x512x128.Idx) (q : dot_S4x512x8192_S128x8192_S4x512x128_2_1_01_0_n_n.contr.Idx) :
    (dot_S4x512x8192_S128x8192_S4x512x128_2_1_01_0_n_n.lhsIdx i q 1).val = (i 1).val := by
  unfold DotDims.lhsIdx
  rw [dif_neg (show ¬(1 : Fin S4x512x8192.rank) ∈ dot_S4x512x8192_S128x8192_S4x512x128_2_1_01_0_n_n.lhsBatch by decide), dif_pos (show (1 : Fin S4x512x8192.rank) ∈ dot_S4x512x8192_S128x8192_S4x512x128_2_1_01_0_n_n.lhsNonContracting by decide)]
  rfl

theorem lhs_main_v41_2 (i : S4x512x128.Idx) (q : dot_S4x512x8192_S128x8192_S4x512x128_2_1_01_0_n_n.contr.Idx) :
    (dot_S4x512x8192_S128x8192_S4x512x128_2_1_01_0_n_n.lhsIdx i q 2).val = (q ⟨0, by decide⟩).val :=
  dot_S4x512x8192_S128x8192_S4x512x128_2_1_01_0_n_n.lhsIdx_val_of_single rfl i q

theorem rhs_main_v41_0 (i : S4x512x128.Idx) (q : dot_S4x512x8192_S128x8192_S4x512x128_2_1_01_0_n_n.contr.Idx) :
    (dot_S4x512x8192_S128x8192_S4x512x128_2_1_01_0_n_n.rhsIdx i q 0).val = (i 2).val := by
  unfold DotDims.rhsIdx
  rw [dif_neg (show ¬(0 : Fin S128x8192.rank) ∈ dot_S4x512x8192_S128x8192_S4x512x128_2_1_01_0_n_n.rhsBatch by decide), dif_pos (show (0 : Fin S128x8192.rank) ∈ dot_S4x512x8192_S128x8192_S4x512x128_2_1_01_0_n_n.rhsNonContracting by decide)]
  rfl

theorem rhs_main_v41_1 (i : S4x512x128.Idx) (q : dot_S4x512x8192_S128x8192_S4x512x128_2_1_01_0_n_n.contr.Idx) :
    (dot_S4x512x8192_S128x8192_S4x512x128_2_1_01_0_n_n.rhsIdx i q 1).val = (q ⟨0, by decide⟩).val :=
  dot_S4x512x8192_S128x8192_S4x512x128_2_1_01_0_n_n.rhsIdx_val_of_single rfl i q

abbrev lidx_main_v41 (i : S4x512x128.Idx) (k : Fin 8192) : S4x512x8192.Idx := fun a => match a with
  | ⟨0, _⟩ => ⟨(i 0).val, (i 0).isLt⟩
  | ⟨1, _⟩ => ⟨(i 1).val, (i 1).isLt⟩
  | ⟨2, _⟩ => ⟨k.val, k.isLt⟩

abbrev ridx_main_v41 (i : S4x512x128.Idx) (k : Fin 8192) : S128x8192.Idx := fun a => match a with
  | ⟨0, _⟩ => ⟨(i 2).val, (i 2).isLt⟩
  | ⟨1, _⟩ => ⟨k.val, k.isLt⟩

theorem val_main_v41_apply (x0 : FArr Ideal S512x8192) (x1 : FArr Ideal S8192x8192) (x2 : FArr Ideal S8192x64) (x3 : FArr Ideal S4x64) (x4 : FArr Ideal S128x8192) (i : S4x512x128.Idx) :
    val_main_v41 (F := Ideal) x0 x1 x2 x3 x4 i = ∑ k : Fin 8192, (val_main_v40 (F := Ideal) x0 x1 x2 x3) (lidx_main_v41 i k) * x4 (ridx_main_v41 i k) := by
  unfold val_main_v41
  generalize val_main_v40 (F := Ideal) x0 x1 x2 x3 = y0
  simp only [Host.dotGeneral]
  rw [Ideal.dotGeneral_apply, ← Equiv.sum_comp (ValueIdx.contrEquiv1 dot_S4x512x8192_S128x8192_S4x512x128_2_1_01_0_n_n 8192 rfl rfl).symm]
  refine Finset.sum_congr rfl fun k _ => ?_
  have hk := ValueIdx.contrEquiv1_symm_val dot_S4x512x8192_S128x8192_S4x512x128_2_1_01_0_n_n 8192 rfl rfl k
  have el : dot_S4x512x8192_S128x8192_S4x512x128_2_1_01_0_n_n.lhsIdx i ((ValueIdx.contrEquiv1 dot_S4x512x8192_S128x8192_S4x512x128_2_1_01_0_n_n 8192 rfl rfl).symm k) = lidx_main_v41 i k := funext fun a => Fin.ext (by
    match a with
    | ⟨0, _⟩ => exact lhs_main_v41_0 _ _
    | ⟨1, _⟩ => exact lhs_main_v41_1 _ _
    | ⟨2, _⟩ => exact (lhs_main_v41_2 _ _).trans hk)
  have er : dot_S4x512x8192_S128x8192_S4x512x128_2_1_01_0_n_n.rhsIdx i ((ValueIdx.contrEquiv1 dot_S4x512x8192_S128x8192_S4x512x128_2_1_01_0_n_n 8192 rfl rfl).symm k) = ridx_main_v41 i k := funext fun a => Fin.ext (by
    match a with
    | ⟨0, _⟩ => exact rhs_main_v41_0 _ _
    | ⟨1, _⟩ => exact (rhs_main_v41_1 _ _).trans hk)
  rw [el, er]

def val_main_v42 (x5 : FArr F S128) : FArr F S1x1x128 :=
  broadcastInDim S1x1x128 ![2] bcast_S128_S1x1x128_2 (x5)

abbrev idx_main_v42 (i : S1x1x128.Idx) : S128.Idx := fun a => match a with
  | ⟨0, _⟩ => ⟨(i 2).val, (i 2).isLt⟩

theorem val_main_v42_apply (x5 : FArr F S128) (i : S1x1x128.Idx) :
    val_main_v42 (F := F) x5 i = x5 (idx_main_v42 i) := by
  unfold val_main_v42
  exact broadcastInDim_apply _ bcast_S128_S1x1x128_2 x5 i (idx_main_v42 i) (fun a => match a with
    | ⟨0, _⟩ => by show (i 2).val = if (128 : Nat) = 1 then 0 else (i 2).val; rw [if_neg (by decide)])

def val_main_v43 (x5 : FArr F S128) : FArr F S4x512x128 :=
  broadcastInDim S4x512x128 ![0, 1, 2] bcast_S1x1x128_S4x512x128_0_1_2 (val_main_v42 (F := F) x5)

abbrev idx_main_v43 (i : S4x512x128.Idx) : S1x1x128.Idx := fun a => match a with
  | ⟨0, _⟩ => ⟨0, Nat.one_pos⟩
  | ⟨1, _⟩ => ⟨0, Nat.one_pos⟩
  | ⟨2, _⟩ => ⟨(i 2).val, (i 2).isLt⟩

theorem val_main_v43_apply (x5 : FArr F S128) (i : S4x512x128.Idx) :
    val_main_v43 (F := F) x5 i = val_main_v42 (F := F) x5 (idx_main_v43 i) := by
  unfold val_main_v43
  generalize val_main_v42 (F := F) x5 = y
  exact broadcastInDim_apply _ bcast_S1x1x128_S4x512x128_0_1_2 y i (idx_main_v43 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (128 : Nat) = 1 then 0 else (i 2).val; rw [if_neg (by decide)])

def val_main_v44 (x0 : FArr F S512x8192) (x1 : FArr F S8192x8192) (x2 : FArr F S8192x64) (x3 : FArr F S4x64) (x4 : FArr F S128x8192) (x5 : FArr F S128) : FArr F S4x512x128 :=
  addf (val_main_v41 (F := F) x0 x1 x2 x3 x4) (val_main_v43 (F := F) x5)

theorem val_main_v44_apply (x0 : FArr F S512x8192) (x1 : FArr F S8192x8192) (x2 : FArr F S8192x64) (x3 : FArr F S4x64) (x4 : FArr F S128x8192) (x5 : FArr F S128) (i : S4x512x128.Idx) :
    val_main_v44 (F := F) x0 x1 x2 x3 x4 x5 i = FloatOps.addf (val_main_v41 (F := F) x0 x1 x2 x3 x4 i) (val_main_v43 (F := F) x5 i) := rfl

def val_main_v45 (x0 : FArr F S512x8192) (x1 : FArr F S8192x8192) (x2 : FArr F S8192x64) (x3 : FArr F S4x64) (x4 : FArr F S128x8192) (x5 : FArr F S128) : FArr F S4x512x64 :=
  extractStridedSlice S4x512x64 ![0, 0, 0] (val_main_v44 (F := F) x0 x1 x2 x3 x4 x5) slices_S4x512x128_S4x512x64_0_0_0

def val_main_call3_v0 (x0 : FArr F S512x8192) (x1 : FArr F S8192x8192) (x2 : FArr F S8192x64) (x3 : FArr F S4x64) (x4 : FArr F S128x8192) (x5 : FArr F S128) : FArr F S4x512x64 :=
  mulf (val_main_v45 (F := F) x0 x1 x2 x3 x4 x5) (val_main_v45 (F := F) x0 x1 x2 x3 x4 x5)

def val_main_call3_cst : FArr F S_ :=
  constant S_ .f32 0x00000000#32

def val_main_call3_v1 (x0 : FArr F S512x8192) (x1 : FArr F S8192x8192) (x2 : FArr F S8192x64) (x3 : FArr F S4x64) (x4 : FArr F S128x8192) (x5 : FArr F S128) : FArr F S4x512 :=
  Host.reduceAdd (val_main_call3_v0 (F := F) x0 x1 x2 x3 x4 x5) (val_main_call3_cst (F := F)) reducesTo_S4x512x64_S4x512_d2 h_S_

def val_main_call3_v2 (x0 : FArr F S512x8192) (x1 : FArr F S8192x8192) (x2 : FArr F S8192x64) (x3 : FArr F S4x64) (x4 : FArr F S128x8192) (x5 : FArr F S128) : FArr F S4x512x1 :=
  broadcastInDim S4x512x1 ![0, 1] bcast_S4x512_S4x512x1_0_1 (val_main_call3_v1 (F := F) x0 x1 x2 x3 x4 x5)

def val_main_v46 (x0 : FArr F S512x8192) (x1 : FArr F S8192x8192) (x2 : FArr F S8192x64) (x3 : FArr F S4x64) (x4 : FArr F S128x8192) (x5 : FArr F S128) : FArr F S4x512x1 :=
  Host.sqrt (val_main_call3_v2 (F := F) x0 x1 x2 x3 x4 x5)

def val_main_cst_7 : FArr F S_ :=
  constant S_ .f32 0x2B8CBCCC#32

def val_main_v47 : FArr F S4x512x1 :=
  broadcastInDim S4x512x1 ![] bcast_S_S4x512x1 (val_main_cst_7 (F := F))

def val_main_v48 (x0 : FArr F S512x8192) (x1 : FArr F S8192x8192) (x2 : FArr F S8192x64) (x3 : FArr F S4x64) (x4 : FArr F S128x8192) (x5 : FArr F S128) : FArr F S4x512x1 :=
  maximumf (val_main_v46 (F := F) x0 x1 x2 x3 x4 x5) (val_main_v47 (F := F))

def val_main_v49 (x0 : FArr F S512x8192) (x1 : FArr F S8192x8192) (x2 : FArr F S8192x64) (x3 : FArr F S4x64) (x4 : FArr F S128x8192) (x5 : FArr F S128) : FArr F S4x512x64 :=
  broadcastInDim S4x512x64 ![0, 1, 2] bcast_S4x512x1_S4x512x64_0_1_2 (val_main_v48 (F := F) x0 x1 x2 x3 x4 x5)

def val_main_v50 (x0 : FArr F S512x8192) (x1 : FArr F S8192x8192) (x2 : FArr F S8192x64) (x3 : FArr F S4x64) (x4 : FArr F S128x8192) (x5 : FArr F S128) : FArr F S4x512x64 :=
  Host.divf (val_main_v45 (F := F) x0 x1 x2 x3 x4 x5) (val_main_v49 (F := F) x0 x1 x2 x3 x4 x5)

def val_main_v51 (x0 : FArr F S512x8192) (x1 : FArr F S8192x8192) (x2 : FArr F S8192x64) (x3 : FArr F S4x64) (x4 : FArr F S128x8192) (x5 : FArr F S128) : FArr F S4x512x64 :=
  extractStridedSlice S4x512x64 ![0, 0, 64] (val_main_v44 (F := F) x0 x1 x2 x3 x4 x5) slices_S4x512x128_S4x512x64_0_0_64

def val_main_v52 (x0 : FArr F S512x8192) (x1 : FArr F S8192x8192) (x2 : FArr F S8192x64) (x3 : FArr F S4x64) (x4 : FArr F S128x8192) (x5 : FArr F S128) : FArr F S4x512x64 :=
  Host.negf (val_main_v51 (F := F) x0 x1 x2 x3 x4 x5)

def val_main_call4_v0 (x0 : FArr F S512x8192) (x1 : FArr F S8192x8192) (x2 : FArr F S8192x64) (x3 : FArr F S4x64) (x4 : FArr F S128x8192) (x5 : FArr F S128) : FArr F S4x512x64 :=
  mulf (val_main_v50 (F := F) x0 x1 x2 x3 x4 x5) (val_main_v50 (F := F) x0 x1 x2 x3 x4 x5)

def val_main_call4_cst : FArr F S_ :=
  constant S_ .f32 0x00000000#32

def val_main_call4_v1 (x0 : FArr F S512x8192) (x1 : FArr F S8192x8192) (x2 : FArr F S8192x64) (x3 : FArr F S4x64) (x4 : FArr F S128x8192) (x5 : FArr F S128) : FArr F S4x512 :=
  Host.reduceAdd (val_main_call4_v0 (F := F) x0 x1 x2 x3 x4 x5) (val_main_call4_cst (F := F)) reducesTo_S4x512x64_S4x512_d2 h_S_

def val_main_call4_v2 (x0 : FArr F S512x8192) (x1 : FArr F S8192x8192) (x2 : FArr F S8192x64) (x3 : FArr F S4x64) (x4 : FArr F S128x8192) (x5 : FArr F S128) : FArr F S4x512x1 :=
  broadcastInDim S4x512x1 ![0, 1] bcast_S4x512_S4x512x1_0_1 (val_main_call4_v1 (F := F) x0 x1 x2 x3 x4 x5)

def val_main_v53 (x0 : FArr F S512x8192) (x1 : FArr F S8192x8192) (x2 : FArr F S8192x64) (x3 : FArr F S4x64) (x4 : FArr F S128x8192) (x5 : FArr F S128) : FArr F S4x512x1 :=
  Host.sqrt (val_main_call4_v2 (F := F) x0 x1 x2 x3 x4 x5)

def val_main_cst_8 : FArr F S_ :=
  constant S_ .f32 0x2B8CBCCC#32

def val_main_v54 : FArr F S4x512x1 :=
  broadcastInDim S4x512x1 ![] bcast_S_S4x512x1 (val_main_cst_8 (F := F))

def val_main_v55 (x0 : FArr F S512x8192) (x1 : FArr F S8192x8192) (x2 : FArr F S8192x64) (x3 : FArr F S4x64) (x4 : FArr F S128x8192) (x5 : FArr F S128) : FArr F S4x512x1 :=
  maximumf (val_main_v53 (F := F) x0 x1 x2 x3 x4 x5) (val_main_v54 (F := F))

def val_main_v56 (x0 : FArr F S512x8192) (x1 : FArr F S8192x8192) (x2 : FArr F S8192x64) (x3 : FArr F S4x64) (x4 : FArr F S128x8192) (x5 : FArr F S128) : FArr F S4x512x64 :=
  broadcastInDim S4x512x64 ![0, 1, 2] bcast_S4x512x1_S4x512x64_0_1_2 (val_main_v55 (F := F) x0 x1 x2 x3 x4 x5)

def val_main_v57 (x0 : FArr F S512x8192) (x1 : FArr F S8192x8192) (x2 : FArr F S8192x64) (x3 : FArr F S4x64) (x4 : FArr F S128x8192) (x5 : FArr F S128) : FArr F S4x512x64 :=
  Host.divf (val_main_v50 (F := F) x0 x1 x2 x3 x4 x5) (val_main_v56 (F := F) x0 x1 x2 x3 x4 x5)

def val_main_v58 (x0 : FArr F S512x8192) (x1 : FArr F S8192x8192) (x2 : FArr F S8192x64) (x3 : FArr F S4x64) (x4 : FArr F S128x8192) (x5 : FArr F S128) : FArr F S4x512x8192 :=
  Host.dotGeneral dot_S4x512x64_S8192x64_S4x512x8192_2_1_01_0_n_n none (val_main_v57 (F := F) x0 x1 x2 x3 x4 x5) (val_main_v9 (F := F) x2)

theorem lhs_main_v58_0 (i : S4x512x8192.Idx) (q : dot_S4x512x64_S8192x64_S4x512x8192_2_1_01_0_n_n.contr.Idx) :
    (dot_S4x512x64_S8192x64_S4x512x8192_2_1_01_0_n_n.lhsIdx i q 0).val = (i 0).val := by
  unfold DotDims.lhsIdx
  rw [dif_neg (show ¬(0 : Fin S4x512x64.rank) ∈ dot_S4x512x64_S8192x64_S4x512x8192_2_1_01_0_n_n.lhsBatch by decide), dif_pos (show (0 : Fin S4x512x64.rank) ∈ dot_S4x512x64_S8192x64_S4x512x8192_2_1_01_0_n_n.lhsNonContracting by decide)]
  rfl

theorem lhs_main_v58_1 (i : S4x512x8192.Idx) (q : dot_S4x512x64_S8192x64_S4x512x8192_2_1_01_0_n_n.contr.Idx) :
    (dot_S4x512x64_S8192x64_S4x512x8192_2_1_01_0_n_n.lhsIdx i q 1).val = (i 1).val := by
  unfold DotDims.lhsIdx
  rw [dif_neg (show ¬(1 : Fin S4x512x64.rank) ∈ dot_S4x512x64_S8192x64_S4x512x8192_2_1_01_0_n_n.lhsBatch by decide), dif_pos (show (1 : Fin S4x512x64.rank) ∈ dot_S4x512x64_S8192x64_S4x512x8192_2_1_01_0_n_n.lhsNonContracting by decide)]
  rfl

theorem lhs_main_v58_2 (i : S4x512x8192.Idx) (q : dot_S4x512x64_S8192x64_S4x512x8192_2_1_01_0_n_n.contr.Idx) :
    (dot_S4x512x64_S8192x64_S4x512x8192_2_1_01_0_n_n.lhsIdx i q 2).val = (q ⟨0, by decide⟩).val :=
  dot_S4x512x64_S8192x64_S4x512x8192_2_1_01_0_n_n.lhsIdx_val_of_single rfl i q

theorem rhs_main_v58_0 (i : S4x512x8192.Idx) (q : dot_S4x512x64_S8192x64_S4x512x8192_2_1_01_0_n_n.contr.Idx) :
    (dot_S4x512x64_S8192x64_S4x512x8192_2_1_01_0_n_n.rhsIdx i q 0).val = (i 2).val := by
  unfold DotDims.rhsIdx
  rw [dif_neg (show ¬(0 : Fin S8192x64.rank) ∈ dot_S4x512x64_S8192x64_S4x512x8192_2_1_01_0_n_n.rhsBatch by decide), dif_pos (show (0 : Fin S8192x64.rank) ∈ dot_S4x512x64_S8192x64_S4x512x8192_2_1_01_0_n_n.rhsNonContracting by decide)]
  rfl

theorem rhs_main_v58_1 (i : S4x512x8192.Idx) (q : dot_S4x512x64_S8192x64_S4x512x8192_2_1_01_0_n_n.contr.Idx) :
    (dot_S4x512x64_S8192x64_S4x512x8192_2_1_01_0_n_n.rhsIdx i q 1).val = (q ⟨0, by decide⟩).val :=
  dot_S4x512x64_S8192x64_S4x512x8192_2_1_01_0_n_n.rhsIdx_val_of_single rfl i q

abbrev lidx_main_v58 (i : S4x512x8192.Idx) (k : Fin 64) : S4x512x64.Idx := fun a => match a with
  | ⟨0, _⟩ => ⟨(i 0).val, (i 0).isLt⟩
  | ⟨1, _⟩ => ⟨(i 1).val, (i 1).isLt⟩
  | ⟨2, _⟩ => ⟨k.val, k.isLt⟩

abbrev ridx_main_v58 (i : S4x512x8192.Idx) (k : Fin 64) : S8192x64.Idx := fun a => match a with
  | ⟨0, _⟩ => ⟨(i 2).val, (i 2).isLt⟩
  | ⟨1, _⟩ => ⟨k.val, k.isLt⟩

theorem val_main_v58_apply (x0 : FArr Ideal S512x8192) (x1 : FArr Ideal S8192x8192) (x2 : FArr Ideal S8192x64) (x3 : FArr Ideal S4x64) (x4 : FArr Ideal S128x8192) (x5 : FArr Ideal S128) (i : S4x512x8192.Idx) :
    val_main_v58 (F := Ideal) x0 x1 x2 x3 x4 x5 i = ∑ k : Fin 64, (val_main_v57 (F := Ideal) x0 x1 x2 x3 x4 x5) (lidx_main_v58 i k) * (val_main_v9 (F := Ideal) x2) (ridx_main_v58 i k) := by
  unfold val_main_v58
  generalize val_main_v57 (F := Ideal) x0 x1 x2 x3 x4 x5 = y0
  generalize val_main_v9 (F := Ideal) x2 = y1
  simp only [Host.dotGeneral]
  rw [Ideal.dotGeneral_apply, ← Equiv.sum_comp (ValueIdx.contrEquiv1 dot_S4x512x64_S8192x64_S4x512x8192_2_1_01_0_n_n 64 rfl rfl).symm]
  refine Finset.sum_congr rfl fun k _ => ?_
  have hk := ValueIdx.contrEquiv1_symm_val dot_S4x512x64_S8192x64_S4x512x8192_2_1_01_0_n_n 64 rfl rfl k
  have el : dot_S4x512x64_S8192x64_S4x512x8192_2_1_01_0_n_n.lhsIdx i ((ValueIdx.contrEquiv1 dot_S4x512x64_S8192x64_S4x512x8192_2_1_01_0_n_n 64 rfl rfl).symm k) = lidx_main_v58 i k := funext fun a => Fin.ext (by
    match a with
    | ⟨0, _⟩ => exact lhs_main_v58_0 _ _
    | ⟨1, _⟩ => exact lhs_main_v58_1 _ _
    | ⟨2, _⟩ => exact (lhs_main_v58_2 _ _).trans hk)
  have er : dot_S4x512x64_S8192x64_S4x512x8192_2_1_01_0_n_n.rhsIdx i ((ValueIdx.contrEquiv1 dot_S4x512x64_S8192x64_S4x512x8192_2_1_01_0_n_n 64 rfl rfl).symm k) = ridx_main_v58 i k := funext fun a => Fin.ext (by
    match a with
    | ⟨0, _⟩ => exact rhs_main_v58_0 _ _
    | ⟨1, _⟩ => exact (rhs_main_v58_1 _ _).trans hk)
  rw [el, er]

def val_main_cst_9 : FArr F S_ :=
  constant S_ .f32 0x3F800000#32

theorem val_main_cst_9_apply (i : S_.Idx) :
    val_main_cst_9 (F := F) i = FloatOps.ofBits .f32 0x3F800000#32 := rfl

def val_main_v59 : FArr F S4x512x8192 :=
  broadcastInDim S4x512x8192 ![] bcast_S_S4x512x8192 (val_main_cst_9 (F := F))

abbrev idx_main_v59 (i : S4x512x8192.Idx) : S_.Idx := fun a => a.elim0

theorem val_main_v59_apply (i : S4x512x8192.Idx) :
    val_main_v59 (F := F) i = val_main_cst_9 (F := F) (idx_main_v59 i) := by
  unfold val_main_v59
  generalize val_main_cst_9 (F := F) = y
  exact broadcastInDim_apply _ bcast_S_S4x512x8192 y i (idx_main_v59 i) (fun a => a.elim0)

def val_main_v60 (x0 : FArr F S512x8192) (x1 : FArr F S8192x8192) (x2 : FArr F S8192x64) (x3 : FArr F S4x64) (x4 : FArr F S128x8192) (x5 : FArr F S128) : FArr F S4x512x8192 :=
  Host.divf (val_main_v58 (F := F) x0 x1 x2 x3 x4 x5) (val_main_v59 (F := F))

theorem val_main_v60_apply (x0 : FArr F S512x8192) (x1 : FArr F S8192x8192) (x2 : FArr F S8192x64) (x3 : FArr F S4x64) (x4 : FArr F S128x8192) (x5 : FArr F S128) (i : S4x512x8192.Idx) :
    val_main_v60 (F := F) x0 x1 x2 x3 x4 x5 i = FloatOps.hostDivf (val_main_v58 (F := F) x0 x1 x2 x3 x4 x5 i) (val_main_v59 (F := F) i) := rfl

def val_main_v61 (x0 : FArr F S512x8192) (x1 : FArr F S8192x8192) (x2 : FArr F S8192x64) (x3 : FArr F S4x64) (x4 : FArr F S128x8192) (x5 : FArr F S128) : FArr F S4x512x8192 :=
  Host.exp (val_main_v60 (F := F) x0 x1 x2 x3 x4 x5)

theorem val_main_v61_apply (x0 : FArr F S512x8192) (x1 : FArr F S8192x8192) (x2 : FArr F S8192x64) (x3 : FArr F S4x64) (x4 : FArr F S128x8192) (x5 : FArr F S128) (i : S4x512x8192.Idx) :
    val_main_v61 (F := F) x0 x1 x2 x3 x4 x5 i = FloatOps.hostUnary .exp (val_main_v60 (F := F) x0 x1 x2 x3 x4 x5 i) := rfl

def val_main_v62 (x2 : FArr F S8192x64) (x3 : FArr F S4x64) : FArr F S4x8192 :=
  transpose S4x8192 [1, 0] (val_main_v24 (F := F) x2 x3) transposes_S8192x4_S4x8192_1_0

def val_main_v63 (x2 : FArr F S8192x64) (x3 : FArr F S4x64) : FArr F S4x1x8192 :=
  broadcastInDim S4x1x8192 ![0, 2] bcast_S4x8192_S4x1x8192_0_2 (val_main_v62 (F := F) x2 x3)

abbrev idx_main_v63 (i : S4x1x8192.Idx) : S4x8192.Idx := fun a => match a with
  | ⟨0, _⟩ => ⟨(i 0).val, (i 0).isLt⟩
  | ⟨1, _⟩ => ⟨(i 2).val, (i 2).isLt⟩

theorem val_main_v63_apply (x2 : FArr F S8192x64) (x3 : FArr F S4x64) (i : S4x1x8192.Idx) :
    val_main_v63 (F := F) x2 x3 i = val_main_v62 (F := F) x2 x3 (idx_main_v63 i) := by
  unfold val_main_v63
  generalize val_main_v62 (F := F) x2 x3 = y
  exact broadcastInDim_apply _ bcast_S4x8192_S4x1x8192_0_2 y i (idx_main_v63 i) (fun a => match a with
    | ⟨0, _⟩ => by show (i 0).val = if (4 : Nat) = 1 then 0 else (i 0).val; rw [if_neg (by decide)]
    | ⟨1, _⟩ => by show (i 2).val = if (8192 : Nat) = 1 then 0 else (i 2).val; rw [if_neg (by decide)])

def val_main_v64 (x2 : FArr F S8192x64) (x3 : FArr F S4x64) : FArr F S4x512x8192 :=
  broadcastInDim S4x512x8192 ![0, 1, 2] bcast_S4x1x8192_S4x512x8192_0_1_2 (val_main_v63 (F := F) x2 x3)

abbrev idx_main_v64 (i : S4x512x8192.Idx) : S4x1x8192.Idx := fun a => match a with
  | ⟨0, _⟩ => ⟨(i 0).val, (i 0).isLt⟩
  | ⟨1, _⟩ => ⟨0, Nat.one_pos⟩
  | ⟨2, _⟩ => ⟨(i 2).val, (i 2).isLt⟩

theorem val_main_v64_apply (x2 : FArr F S8192x64) (x3 : FArr F S4x64) (i : S4x512x8192.Idx) :
    val_main_v64 (F := F) x2 x3 i = val_main_v63 (F := F) x2 x3 (idx_main_v64 i) := by
  unfold val_main_v64
  generalize val_main_v63 (F := F) x2 x3 = y
  exact broadcastInDim_apply _ bcast_S4x1x8192_S4x512x8192_0_1_2 y i (idx_main_v64 i) (fun a => match a with
    | ⟨0, _⟩ => by show (i 0).val = if (4 : Nat) = 1 then 0 else (i 0).val; rw [if_neg (by decide)]
    | ⟨1, _⟩ => by show 0 = if (1 : Nat) = 1 then 0 else (i 1).val; rw [if_pos rfl]
    | ⟨2, _⟩ => by show (i 2).val = if (8192 : Nat) = 1 then 0 else (i 2).val; rw [if_neg (by decide)])

def val_main_v65 (x0 : FArr F S512x8192) (x1 : FArr F S8192x8192) (x2 : FArr F S8192x64) (x3 : FArr F S4x64) (x4 : FArr F S128x8192) (x5 : FArr F S128) : FArr F S4x512x8192 :=
  mulf (val_main_v61 (F := F) x0 x1 x2 x3 x4 x5) (val_main_v64 (F := F) x2 x3)

theorem val_main_v65_apply (x0 : FArr F S512x8192) (x1 : FArr F S8192x8192) (x2 : FArr F S8192x64) (x3 : FArr F S4x64) (x4 : FArr F S128x8192) (x5 : FArr F S128) (i : S4x512x8192.Idx) :
    val_main_v65 (F := F) x0 x1 x2 x3 x4 x5 i = FloatOps.mulf (val_main_v61 (F := F) x0 x1 x2 x3 x4 x5 i) (val_main_v64 (F := F) x2 x3 i) := rfl

def val_main_cst_10 : FArr F S_ :=
  constant S_ .f32 0x00000000#32

theorem val_main_cst_10_apply (i : S_.Idx) :
    val_main_cst_10 (F := F) i = FloatOps.ofBits .f32 0x00000000#32 := rfl

def val_main_v66 (x0 : FArr F S512x8192) (x1 : FArr F S8192x8192) (x2 : FArr F S8192x64) (x3 : FArr F S4x64) (x4 : FArr F S128x8192) (x5 : FArr F S128) : FArr F S512x8192 :=
  Host.reduceAdd (val_main_v65 (F := F) x0 x1 x2 x3 x4 x5) (val_main_cst_10 (F := F)) reducesTo_S4x512x8192_S512x8192_d0 h_S_

abbrev idx_main_v66 (i : S512x8192.Idx) (k : Fin 4) : S4x512x8192.Idx := fun a => match a with
  | ⟨0, _⟩ => ⟨k.val, k.isLt⟩
  | ⟨1, _⟩ => ⟨(i 0).val, (i 0).isLt⟩
  | ⟨2, _⟩ => ⟨(i 1).val, (i 1).isLt⟩

theorem val_main_v66_apply (x0 : FArr Ideal S512x8192) (x1 : FArr Ideal S8192x8192) (x2 : FArr Ideal S8192x64) (x3 : FArr Ideal S4x64) (x4 : FArr Ideal S128x8192) (x5 : FArr Ideal S128) (i : S512x8192.Idx) :
    val_main_v66 (F := Ideal) x0 x1 x2 x3 x4 x5 i = (val_main_cst_10 (F := Ideal)) (Shape.Idx.first h_S_) + ∑ k : Fin 4, (val_main_v65 (F := Ideal) x0 x1 x2 x3 x4 x5) (idx_main_v66 i k) := by
  unfold val_main_v66
  generalize val_main_v65 (F := Ideal) x0 x1 x2 x3 x4 x5 = y0
  simp only [Host.reduceAdd, Ideal.hostReduceAdd_def]
  rw [Ideal.hostReduceAdd_single reducesTo_S4x512x8192_S512x8192_d0 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v67 (x0 : FArr F S512x8192) (x1 : FArr F S8192x8192) (x2 : FArr F S8192x64) (x3 : FArr F S4x64) (x4 : FArr F S128x8192) (x5 : FArr F S128) : FArr F S512x8192 :=
  Host.log (val_main_v66 (F := F) x0 x1 x2 x3 x4 x5)

theorem val_main_v67_apply (x0 : FArr F S512x8192) (x1 : FArr F S8192x8192) (x2 : FArr F S8192x64) (x3 : FArr F S4x64) (x4 : FArr F S128x8192) (x5 : FArr F S128) (i : S512x8192.Idx) :
    val_main_v67 (F := F) x0 x1 x2 x3 x4 x5 i = FloatOps.hostUnary .log (val_main_v66 (F := F) x0 x1 x2 x3 x4 x5 i) := rfl

end Cert.ReferenceIdeal.Read

end
-- ==== Proof.RefRun.lean ====
import proofs.«408051_j35570919145766_3_alg».proof.Proof.RefRead

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops : List (HloOp τ sig (Elt F)) :=
  [ TRef.binary (TRef.of (T := ⟨S4x64, .f32⟩) main_arg3) (TRef.of (T := ⟨S4x64, .f32⟩) main_arg3) (TRef.of (T := ⟨S4x64, .f32⟩) main_call0_v0) mulf,
    TRef.nullary (TRef.of (T := ⟨S_, .f32⟩) main_call0_cst) (constant S_ .f32 0x00000000#32),
    TRef.binary (TRef.of (T := ⟨S4x64, .f32⟩) main_call0_v0) (TRef.of (T := ⟨S_, .f32⟩) main_call0_cst) (TRef.of (T := ⟨S4, .f32⟩) main_call0_v1) (fun x v => Host.reduceAdd x v reducesTo_S4x64_S4_d1 h_S_),
    TRef.unary (TRef.of (T := ⟨S4, .f32⟩) main_call0_v1) (TRef.of (T := ⟨S4x1, .f32⟩) main_call0_v2) (broadcastInDim S4x1 ![0] bcast_S4_S4x1_0),
    TRef.unary (TRef.of (T := ⟨S4x1, .f32⟩) main_call0_v2) (TRef.of (T := ⟨S4x1, .f32⟩) main_v0) Host.sqrt,
    nullary main_cst (constant S_ .f32 0x2B8CBCCC#32),
    unary main_cst main_v1 (broadcastInDim S4x1 ![] bcast_S_S4x1 : FArr F S_ → FArr F S4x1),
    binary main_v0 main_v1 main_v2 (maximumf : FArr F S4x1 → FArr F S4x1 → FArr F S4x1),
    unary main_v2 main_v3 (broadcastInDim S4x64 ![0, 1] bcast_S4x1_S4x64_0_1 : FArr F S4x1 → FArr F S4x64),
    binary main_arg3 main_v3 main_v4 (Host.divf : FArr F S4x64 → FArr F S4x64 → FArr F S4x64),
    TRef.binary (TRef.of (T := ⟨S8192x64, .f32⟩) main_arg2) (TRef.of (T := ⟨S8192x64, .f32⟩) main_arg2) (TRef.of (T := ⟨S8192x64, .f32⟩) main_call1_v0) mulf,
    TRef.nullary (TRef.of (T := ⟨S_, .f32⟩) main_call1_cst) (constant S_ .f32 0x00000000#32),
    TRef.binary (TRef.of (T := ⟨S8192x64, .f32⟩) main_call1_v0) (TRef.of (T := ⟨S_, .f32⟩) main_call1_cst) (TRef.of (T := ⟨S8192, .f32⟩) main_call1_v1) (fun x v => Host.reduceAdd x v reducesTo_S8192x64_S8192_d1 h_S_),
    TRef.unary (TRef.of (T := ⟨S8192, .f32⟩) main_call1_v1) (TRef.of (T := ⟨S8192x1, .f32⟩) main_call1_v2) (broadcastInDim S8192x1 ![0] bcast_S8192_S8192x1_0),
    TRef.unary (TRef.of (T := ⟨S8192x1, .f32⟩) main_call1_v2) (TRef.of (T := ⟨S8192x1, .f32⟩) main_v5) Host.sqrt,
    nullary main_cst_0 (constant S_ .f32 0x2B8CBCCC#32),
    unary main_cst_0 main_v6 (broadcastInDim S8192x1 ![] bcast_S_S8192x1 : FArr F S_ → FArr F S8192x1),
    binary main_v5 main_v6 main_v7 (maximumf : FArr F S8192x1 → FArr F S8192x1 → FArr F S8192x1),
    unary main_v7 main_v8 (broadcastInDim S8192x64 ![0, 1] bcast_S8192x1_S8192x64_0_1 : FArr F S8192x1 → FArr F S8192x64),
    binary main_arg2 main_v8 main_v9 (Host.divf : FArr F S8192x64 → FArr F S8192x64 → FArr F S8192x64),
    unary main_v4 main_v10 ((transpose S64x4 [1, 0] · transposes_S4x64_S64x4_1_0) : FArr F S4x64 → FArr F S64x4),
    binary main_v9 main_v10 main_v11 ((fun l r => Host.dotGeneral dot_S8192x64_S64x4_S8192x4_1_0_0_1_n_n none l r) : FArr F S8192x64 → FArr F S64x4 → FArr F S8192x4),
    nullary main_cst_1 (constant S_ .f32 0x3F800000#32),
    unary main_cst_1 main_v12 (broadcastInDim S8192x4 ![] bcast_S_S8192x4 : FArr F S_ → FArr F S8192x4),
    binary main_v11 main_v12 main_v13 (Host.divf : FArr F S8192x4 → FArr F S8192x4 → FArr F S8192x4),
    nullary main_cst_2 (constant S_ .f32 0xFF800000#32),
    binary main_v13 main_cst_2 main_v14 ((fun x v => Host.reduce FloatOps.maximumf x v reducesTo_S8192x4_S8192_d1 h_S_) : FArr F S8192x4 → FArr F S_ → FArr F S8192),
    nullary main_cst_3 (constant S_ .f32 0xFF800000#32),
    unary main_cst_3 main_v15 (broadcastInDim S8192 ![] bcast_S_S8192 : FArr F S_ → FArr F S8192),
    binary main_v15 main_v14 main_v16 (maximumf : FArr F S8192 → FArr F S8192 → FArr F S8192),
    unary main_v16 main_v17 (broadcastInDim S8192x1 ![0] bcast_S8192_S8192x1_0 : FArr F S8192 → FArr F S8192x1),
    unary main_v17 main_v18 (broadcastInDim S8192x4 ![0, 1] bcast_S8192x1_S8192x4_0_1 : FArr F S8192x1 → FArr F S8192x4),
    binary main_v13 main_v18 main_v19 (subf : FArr F S8192x4 → FArr F S8192x4 → FArr F S8192x4),
    unary main_v19 main_v20 (Host.exp : FArr F S8192x4 → FArr F S8192x4),
    nullary main_cst_4 (constant S_ .f32 0x00000000#32),
    binary main_v20 main_cst_4 main_v21 ((fun x v => Host.reduceAdd x v reducesTo_S8192x4_S8192_d1 h_S_) : FArr F S8192x4 → FArr F S_ → FArr F S8192),
    unary main_v21 main_v22 (broadcastInDim S8192x1 ![0] bcast_S8192_S8192x1_0 : FArr F S8192 → FArr F S8192x1),
    unary main_v22 main_v23 (broadcastInDim S8192x4 ![0, 1] bcast_S8192x1_S8192x4_0_1 : FArr F S8192x1 → FArr F S8192x4),
    binary main_v20 main_v23 main_v24 (Host.divf : FArr F S8192x4 → FArr F S8192x4 → FArr F S8192x4),
    unary main_arg0 main_v25 (broadcastInDim S1x512x8192 ![1, 2] bcast_S512x8192_S1x512x8192_1_2 : FArr F S512x8192 → FArr F S1x512x8192),
    unary main_v24 main_v26 ((transpose S4x8192 [1, 0] · transposes_S8192x4_S4x8192_1_0) : FArr F S8192x4 → FArr F S4x8192),
    unary main_v26 main_v27 (broadcastInDim S4x1x8192 ![0, 2] bcast_S4x8192_S4x1x8192_0_2 : FArr F S4x8192 → FArr F S4x1x8192),
    unary main_v25 main_v28 (broadcastInDim S4x512x8192 ![0, 1, 2] bcast_S1x512x8192_S4x512x8192_0_1_2 : FArr F S1x512x8192 → FArr F S4x512x8192),
    unary main_v27 main_v29 (broadcastInDim S4x512x8192 ![0, 1, 2] bcast_S4x1x8192_S4x512x8192_0_1_2 : FArr F S4x1x8192 → FArr F S4x512x8192),
    binary main_v28 main_v29 main_v30 (mulf : FArr F S4x512x8192 → FArr F S4x512x8192 → FArr F S4x512x8192),
    TRef.binary (TRef.of (T := ⟨S4x512x8192, .f32⟩) main_v30) (TRef.of (T := ⟨S4x512x8192, .f32⟩) main_v30) (TRef.of (T := ⟨S4x512x8192, .f32⟩) main_call2_v0) mulf,
    TRef.nullary (TRef.of (T := ⟨S_, .f32⟩) main_call2_cst) (constant S_ .f32 0x00000000#32),
    TRef.binary (TRef.of (T := ⟨S4x512x8192, .f32⟩) main_call2_v0) (TRef.of (T := ⟨S_, .f32⟩) main_call2_cst) (TRef.of (T := ⟨S4x512, .f32⟩) main_call2_v1) (fun x v => Host.reduceAdd x v reducesTo_S4x512x8192_S4x512_d2 h_S_),
    TRef.unary (TRef.of (T := ⟨S4x512, .f32⟩) main_call2_v1) (TRef.of (T := ⟨S4x512x1, .f32⟩) main_call2_v2) (broadcastInDim S4x512x1 ![0, 1] bcast_S4x512_S4x512x1_0_1),
    TRef.unary (TRef.of (T := ⟨S4x512x1, .f32⟩) main_call2_v2) (TRef.of (T := ⟨S4x512x1, .f32⟩) main_v31) Host.sqrt,
    nullary main_cst_5 (constant S_ .f32 0x2B8CBCCC#32),
    unary main_cst_5 main_v32 (broadcastInDim S4x512x1 ![] bcast_S_S4x512x1 : FArr F S_ → FArr F S4x512x1),
    binary main_v31 main_v32 main_v33 (maximumf : FArr F S4x512x1 → FArr F S4x512x1 → FArr F S4x512x1),
    unary main_v33 main_v34 (broadcastInDim S4x512x8192 ![0, 1, 2] bcast_S4x512x1_S4x512x8192_0_1_2 : FArr F S4x512x1 → FArr F S4x512x8192),
    binary main_v30 main_v34 main_v35 (Host.divf : FArr F S4x512x8192 → FArr F S4x512x8192 → FArr F S4x512x8192),
    binary main_v35 main_arg1 main_v36 ((fun l r => Host.dotGeneral dot_S4x512x8192_S8192x8192_S4x512x8192_2_0_01_1_n_n none l r) : FArr F S4x512x8192 → FArr F S8192x8192 → FArr F S4x512x8192),
    binary main_v36 main_arg1 main_v37 ((fun l r => Host.dotGeneral dot_S4x512x8192_S8192x8192_S4x512x8192_2_0_01_1_n_n none l r) : FArr F S4x512x8192 → FArr F S8192x8192 → FArr F S4x512x8192),
    binary main_v37 main_v35 main_v38 (addf : FArr F S4x512x8192 → FArr F S4x512x8192 → FArr F S4x512x8192),
    nullary main_cst_6 (constant S_ .f32 0x40000000#32),
    unary main_cst_6 main_v39 (broadcastInDim S4x512x8192 ![] bcast_S_S4x512x8192 : FArr F S_ → FArr F S4x512x8192),
    binary main_v38 main_v39 main_v40 (Host.divf : FArr F S4x512x8192 → FArr F S4x512x8192 → FArr F S4x512x8192),
    binary main_v40 main_arg4 main_v41 ((fun l r => Host.dotGeneral dot_S4x512x8192_S128x8192_S4x512x128_2_1_01_0_n_n none l r) : FArr F S4x512x8192 → FArr F S128x8192 → FArr F S4x512x128),
    unary main_arg5 main_v42 (broadcastInDim S1x1x128 ![2] bcast_S128_S1x1x128_2 : FArr F S128 → FArr F S1x1x128),
    unary main_v42 main_v43 (broadcastInDim S4x512x128 ![0, 1, 2] bcast_S1x1x128_S4x512x128_0_1_2 : FArr F S1x1x128 → FArr F S4x512x128),
    binary main_v41 main_v43 main_v44 (addf : FArr F S4x512x128 → FArr F S4x512x128 → FArr F S4x512x128),
    unary main_v44 main_v45 ((extractStridedSlice S4x512x64 ![0, 0, 0] · slices_S4x512x128_S4x512x64_0_0_0) : FArr F S4x512x128 → FArr F S4x512x64),
    TRef.binary (TRef.of (T := ⟨S4x512x64, .f32⟩) main_v45) (TRef.of (T := ⟨S4x512x64, .f32⟩) main_v45) (TRef.of (T := ⟨S4x512x64, .f32⟩) main_call3_v0) mulf,
    TRef.nullary (TRef.of (T := ⟨S_, .f32⟩) main_call3_cst) (constant S_ .f32 0x00000000#32),
    TRef.binary (TRef.of (T := ⟨S4x512x64, .f32⟩) main_call3_v0) (TRef.of (T := ⟨S_, .f32⟩) main_call3_cst) (TRef.of (T := ⟨S4x512, .f32⟩) main_call3_v1) (fun x v => Host.reduceAdd x v reducesTo_S4x512x64_S4x512_d2 h_S_),
    TRef.unary (TRef.of (T := ⟨S4x512, .f32⟩) main_call3_v1) (TRef.of (T := ⟨S4x512x1, .f32⟩) main_call3_v2) (broadcastInDim S4x512x1 ![0, 1] bcast_S4x512_S4x512x1_0_1),
    TRef.unary (TRef.of (T := ⟨S4x512x1, .f32⟩) main_call3_v2) (TRef.of (T := ⟨S4x512x1, .f32⟩) main_v46) Host.sqrt,
    nullary main_cst_7 (constant S_ .f32 0x2B8CBCCC#32),
    unary main_cst_7 main_v47 (broadcastInDim S4x512x1 ![] bcast_S_S4x512x1 : FArr F S_ → FArr F S4x512x1),
    binary main_v46 main_v47 main_v48 (maximumf : FArr F S4x512x1 → FArr F S4x512x1 → FArr F S4x512x1),
    unary main_v48 main_v49 (broadcastInDim S4x512x64 ![0, 1, 2] bcast_S4x512x1_S4x512x64_0_1_2 : FArr F S4x512x1 → FArr F S4x512x64),
    binary main_v45 main_v49 main_v50 (Host.divf : FArr F S4x512x64 → FArr F S4x512x64 → FArr F S4x512x64),
    unary main_v44 main_v51 ((extractStridedSlice S4x512x64 ![0, 0, 64] · slices_S4x512x128_S4x512x64_0_0_64) : FArr F S4x512x128 → FArr F S4x512x64),
    unary main_v51 main_v52 (Host.negf : FArr F S4x512x64 → FArr F S4x512x64),
    TRef.binary (TRef.of (T := ⟨S4x512x64, .f32⟩) main_v50) (TRef.of (T := ⟨S4x512x64, .f32⟩) main_v50) (TRef.of (T := ⟨S4x512x64, .f32⟩) main_call4_v0) mulf,
    TRef.nullary (TRef.of (T := ⟨S_, .f32⟩) main_call4_cst) (constant S_ .f32 0x00000000#32),
    TRef.binary (TRef.of (T := ⟨S4x512x64, .f32⟩) main_call4_v0) (TRef.of (T := ⟨S_, .f32⟩) main_call4_cst) (TRef.of (T := ⟨S4x512, .f32⟩) main_call4_v1) (fun x v => Host.reduceAdd x v reducesTo_S4x512x64_S4x512_d2 h_S_),
    TRef.unary (TRef.of (T := ⟨S4x512, .f32⟩) main_call4_v1) (TRef.of (T := ⟨S4x512x1, .f32⟩) main_call4_v2) (broadcastInDim S4x512x1 ![0, 1] bcast_S4x512_S4x512x1_0_1),
    TRef.unary (TRef.of (T := ⟨S4x512x1, .f32⟩) main_call4_v2) (TRef.of (T := ⟨S4x512x1, .f32⟩) main_v53) Host.sqrt,
    nullary main_cst_8 (constant S_ .f32 0x2B8CBCCC#32),
    unary main_cst_8 main_v54 (broadcastInDim S4x512x1 ![] bcast_S_S4x512x1 : FArr F S_ → FArr F S4x512x1),
    binary main_v53 main_v54 main_v55 (maximumf : FArr F S4x512x1 → FArr F S4x512x1 → FArr F S4x512x1),
    unary main_v55 main_v56 (broadcastInDim S4x512x64 ![0, 1, 2] bcast_S4x512x1_S4x512x64_0_1_2 : FArr F S4x512x1 → FArr F S4x512x64),
    binary main_v50 main_v56 main_v57 (Host.divf : FArr F S4x512x64 → FArr F S4x512x64 → FArr F S4x512x64),
    binary main_v57 main_v9 main_v58 ((fun l r => Host.dotGeneral dot_S4x512x64_S8192x64_S4x512x8192_2_1_01_0_n_n none l r) : FArr F S4x512x64 → FArr F S8192x64 → FArr F S4x512x8192),
    nullary main_cst_9 (constant S_ .f32 0x3F800000#32),
    unary main_cst_9 main_v59 (broadcastInDim S4x512x8192 ![] bcast_S_S4x512x8192 : FArr F S_ → FArr F S4x512x8192),
    binary main_v58 main_v59 main_v60 (Host.divf : FArr F S4x512x8192 → FArr F S4x512x8192 → FArr F S4x512x8192),
    unary main_v60 main_v61 (Host.exp : FArr F S4x512x8192 → FArr F S4x512x8192),
    unary main_v24 main_v62 ((transpose S4x8192 [1, 0] · transposes_S8192x4_S4x8192_1_0) : FArr F S8192x4 → FArr F S4x8192),
    unary main_v62 main_v63 (broadcastInDim S4x1x8192 ![0, 2] bcast_S4x8192_S4x1x8192_0_2 : FArr F S4x8192 → FArr F S4x1x8192),
    unary main_v63 main_v64 (broadcastInDim S4x512x8192 ![0, 1, 2] bcast_S4x1x8192_S4x512x8192_0_1_2 : FArr F S4x1x8192 → FArr F S4x512x8192),
    binary main_v61 main_v64 main_v65 (mulf : FArr F S4x512x8192 → FArr F S4x512x8192 → FArr F S4x512x8192),
    nullary main_cst_10 (constant S_ .f32 0x00000000#32),
    binary main_v65 main_cst_10 main_v66 ((fun x v => Host.reduceAdd x v reducesTo_S4x512x8192_S512x8192_d0 h_S_) : FArr F S4x512x8192 → FArr F S_ → FArr F S512x8192),
    unary main_v66 main_v67 (Host.log : FArr F S512x8192 → FArr F S512x8192) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., unary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub .., binary_bufs_sub .., nullary_bufs_sub .., unary_bufs_sub .., binary_bufs_sub .., binary_bufs_sub .., unary_bufs_sub .., unary_bufs_sub .., binary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., unary_bufs_sub .., unary_bufs_sub .., unary_bufs_sub .., unary_bufs_sub .., binary_bufs_sub .., nullary_bufs_sub .., binary_bufs_sub .., unary_bufs_sub ..⟩

set_option maxRecDepth 8192 in
set_option maxHeartbeats 4000000 in
/-- The program is a line of host operations: it ends with each result at its stage function of the arguments, which it leaves. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v50) = val_main_v50 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v52) = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v67).trans (by after_results_simp <;> rfl),
      (h c main_v50).trans (by after_results_simp <;> rfl),
      (h c main_v52).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Value

end
-- ==== Proof.Join.lean ====
import proofs.«408051_j35570919145766_3_alg».proof.Defs
import proofs.«408051_j35570919145766_3_alg».proof.Proof.Gen.KernelIdeal.Regions
import proofs.«408051_j35570919145766_3_alg».proof.Proof.Gen.Pre_finite_inputs
import proofs.«408051_j35570919145766_3_alg».proof.Proof.RefRun

noncomputable section

namespace Cert.Proof.Join

open Idealize.ShloMosaic Idealize.ShloMosaic.TcCoe Idealize.SL.Sem
open Cert.ReferenceIdeal.Read (val_main_v67 val_main_v50 val_main_v52)

abbrev out0 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v47) :=
  val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
abbrev out1 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v36) :=
  val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
abbrev out2 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v38) :=
  val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))

/-- Two runs whose results are the same functions of arguments that agree end with equal results and unchanged arguments. -/
theorem algebraic_of
    (outsOf : ((ℓ : Loc Cert.KernelIdeal.nD Cert.KernelIdeal.τ Cert.KernelIdeal.sig) → Buf (Elt Ideal) ℓ) → Cert.KernelIdeal.Gen.Outs (F := Ideal))
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD, ∀ b ∈ Pipeline.ucRefs Cert.KernelIdeal.τ Cert.KernelIdeal.sig,
          r.2.mem ((c : Thread Cert.KernelIdeal.nD Cert.KernelIdeal.τ).1, b) = Cert.KernelIdeal.Gen.V14 m (outsOf m) c b))
    (hres : ∀ (m : (ℓ : Loc Cert.KernelIdeal.nD Cert.KernelIdeal.τ Cert.KernelIdeal.sig) → Buf (Elt Ideal) ℓ) (c : Dev Cert.KernelIdeal.nD),
      Cert.KernelIdeal.Gen.V14 m (outsOf m) c Cert.KernelIdeal.main_v47 = out0 m c
        ∧ Cert.KernelIdeal.Gen.V14 m (outsOf m) c Cert.KernelIdeal.main_v36 = out1 m c
        ∧ Cert.KernelIdeal.Gen.V14 m (outsOf m) c Cert.KernelIdeal.main_v38 = out2 m c) :
    Cert.algebraic_KernelIdeal_ReferenceIdeal := by
  intro m ρ m' ρ' _ hagree
  refine ⟨out0 m, out1 m, out2 m, ?_, ?_⟩
  ·
    refine (θ_run Cert.KernelIdeal.defs _ _).mono (fun r h c => ?_) (hrun m ρ)
    exact ⟨(h c _ (Finset.mem_filter.mpr ⟨StableHlo.devRef_mem_tcRefs Cert.KernelIdeal.main_v47, by decide⟩)).trans (hres m c).1,
      (h c _ (Finset.mem_filter.mpr ⟨StableHlo.devRef_mem_tcRefs Cert.KernelIdeal.main_v36, by decide⟩)).trans (hres m c).2.1,
      (h c _ (Finset.mem_filter.mpr ⟨StableHlo.devRef_mem_tcRefs Cert.KernelIdeal.main_v38, by decide⟩)).trans (hres m c).2.2,
      (h c _ (Finset.mem_filter.mpr ⟨StableHlo.devRef_mem_tcRefs Cert.KernelIdeal.main_arg0, by decide⟩)).trans (Cert.KernelIdeal.Gen.V14_main_arg0 m (outsOf m) c),
      (h c _ (Finset.mem_filter.mpr ⟨StableHlo.devRef_mem_tcRefs Cert.KernelIdeal.main_arg1, by decide⟩)).trans (Cert.KernelIdeal.Gen.V14_main_arg1 m (outsOf m) c),
      (h c _ (Finset.mem_filter.mpr ⟨StableHlo.devRef_mem_tcRefs Cert.KernelIdeal.main_arg2, by decide⟩)).trans (Cert.KernelIdeal.Gen.V14_main_arg2 m (outsOf m) c),
      (h c _ (Finset.mem_filter.mpr ⟨StableHlo.devRef_mem_tcRefs Cert.KernelIdeal.main_arg3, by decide⟩)).trans (Cert.KernelIdeal.Gen.V14_main_arg3 m (outsOf m) c),
      (h c _ (Finset.mem_filter.mpr ⟨StableHlo.devRef_mem_tcRefs Cert.KernelIdeal.main_arg4, by decide⟩)).trans (Cert.KernelIdeal.Gen.V14_main_arg4 m (outsOf m) c),
      (h c _ (Finset.mem_filter.mpr ⟨StableHlo.devRef_mem_tcRefs Cert.KernelIdeal.main_arg5, by decide⟩)).trans (Cert.KernelIdeal.Gen.V14_main_arg5 m (outsOf m) c)⟩
  ·
    refine (θ_run Cert.ReferenceIdeal.defs _ _).mono (fun r h c => ?_) (Cert.ReferenceIdeal.Value.run (F := Ideal) m' ρ')
    obtain ⟨e0, e1, e2, e3, e4, e5⟩ := hagree c
    refine ⟨(h c).1.trans ?_, (h c).2.1.trans ?_, (h c).2.2.1.trans ?_, (h c).2.2.2⟩
    · rw [e0, e1, e2, e3, e4, e5]
    · rw [e0, e1, e2, e3, e4, e5]
    · rw [e0, e1, e2, e3, e4, e5]

end Cert.Proof.Join

end
-- ==== Proof.Spec.lean ====
import Idealize.ShloMosaic.PureOps.Ideal
import Mathlib.Data.EReal.Basic
import Mathlib.Algebra.BigOperators.Fin

noncomputable section

namespace Cert.Spec

open Idealize.ShloMosaic

def row (k : Fin 4) (b : Fin 512) : Fin 2048 := ⟨k.val * 512 + b.val, by omega⟩

def epsSq : EReal := ((5316911940649 / 5316911983139663491615228241121378304 : ℝ) : EReal)

def eps : EReal := ((2305843 / 2305843009213693952 : ℝ) : EReal)

def half : EReal := ((1 / 2 : ℝ) : EReal)

def masked (rating : Fin 512 → Fin 8192 → EReal) (c : Fin 4 → Fin 8192 → EReal) (k : Fin 4) (b : Fin 512) (n : Fin 8192) : EReal :=
  rating b n * c k n

def sumSq (rating : Fin 512 → Fin 8192 → EReal) (c : Fin 4 → Fin 8192 → EReal) (k : Fin 4) (b : Fin 512) : EReal :=
  ∑ j : Fin 8192, masked rating c k b j * masked rating c k b j

def unitRow (rating : Fin 512 → Fin 8192 → EReal) (c : Fin 4 → Fin 8192 → EReal) (k : Fin 4) (b : Fin 512) (n : Fin 8192) : EReal :=
  masked rating c k b n * Ideal.rsqrt (max (sumSq rating c k b) epsSq)

def hop (X : Fin 4 → Fin 512 → Fin 8192 → EReal) (A : Fin 8192 → Fin 8192 → EReal) (k : Fin 4) (b : Fin 512) (n : Fin 8192) : EReal :=
  ∑ j : Fin 8192, X k b j * A j n

def encode (T X : Fin 4 → Fin 512 → Fin 8192 → EReal) (W : Fin 128 → Fin 8192 → EReal) (bias : Fin 128 → EReal)
    (k : Fin 4) (b : Fin 512) (o : Fin 128) : EReal :=
  (∑ j : Fin 8192, ((T k b j + X k b j) * half) * W o j) + bias o

def logits (Z : Fin 4 → Fin 512 → Fin 64 → EReal) (items : Fin 8192 → Fin 64 → EReal) (c : Fin 4 → Fin 8192 → EReal)
    (b : Fin 512) (n : Fin 8192) : EReal :=
  Ideal.log (∑ k : Fin 4, Ideal.exp (∑ d : Fin 64, Z k b d * items n d) * c k n)

theorem mul_self_nonneg' (x : EReal) : 0 ≤ x * x := by
  induction x using EReal.rec with
  | bot => rw [EReal.bot_mul_bot]; exact le_top
  | top => rw [EReal.top_mul_top]; exact le_top
  | coe r => rw [← EReal.coe_mul]; exact EReal.coe_nonneg.2 (mul_self_nonneg r)

private theorem coe_max' (a b : ℝ) : max (a : EReal) (b : EReal) = ((max a b : ℝ) : EReal) :=
  (EReal.coe_strictMono.monotone.map_max).symm

/-- Scaling by the reciprocal root of the clamped squared length is dividing by the clamped length: the clamp's square is exact. -/
theorem rsqrt_clamp (x s : EReal) (hs : 0 ≤ s) :
    x * Ideal.rsqrt (max s epsSq) = Ideal.div x (max (Ideal.sqrt s) eps) := by
  induction s using EReal.rec with
  | bot => exact absurd hs (by simp)
  | top =>
    have h1 : max (⊤ : EReal) epsSq = ⊤ := max_eq_left le_top
    have h2 : max (Ideal.sqrt ⊤) eps = ⊤ := by rw [Ideal.sqrt_top]; exact max_eq_left le_top
    rw [h1, h2, Ideal.rsqrt_top, mul_zero, Ideal.div, if_neg EReal.top_ne_zero, EReal.inv_top, mul_zero]
  | coe r =>
    have hr : 0 ≤ r := EReal.coe_nonneg.1 hs
    have he : (0 : ℝ) < 2305843 / 2305843009213693952 := by norm_num
    have he2 : (5316911940649 / 5316911983139663491615228241121378304 : ℝ)
        = (2305843 / 2305843009213693952) ^ 2 := by norm_num
    have hy : 0 < max r (5316911940649 / 5316911983139663491615228241121378304 : ℝ) :=
      lt_max_of_lt_right (by norm_num)
    have hsqrt : Real.sqrt (max r (5316911940649 / 5316911983139663491615228241121378304))
        = max (Real.sqrt r) (2305843 / 2305843009213693952) := by
      rw [Real.sqrt_monotone.map_max, he2, Real.sqrt_sq he.le]
    have hm : max (Real.sqrt r) (2305843 / 2305843009213693952 : ℝ) ≠ 0 :=
      (lt_max_of_lt_right he).ne'
    show x * Ideal.rsqrt (max (r : EReal) ((5316911940649 / 5316911983139663491615228241121378304 : ℝ) : EReal))
      = Ideal.div x (max (Ideal.sqrt (r : EReal)) ((2305843 / 2305843009213693952 : ℝ) : EReal))
    rw [coe_max', Ideal.rsqrt_coe, if_neg (not_lt.2 hy.le), if_neg hy.ne', Ideal.sqrt_coe, if_neg (not_lt.2 hr),
      coe_max', Ideal.div_coe hm, hsqrt, one_div]

theorem div_two (x : EReal) : Ideal.div x ((2 : ℝ) : EReal) = x * half :=
  Ideal.div_coe two_ne_zero x

theorem div_one' (x : EReal) : Ideal.div x ((1 : ℝ) : EReal) = x := by
  rw [Ideal.div_coe one_ne_zero, div_one, EReal.coe_one, mul_one]

/-- A sum over q·p terms is the sum over q blocks of p. -/
theorem sum_blocks (q p : ℕ) (f : Fin (q * p) → EReal) :
    ∑ j : Fin (q * p), f j = ∑ i : Fin q, ∑ l : Fin p, f ⟨i.val * p + l.val, by
      calc i.val * p + l.val < i.val * p + p := by omega
        _ = (i.val + 1) * p := by ring
        _ ≤ q * p := Nat.mul_le_mul_right p (by omega)⟩ := by
  rw [← finProdFinEquiv.sum_comp, Fintype.sum_prod_type]
  refine Finset.sum_congr rfl fun i _ => Finset.sum_congr rfl fun l _ => ?_
  congr 1
  apply Fin.ext
  simp only [finProdFinEquiv_apply_val]
  ring

end Cert.Spec

end
-- ==== Proof.Value0.lean ====
import proofs.«408051_j35570919145766_3_alg».proof.Proof.Region0
import proofs.«408051_j35570919145766_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

namespace UnitRows

theorem eps_sq_eq : Named.named (F := Ideal) Cert.KernelIdeal.κ "eps_sq" (φ := .f32) 0x179ABE15#32 = Cert.Spec.epsSq :=
  IdealRules.named_const.ideal_named_scalar _ _ _ _ rfl

theorem lift_row (h : S128x8192.Reduces [1] S128) (p : Fin 128) (j : Fin (S128x8192.size 1)) :
    h.lift (ix1 p) j = ix2 p (j : Fin 8192) := by
  funext c; apply Fin.ext
  show h.liftVal (ix1 p) j.val c = _
  unfold Shape.Reduces.liftVal
  match c with
  | ⟨0, _⟩ => rfl
  | ⟨1, _⟩ => rfl

theorem rsqrt_apply {s : Shape} {φ : FTy} (a : FVec Ideal s φ) (i : s.Idx) : rsqrt a i = Ideal.rsqrt (a i) := rfl

theorem col_cast_apply {α : Type} (x : S128.Idx → α) (h : S128.ShapeCasts S128x1) (p : Fin 128) (u : Fin 1) :
    shapeCast S128x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem col_bcast_apply {α : Type} (v : S128x1.Idx → α) (h : S128x1.Broadcasts S128x8192) (p : Fin 128) (q : Fin 8192) :
    broadcastTo S128x8192 v h (ix2 p q) = v (ix2 p (0 : Fin 1)) := by
  refine broadcastTo_apply v h (ix2 p q) (ix2 p (0 : Fin 1)) fun ax => ?_
  match ax with
  | ⟨0, _⟩ => rfl
  | ⟨1, _⟩ => rfl

theorem row_sum_apply (src : FVec Ideal S128x8192 .f32) (h : S128x8192.Reduces [1] S128) (hφ : FKind.Formats .f32)
    (hacc : (0x00000000#32 : BitVec 32) = 0x00000000#32) (p : Fin 128) :
    multiReduction (F := Ideal) .add [1] S128 src 0x00000000#32 h hφ hacc (ix1 p) = ∑ j : Fin 8192, src (ix2 p j) := by
  refine (Ideal.multiReduction_add_single src 0x00000000#32 h hφ hacc (ix1 p)).trans ?_
  exact Finset.sum_congr rfl fun j _ => congrArg src (lift_row h p j)

theorem masked_apply (x0 : FVec Ideal S128x8192 .f32) (xr : FVec Ideal S1x8192 .f32)
    (h1 : S1x8192.ShapeCasts S8192) (h2 : S8192.ShapeCasts S1x8192) (h3 : S1x8192.Broadcasts S128x8192) (p : Fin 128) (q : Fin 8192) :
    (mulf (F := Ideal) x0 (broadcastTo S128x8192 (shapeCast S1x8192 (shapeCast S8192 xr h1) h2) h3) : FVec Ideal S128x8192 .f32) (ix2 p q)
      = x0 (ix2 p q) * xr (ix2 (0 : Fin 1) q) := by
  rw [mulf_apply, broadcastTo_1b_ab_apply, shapeCast_a_1a_apply, shapeCast_1a_a_apply]

theorem pay0_apply (x0 : Vec Ideal S128x8192 .f32) (xr : Vec Ideal S1x8192 .f32) (p : Fin 128) (q : Fin 8192) :
    k0_pay1 (F := Ideal) x0 xr (ix2 p q)
      = (x0 (ix2 p q) * xr (ix2 (0 : Fin 1) q))
        * Ideal.rsqrt (max (∑ j : Fin 8192, (x0 (ix2 p j) * xr (ix2 (0 : Fin 1) j)) * (x0 (ix2 p j) * xr (ix2 (0 : Fin 1) j))) Cert.Spec.epsSq) := by
  unfold k0_pay1
  rw [truncf_apply, mulf_apply, masked_apply, col_bcast_apply, rsqrt_apply, maximumf_apply, col_cast_apply, broadcast_apply,
    eps_sq_eq, row_sum_apply]
  simp only [mulf_apply, broadcastTo_1b_ab_apply, shapeCast_a_1a_apply, shapeCast_1a_a_apply]

theorem block_entry (R : Fin 512 → Fin 8192 → EReal) (C : Fin 4 → Fin 8192 → EReal)
    (x0 : Vec Ideal S128x8192 .f32) (xr : Vec Ideal S1x8192 .f32) (k : Fin 4) (b : Fin 512) (p : Fin 128) (q : Fin 8192)
    (h0 : ∀ j : Fin 8192, x0 (ix2 p j) = R b j) (h1 : ∀ j : Fin 8192, xr (ix2 (0 : Fin 1) j) = C k j) :
    k0_pay1 (F := Ideal) x0 xr (ix2 p q) = Cert.Spec.unitRow R C k b q := by
  rw [pay0_apply]
  simp only [h0, h1]
  rfl

section AtEntry

variable (V : (c : Dev nD) → (b : Ref sig .tc) → Buf (Elt Ideal) ((c : Thread nD τ).loc b))

theorem hz0 : (![0, 0] : Fin 2 → Nat) = fun _ => 0 := funext fun a => by fin_cases a <;> rfl

theorem lt16 (t : Fin cfg0.N) : t.val < 16 := by
  have h := t.isLt; have e : cfg0.N = 16 := N_0; omega

theorem point_facts : ∀ t : Fin cfg0.N,
    win0_0.index t (0 : Fin 2) = t.val / 4 ∧ win0_0.index t (1 : Fin 2) = 0
    ∧ win0_1.index t (0 : Fin 2) = 0 ∧ win0_1.index t (1 : Fin 2) = 0
    ∧ win0_2.index t (0 : Fin 2) = (t.val % 4) * 4 + t.val / 4 ∧ win0_2.index t (1 : Fin 2) = 0
    ∧ k0_off1 (grid0.coords t) (0 : Fin 2) = t.val % 4 ∧ k0_off1 (grid0.coords t) (1 : Fin 2) = 0 :=
  (by decide +kernel : ∀ t : Fin grid0.N, _)

abbrev ratingOf (c : Dev nD) : Fin 512 → Fin 8192 → EReal := fun b n => V c main_arg0 (ix2 b n)
abbrev maskOf (c : Dev nD) : Fin 4 → Fin 8192 → EReal := fun k n => V c main_v25 (ix2 k n)

theorem rating_entry (c : Dev nD) (t : Fin cfg0.N) (p : Fin 128) (b : Fin 512) (hb : b.val = t.val / 4 * 128 + p.val) (j : Fin 8192) :
    iblk0 V c 0 t (ix2 p j) = ratingOf V c b j := by
  obtain ⟨e0, e1, e2, e3, e4, e5, e6, e7⟩ := point_facts t
  show V c main_arg0 (((cfg0.win 0).blk t).view.emb (ix2 p j)) = V c main_arg0 (ix2 b j)
  congr 1
  funext a; apply Fin.ext
  match a with
  | ⟨0, _⟩ => show win0_0.index t (0 : Fin 2) * 128 + 1 * p.val = b.val; omega
  | ⟨1, _⟩ => show win0_0.index t (1 : Fin 2) * 8192 + 1 * j.val = j.val; omega

theorem mask_entry (c : Dev nD) (t : Fin cfg0.N) (k : Fin 4) (hk : k.val = t.val % 4) (j : Fin 8192) :
    View.ld (iblk0 V c 1 t) (rRow0 (grid0.coords t)) (ix2 (0 : Fin 1) j) = maskOf V c k j := by
  obtain ⟨e0, e1, e2, e3, e4, e5, e6, e7⟩ := point_facts t
  show V c main_v25 (((cfg0.win 1).blk t).view.emb ((rRow0 (grid0.coords t)).idx (ix2 (0 : Fin 1) j))) = V c main_v25 (ix2 k j)
  congr 1
  funext a; apply Fin.ext
  match a with
  | ⟨0, _⟩ => show win0_1.index t (0 : Fin 2) * 4 + 1 * (k0_off1 (grid0.coords t) (0 : Fin 2) + 1 * (0 : Fin 1).val) = k.val; omega
  | ⟨1, _⟩ => show win0_1.index t (1 : Fin 2) * 8192 + 1 * (k0_off1 (grid0.coords t) (1 : Fin 2) + 1 * j.val) = j.val; omega

def protoOf (r : Fin 2048) : Fin 4 := ⟨r.val / 512, by have := r.isLt; omega⟩
def batchOf (r : Fin 2048) : Fin 512 := ⟨r.val % 512, by omega⟩

theorem protoOf_row (k : Fin 4) (b : Fin 512) : protoOf (Cert.Spec.row k b) = k :=
  Fin.ext (by show (k.val * 512 + b.val) / 512 = k.val; have := b.isLt; omega)
theorem batchOf_row (k : Fin 4) (b : Fin 512) : batchOf (Cert.Spec.row k b) = b :=
  Fin.ext (by show (k.val * 512 + b.val) % 512 = b.val; have := b.isLt; omega)

def unitRows (c : Dev nD) : S2048x8192.Idx → Elt Ideal .bf16 := fun i =>
  Cert.Spec.unitRow (ratingOf V c) (maskOf V c) (protoOf (i 0)) (batchOf (i 0)) (i 1)

theorem flushed_eq0 (c : Dev nD) (t : Fin cfg0.N) :
    (dat0 (F := Ideal) V c).flushed 2 t = ((cfg0.win 2).blk t).view.read (Elt Ideal) (unitRows V c) := by
  show (cfg0.win 2).cut (grid0.coords t) ((dat0 (F := Ideal) V c).after 2 t) = _
  rw [after0_2]
  unfold out0_2
  rw [View.canon_unit_zero hz0]
  simp only [View.ld_unit_zero (S := S128x8192) hz0]
  obtain ⟨e0, e1, e2, e3, e4, e5, e6, e7⟩ := point_facts t
  have ht := lt16 t
  funext j
  obtain ⟨p, q, rfl⟩ : ∃ (p : Fin 128) (q : Fin 8192), j = ix2 p q := ⟨j 0, j 1, eq_ix2 j⟩
  have hp := p.isLt
  show k0_pay1 (F := Ideal) (iblk0 V c 0 t) (View.ld (iblk0 V c 1 t) (rRow0 (grid0.coords t))) (ix2 p q)
    = unitRows V c (((cfg0.win 2).blk t).view.emb (ix2 p q))
  refine (block_entry (ratingOf V c) (maskOf V c) (iblk0 V c 0 t) (View.ld (iblk0 V c 1 t) (rRow0 (grid0.coords t)))
    ⟨t.val % 4, by omega⟩ ⟨t.val / 4 * 128 + p.val, by omega⟩ p q
    (fun j => rating_entry V c t p _ rfl j) (fun j => mask_entry V c t _ rfl j)).trans ?_
  unfold unitRows
  congr 1
  · apply Fin.ext
    show t.val % 4 = (win0_2.index t (0 : Fin 2) * 128 + 1 * p.val) / 512
    omega
  · apply Fin.ext
    show t.val / 4 * 128 + p.val = (win0_2.index t (0 : Fin 2) * 128 + 1 * p.val) % 512
    omega
  · apply Fin.ext
    show q.val = win0_2.index t (1 : Fin 2) * 8192 + 1 * q.val
    omega

theorem mem_out_blk (t : Fin cfg0.N) (i : S2048x8192.Idx) :
    i ∈ ((cfg0.win 2).blk t).view.set ↔ ∀ a : Fin 2, win0_2.index t a * S128x8192.size a ≤ (i a).val ∧ (i a).val < win0_2.index t a * S128x8192.size a + S128x8192.size a := by
  show i ∈ ((View.whole main_v26).slice (win0_2.rect t)).set ↔ _
  rw [View.set_slice_whole, Rect.mem_set_unit]
  exact Iff.rfl

theorem cover0 (i : S2048x8192.Idx) : ∃ t : Fin cfg0.N, (cfg0.win 2).flush t = true ∧ i ∈ ((cfg0.win 2).blk t).view.set := by
  have hi0 : (i 0).val < 2048 := idx2_lt0 i
  have hi1 : (i 1).val < 8192 := idx2_lt1 i
  have hN : cfg0.N = 16 := N_0
  let t : Fin cfg0.N := ⟨(i 0).val % 512 / 128 * 4 + (i 0).val / 512, by omega⟩
  have htv : t.val = (i 0).val % 512 / 128 * 4 + (i 0).val / 512 := rfl
  obtain ⟨e0, e1, e2, e3, e4, e5, e6, e7⟩ := point_facts t
  refine ⟨t, flush0_2 t, ?_⟩
  rw [mem_out_blk]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 8192 ≤ (i 1).val ∧ (i 1).val < win0_2.index t (1 : Fin 2) * 8192 + 8192
    omega

end AtEntry

end UnitRows

open UnitRows

/-- Row k·512 + b of the output is batch row b masked by prototype k and scaled to unit length. -/
theorem final0 (V : (c : Dev nD) → (b : Ref sig .tc) → Buf (Elt Ideal) ((c : Thread nD τ).loc b)) (c : Dev nD) (k : Fin 4) (b : Fin 512) (n : Fin 8192) :
    (dat0 (F := Ideal) V c).arrAt 2 cfg0.N (ValueIdx.ix2 (Cert.Spec.row k b) n)
      = Cert.Spec.unitRow (fun b n => V c main_arg0 (ValueIdx.ix2 b n)) (fun k n => V c main_v25 (ValueIdx.ix2 k n)) k b n := by
  rw [(dat0 (F := Ideal) V c).arrAt_eq_of_cover 2 (unitRows V c) (fun t _ => flushed_eq0 V c t) cover0]
  show Cert.Spec.unitRow (ratingOf V c) (maskOf V c) (protoOf (Cert.Spec.row k b)) (batchOf (Cert.Spec.row k b)) n = _
  rw [protoOf_row, batchOf_row]

end Cert.KernelIdeal.HandValue

end
-- ==== Proof.Value1.lean ====
import proofs.«408051_j35570919145766_3_alg».proof.Proof.Region1
import proofs.«408051_j35570919145766_3_alg».proof.Proof.Spec
import Idealize.ShloMosaic.Lib.ValueIdx
import Idealize.ShloMosaic.Lib.Pipeline.Value
import Idealize.ShloMosaic.Lib.StackMember
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem idx_facts1 : ∀ t : Fin cfg1.N,
    win1_0.index t (0 : Fin 2) = 0 ∧ win1_0.index t (1 : Fin 2) = 0
    ∧ win1_1.index t (0 : Fin 2) = t.val % 32 ∧ win1_1.index t (1 : Fin 2) = t.val / 32
    ∧ win1_2.index t (0 : Fin 2) = 0 ∧ win1_2.index t (1 : Fin 2) = t.val / 32
    ∧ k1_off1 (grid1.coords t) (0 : Fin 2) = 0 ∧ k1_off1 (grid1.coords t) (1 : Fin 2) = t.val % 32 * 256 :=
  (by decide +kernel : ∀ t : Fin grid1.N, _)

def ocol1 (t : Fin cfg1.N) (m : Fin 512) : Fin 8192 := ⟨t.val / 32 * 512 + m.val, by
  have h : t.val < 512 := lt_of_lt_of_eq t.isLt N_1
  have := m.isLt; omega⟩

def kcol1 (t : Fin cfg1.N) (l : Fin 256) : Fin 8192 := ⟨t.val % 32 * 256 + l.val, by
  have := l.isLt; omega⟩

theorem iblk1_0_apply (c : Dev nD) (t : Fin cfg1.N) (r : Fin 2048) (j : Fin 8192) :
    (iblk1 V c 0 t : Vec Ideal S2048x8192 .bf16) (ix2 r j) = V c main_v26 (ix2 r j) := by
  obtain ⟨e0, e1, -⟩ := idx_facts1 t
  unfold iblk1
  rw [View.read_apply]
  show V c main_v26 _ = V c main_v26 _
  congr 1
  funext a; apply Fin.ext
  match a with
  | ⟨0, _⟩ => show win1_0.index t (0 : Fin 2) * 2048 + 1 * r.val = r.val; rw [e0]; omega
  | ⟨1, _⟩ => show win1_0.index t (1 : Fin 2) * 8192 + 1 * j.val = j.val; rw [e1]; omega

theorem iblk1_1_apply (c : Dev nD) (t : Fin cfg1.N) (l : Fin 256) (m : Fin 512) :
    (iblk1 V c 1 t : Vec Ideal S256x512 .f32) (ix2 l m) = V c main_arg1 (ix2 (kcol1 t l) (ocol1 t m)) := by
  obtain ⟨-, -, e0, e1, -⟩ := idx_facts1 t
  unfold iblk1
  rw [View.read_apply]
  show V c main_arg1 _ = V c main_arg1 _
  congr 1
  funext a; apply Fin.ext
  match a with
  | ⟨0, _⟩ => show win1_1.index t (0 : Fin 2) * 256 + 1 * l.val = t.val % 32 * 256 + l.val; rw [e0]; omega
  | ⟨1, _⟩ => show win1_1.index t (1 : Fin 2) * 512 + 1 * m.val = t.val / 32 * 512 + m.val; rw [e1]; omega

theorem mm1_apply (A : FVec Ideal S2048x256 .bf16) (B : FVec Ideal S256x512 .bf16) (r : Fin 2048) (m : Fin 512) :
    matmul dot_S2048x256_S256x512_S2048x512_1_0_0_1_n_n none A B (constant S2048x512 .f32 0x00000000#32) (ix2 r m)
      = ∑ l : Fin 256, A (ix2 r l) * B (ix2 l m) := by
  show matmul (DotDims.plain 2048 256 512) none A B (constant ⟨2, ![2048, 512]⟩ .f32 0x00000000#32) (ix2 r m) = _
  rw [matmul_zero_eq_dotGeneral, StackMember.dotGeneral_plain_apply]

theorem cleared1_apply (r : Fin 2048) (m : Fin 512) : k1_pay1 (F := Ideal) (ix2 r m) = 0 := by
  unfold k1_pay1
  simp only [shapeCast_self]
  show Ideal.ofBits .f32 0x00000000#32 = 0
  exact Ideal.ofBits_zero_f32

theorem step1_apply (t : Fin cfg1.N) (x0 : Vec Ideal S2048x8192 .bf16) (x1 : Vec Ideal S256x512 .f32) (a : Vec Ideal S2048x512 .f32)
    (r : Fin 2048) (m : Fin 512) :
    step1 (F := Ideal) (grid1.coords t) x0 x1 a (ix2 r m) = a (ix2 r m) + ∑ l : Fin 256, x0 (ix2 r (kcol1 t l)) * x1 (ix2 l m) := by
  obtain ⟨-, -, -, -, -, -, o0, o1⟩ := idx_facts1 t
  unfold step1 k1_pay2
  simp only [shapeCast_self]
  rw [addf_apply, mm1_apply]
  congr 1
  refine Finset.sum_congr rfl fun l _ => ?_
  rw [truncf_apply]
  congr 1
  show x0 _ = x0 _
  congr 1
  funext ax; apply Fin.ext
  match ax with
  | ⟨0, _⟩ => show k1_off1 (grid1.coords t) (0 : Fin 2) + 1 * r.val = r.val; rw [o0]; omega
  | ⟨1, _⟩ => show k1_off1 (grid1.coords t) (1 : Fin 2) + 1 * l.val = t.val % 32 * 256 + l.val; rw [o1]; omega

abbrev X1 (c : Dev nD) : Fin 2048 → Fin 8192 → EReal := fun r j => V c main_v26 (ix2 r j)
abbrev A1 (c : Dev nD) : Fin 8192 → Fin 8192 → EReal := fun j n => V c main_arg1 (ix2 j n)

def blockSum1 (X : Fin 2048 → Fin 8192 → EReal) (A : Fin 8192 → Fin 8192 → EReal) (r : Fin 2048) (n : Fin 8192) (q : ℕ) : EReal :=
  if h : q < 32 then ∑ l : Fin 256, X r ⟨q * 256 + l.val, by have := l.isLt; omega⟩ * A ⟨q * 256 + l.val, by have := l.isLt; omega⟩ n else 0

theorem point1_apply (c : Dev nD) (t : Fin cfg1.N) (a : Vec Ideal S2048x512 .f32) (r : Fin 2048) (m : Fin 512) :
    step1 (F := Ideal) (grid1.coords t) (iblk1 V c 0 t) (iblk1 V c 1 t) a (ix2 r m)
      = a (ix2 r m) + blockSum1 (X1 V c) (A1 V c) r (ocol1 t m) (t.val % 32) := by
  rw [step1_apply]
  congr 1
  unfold blockSum1
  rw [dif_pos (Nat.mod_lt _ (by decide))]
  refine Finset.sum_congr rfl fun l _ => ?_
  rw [iblk1_0_apply, iblk1_1_apply]
  rfl

/-- After step n the accumulator holds the terms of the first n % 32 + 1 blocks of 256 for its column block. -/
theorem acc1_apply (c : Dev nD) (n : ℕ) (hn : n < cfg1.N) (r : Fin 2048) (m : Fin 512) :
    acc1 V c n hn (ix2 r m) = ∑ q ∈ Finset.range (n % 32 + 1), blockSum1 (X1 V c) (A1 V c) r (ocol1 ⟨n, hn⟩ m) q := by
  induction n with
  | zero =>
    rw [acc1, point1_apply, cleared1_apply, zero_add]
    show _ = ∑ q ∈ Finset.range 1, _
    rw [Finset.sum_range_one]
    rfl
  | succ n ih =>
    rw [acc1, point1_apply]
    by_cases h : (n + 1) % 32 = 0
    · rw [if_pos h, cleared1_apply, zero_add]
      show _ = ∑ q ∈ Finset.range ((n + 1) % 32 + 1), _
      rw [h, Finset.sum_range_one]
    · rw [if_neg h, ih (Nat.lt_of_succ_lt hn)]
      have e1 : (n + 1) % 32 = n % 32 + 1 := by omega
      have e2 : ocol1 ⟨n, Nat.lt_of_succ_lt hn⟩ m = ocol1 ⟨n + 1, hn⟩ m :=
        Fin.ext (by show n / 32 * 512 + m.val = (n + 1) / 32 * 512 + m.val; omega)
      show _ = ∑ q ∈ Finset.range ((n + 1) % 32 + 1), _
      rw [e2, e1, Finset.sum_range_succ _ (n % 32 + 1)]

theorem blocks_all1 (X : Fin 2048 → Fin 8192 → EReal) (A : Fin 8192 → Fin 8192 → EReal) (r : Fin 2048) (n : Fin 8192) :
    ∑ q ∈ Finset.range 32, blockSum1 X A r n q = ∑ j : Fin 8192, X r j * A j n := by
  rw [Finset.sum_range, Cert.Spec.sum_blocks 32 256 (fun j => X r j * A j n)]
  refine Finset.sum_congr rfl fun q _ => ?_
  unfold blockSum1
  rw [dif_pos q.isLt]

def G1 (c : Dev nD) : Vec Ideal S2048x8192 .bf16 :=
  fun i => ∑ j : Fin 8192, X1 V c ⟨(i 0).val, idx2_lt0 i⟩ j * A1 V c j ⟨(i 1).val, idx2_lt1 i⟩

theorem out1_apply (c : Dev nD) (t : Fin cfg1.N) (h31 : t.val % 32 = 31) (y : S2048x512.Idx) (i : S2048x8192.Idx)
    (h0 : (i 0).val = (y 0).val) (h1 : (i 1).val = t.val / 32 * 512 + (y 1).val) :
    k1_pay3 (F := Ideal) (acc1 V c t.val t.isLt) y = G1 V c i := by
  obtain ⟨r, m, rfl⟩ : ∃ (r : Fin 2048) (m : Fin 512), y = ix2 r m := ⟨y 0, y 1, eq_ix2 y⟩
  unfold k1_pay3
  rw [truncf_apply, acc1_apply, h31, blocks_all1]
  unfold G1
  have hr : (⟨(i 0).val, idx2_lt0 i⟩ : Fin 2048) = r := Fin.ext h0
  have hm : (⟨(i 1).val, idx2_lt1 i⟩ : Fin 8192) = ocol1 t m := Fin.ext h1
  rw [hr, hm]

theorem flushed1_eq (c : Dev nD) (t : Fin cfg1.N) (hf : (cfg1.win 2).flush t = true) :
    (dat1 (F := Ideal) V c).flushed 2 t = ((cfg1.win 2).blk t).view.read (Elt Ideal) (G1 V c) := by
  have h31 : t.val % 32 = 31 := (flush1_2 t).mp hf
  obtain ⟨-, -, -, -, f0, f1, -⟩ := idx_facts1 t
  show (cfg1.win 2).cut (grid1.coords t) ((dat1 (F := Ideal) V c).after 2 t) = _
  rw [after1_2]
  funext y
  refine out1_apply V c t h31 y _ ?_ ?_
  · show win1_2.index t (0 : Fin 2) * 2048 + 1 * (y 0).val = (y 0).val; rw [f0]; omega
  · show win1_2.index t (1 : Fin 2) * 512 + 1 * (y 1).val = t.val / 32 * 512 + (y 1).val; rw [f1]; omega

theorem mem_blk1 (t : Fin cfg1.N) (i : S2048x8192.Idx) :
    i ∈ ((cfg1.win 2).blk t).view.set ↔ ∀ a : Fin 2, win1_2.index t a * S2048x512.size a ≤ (i a).val ∧ (i a).val < win1_2.index t a * S2048x512.size a + S2048x512.size a := by
  show i ∈ ((View.whole main_v27).slice (win1_2.rect t)).set ↔ _
  rw [View.set_slice_whole, Rect.mem_set_unit]
  exact Iff.rfl

theorem cover1 (i : S2048x8192.Idx) : ∃ t : Fin cfg1.N, (cfg1.win 2).flush t = true ∧ i ∈ ((cfg1.win 2).blk t).view.set := by
  have hi0 : (i 0).val < 2048 := idx2_lt0 i
  have hi1 : (i 1).val < 8192 := idx2_lt1 i
  have hN : cfg1.N = 512 := N_1
  let t : Fin cfg1.N := ⟨(i 1).val / 512 * 32 + 31, by rw [hN]; omega⟩
  have ht : t.val = (i 1).val / 512 * 32 + 31 := rfl
  obtain ⟨-, -, -, -, f0, f1, -⟩ := idx_facts1 t
  refine ⟨t, (flush1_2 t).mpr (by rw [ht]; omega), ?_⟩
  rw [mem_blk1]
  intro a
  match a with
  | ⟨0, _⟩ => show win1_2.index t (0 : Fin 2) * 2048 ≤ (i 0).val ∧ (i 0).val < win1_2.index t (0 : Fin 2) * 2048 + 2048; rw [f0]; omega
  | ⟨1, _⟩ => show win1_2.index t (1 : Fin 2) * 512 ≤ (i 1).val ∧ (i 1).val < win1_2.index t (1 : Fin 2) * 512 + 512; rw [f1, ht]; omega

/-- Entry (r, n) of the output is Σ_j X[r,j] · A[j,n], the 32 blocks of 256 terms added in turn. -/
theorem final1 (V : (c : Dev nD) → (b : Ref sig .tc) → Buf (Elt Ideal) ((c : Thread nD τ).loc b)) (c : Dev nD) (k : Fin 4) (b : Fin 512) (n : Fin 8192) :
    (dat1 (F := Ideal) V c).arrAt 2 cfg1.N (ValueIdx.ix2 (Cert.Spec.row k b) n)
      = Cert.Spec.hop (fun k b j => V c main_v26 (ValueIdx.ix2 (Cert.Spec.row k b) j)) (fun j n => V c main_arg1 (ValueIdx.ix2 j n)) k b n := by
  rw [(dat1 (F := Ideal) V c).arrAt_eq_of_cover 2 (G1 V c) (flushed1_eq V c) cover1]
  rfl

end Cert.KernelIdeal.HandValue

end
-- ==== Proof.Value2.lean ====
import proofs.«408051_j35570919145766_3_alg».proof.Proof.Region2
import proofs.«408051_j35570919145766_3_alg».proof.Proof.Spec
import Idealize.ShloMosaic.Lib.ValueIdx
import Idealize.ShloMosaic.Lib.Pipeline.Value
import Idealize.ShloMosaic.Lib.StackMember
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem idx_facts2 : ∀ t : Fin cfg2.N,
    win2_0.index t (0 : Fin 2) = 0 ∧ win2_0.index t (1 : Fin 2) = 0
    ∧ win2_1.index t (0 : Fin 2) = t.val % 32 ∧ win2_1.index t (1 : Fin 2) = t.val / 32
    ∧ win2_2.index t (0 : Fin 2) = 0 ∧ win2_2.index t (1 : Fin 2) = t.val / 32
    ∧ k2_off1 (grid2.coords t) (0 : Fin 2) = 0 ∧ k2_off1 (grid2.coords t) (1 : Fin 2) = t.val % 32 * 256 :=
  (by decide +kernel : ∀ t : Fin grid2.N, _)

def ocol2 (t : Fin cfg2.N) (m : Fin 512) : Fin 8192 := ⟨t.val / 32 * 512 + m.val, by
  have h : t.val < 512 := lt_of_lt_of_eq t.isLt N_2
  have := m.isLt; omega⟩

def kcol2 (t : Fin cfg2.N) (l : Fin 256) : Fin 8192 := ⟨t.val % 32 * 256 + l.val, by
  have := l.isLt; omega⟩

theorem iblk2_0_apply (c : Dev nD) (t : Fin cfg2.N) (r : Fin 2048) (j : Fin 8192) :
    (iblk2 V c 0 t : Vec Ideal S2048x8192 .bf16) (ix2 r j) = V c main_v27 (ix2 r j) := by
  obtain ⟨e0, e1, -⟩ := idx_facts2 t
  unfold iblk2
  rw [View.read_apply]
  show V c main_v27 _ = V c main_v27 _
  congr 1
  funext a; apply Fin.ext
  match a with
  | ⟨0, _⟩ => show win2_0.index t (0 : Fin 2) * 2048 + 1 * r.val = r.val; rw [e0]; omega
  | ⟨1, _⟩ => show win2_0.index t (1 : Fin 2) * 8192 + 1 * j.val = j.val; rw [e1]; omega

theorem iblk2_1_apply (c : Dev nD) (t : Fin cfg2.N) (l : Fin 256) (m : Fin 512) :
    (iblk2 V c 1 t : Vec Ideal S256x512 .f32) (ix2 l m) = V c main_arg1 (ix2 (kcol2 t l) (ocol2 t m)) := by
  obtain ⟨-, -, e0, e1, -⟩ := idx_facts2 t
  unfold iblk2
  rw [View.read_apply]
  show V c main_arg1 _ = V c main_arg1 _
  congr 1
  funext a; apply Fin.ext
  match a with
  | ⟨0, _⟩ => show win2_1.index t (0 : Fin 2) * 256 + 1 * l.val = t.val % 32 * 256 + l.val; rw [e0]; omega
  | ⟨1, _⟩ => show win2_1.index t (1 : Fin 2) * 512 + 1 * m.val = t.val / 32 * 512 + m.val; rw [e1]; omega

theorem mm2_apply (A : FVec Ideal S2048x256 .bf16) (B : FVec Ideal S256x512 .bf16) (r : Fin 2048) (m : Fin 512) :
    matmul dot_S2048x256_S256x512_S2048x512_1_0_0_1_n_n none A B (constant S2048x512 .f32 0x00000000#32) (ix2 r m)
      = ∑ l : Fin 256, A (ix2 r l) * B (ix2 l m) := by
  show matmul (DotDims.plain 2048 256 512) none A B (constant ⟨2, ![2048, 512]⟩ .f32 0x00000000#32) (ix2 r m) = _
  rw [matmul_zero_eq_dotGeneral, StackMember.dotGeneral_plain_apply]

theorem cleared2_apply (r : Fin 2048) (m : Fin 512) : k2_pay1 (F := Ideal) (ix2 r m) = 0 := by
  unfold k2_pay1
  simp only [shapeCast_self]
  show Ideal.ofBits .f32 0x00000000#32 = 0
  exact Ideal.ofBits_zero_f32

theorem step2_apply (t : Fin cfg2.N) (x0 : Vec Ideal S2048x8192 .bf16) (x1 : Vec Ideal S256x512 .f32) (a : Vec Ideal S2048x512 .f32)
    (r : Fin 2048) (m : Fin 512) :
    step2 (F := Ideal) (grid2.coords t) x0 x1 a (ix2 r m) = a (ix2 r m) + ∑ l : Fin 256, x0 (ix2 r (kcol2 t l)) * x1 (ix2 l m) := by
  obtain ⟨-, -, -, -, -, -, o0, o1⟩ := idx_facts2 t
  unfold step2 k2_pay2
  simp only [shapeCast_self]
  rw [addf_apply, mm2_apply]
  congr 1
  refine Finset.sum_congr rfl fun l _ => ?_
  rw [truncf_apply]
  congr 1
  show x0 _ = x0 _
  congr 1
  funext ax; apply Fin.ext
  match ax with
  | ⟨0, _⟩ => show k2_off1 (grid2.coords t) (0 : Fin 2) + 1 * r.val = r.val; rw [o0]; omega
  | ⟨1, _⟩ => show k2_off1 (grid2.coords t) (1 : Fin 2) + 1 * l.val = t.val % 32 * 256 + l.val; rw [o1]; omega

abbrev X2 (c : Dev nD) : Fin 2048 → Fin 8192 → EReal := fun r j => V c main_v27 (ix2 r j)
abbrev A2 (c : Dev nD) : Fin 8192 → Fin 8192 → EReal := fun j n => V c main_arg1 (ix2 j n)

def blockSum2 (X : Fin 2048 → Fin 8192 → EReal) (A : Fin 8192 → Fin 8192 → EReal) (r : Fin 2048) (n : Fin 8192) (q : ℕ) : EReal :=
  if h : q < 32 then ∑ l : Fin 256, X r ⟨q * 256 + l.val, by have := l.isLt; omega⟩ * A ⟨q * 256 + l.val, by have := l.isLt; omega⟩ n else 0

theorem point2_apply (c : Dev nD) (t : Fin cfg2.N) (a : Vec Ideal S2048x512 .f32) (r : Fin 2048) (m : Fin 512) :
    step2 (F := Ideal) (grid2.coords t) (iblk2 V c 0 t) (iblk2 V c 1 t) a (ix2 r m)
      = a (ix2 r m) + blockSum2 (X2 V c) (A2 V c) r (ocol2 t m) (t.val % 32) := by
  rw [step2_apply]
  congr 1
  unfold blockSum2
  rw [dif_pos (Nat.mod_lt _ (by decide))]
  refine Finset.sum_congr rfl fun l _ => ?_
  rw [iblk2_0_apply, iblk2_1_apply]
  rfl

/-- After step n the accumulator holds the terms of the first n % 32 + 1 blocks of 256 for its column block. -/
theorem acc2_apply (c : Dev nD) (n : ℕ) (hn : n < cfg2.N) (r : Fin 2048) (m : Fin 512) :
    acc2 V c n hn (ix2 r m) = ∑ q ∈ Finset.range (n % 32 + 1), blockSum2 (X2 V c) (A2 V c) r (ocol2 ⟨n, hn⟩ m) q := by
  induction n with
  | zero =>
    rw [acc2, point2_apply, cleared2_apply, zero_add]
    show _ = ∑ q ∈ Finset.range 1, _
    rw [Finset.sum_range_one]
    rfl
  | succ n ih =>
    rw [acc2, point2_apply]
    by_cases h : (n + 1) % 32 = 0
    · rw [if_pos h, cleared2_apply, zero_add]
      show _ = ∑ q ∈ Finset.range ((n + 1) % 32 + 1), _
      rw [h, Finset.sum_range_one]
    · rw [if_neg h, ih (Nat.lt_of_succ_lt hn)]
      have e1 : (n + 1) % 32 = n % 32 + 1 := by omega
      have e2 : ocol2 ⟨n, Nat.lt_of_succ_lt hn⟩ m = ocol2 ⟨n + 1, hn⟩ m :=
        Fin.ext (by show n / 32 * 512 + m.val = (n + 1) / 32 * 512 + m.val; omega)
      show _ = ∑ q ∈ Finset.range ((n + 1) % 32 + 1), _
      rw [e2, e1, Finset.sum_range_succ _ (n % 32 + 1)]

theorem blocks_all2 (X : Fin 2048 → Fin 8192 → EReal) (A : Fin 8192 → Fin 8192 → EReal) (r : Fin 2048) (n : Fin 8192) :
    ∑ q ∈ Finset.range 32, blockSum2 X A r n q = ∑ j : Fin 8192, X r j * A j n := by
  rw [Finset.sum_range, Cert.Spec.sum_blocks 32 256 (fun j => X r j * A j n)]
  refine Finset.sum_congr rfl fun q _ => ?_
  unfold blockSum2
  rw [dif_pos q.isLt]

def G2 (c : Dev nD) : Vec Ideal S2048x8192 .bf16 :=
  fun i => ∑ j : Fin 8192, X2 V c ⟨(i 0).val, idx2_lt0 i⟩ j * A2 V c j ⟨(i 1).val, idx2_lt1 i⟩

theorem out2_apply (c : Dev nD) (t : Fin cfg2.N) (h31 : t.val % 32 = 31) (y : S2048x512.Idx) (i : S2048x8192.Idx)
    (h0 : (i 0).val = (y 0).val) (h1 : (i 1).val = t.val / 32 * 512 + (y 1).val) :
    k2_pay3 (F := Ideal) (acc2 V c t.val t.isLt) y = G2 V c i := by
  obtain ⟨r, m, rfl⟩ : ∃ (r : Fin 2048) (m : Fin 512), y = ix2 r m := ⟨y 0, y 1, eq_ix2 y⟩
  unfold k2_pay3
  rw [truncf_apply, acc2_apply, h31, blocks_all2]
  unfold G2
  have hr : (⟨(i 0).val, idx2_lt0 i⟩ : Fin 2048) = r := Fin.ext h0
  have hm : (⟨(i 1).val, idx2_lt1 i⟩ : Fin 8192) = ocol2 t m := Fin.ext h1
  rw [hr, hm]

theorem flushed2_eq (c : Dev nD) (t : Fin cfg2.N) (hf : (cfg2.win 2).flush t = true) :
    (dat2 (F := Ideal) V c).flushed 2 t = ((cfg2.win 2).blk t).view.read (Elt Ideal) (G2 V c) := by
  have h31 : t.val % 32 = 31 := (flush2_2 t).mp hf
  obtain ⟨-, -, -, -, f0, f1, -⟩ := idx_facts2 t
  show (cfg2.win 2).cut (grid2.coords t) ((dat2 (F := Ideal) V c).after 2 t) = _
  rw [after2_2]
  funext y
  refine out2_apply V c t h31 y _ ?_ ?_
  · show win2_2.index t (0 : Fin 2) * 2048 + 1 * (y 0).val = (y 0).val; rw [f0]; omega
  · show win2_2.index t (1 : Fin 2) * 512 + 1 * (y 1).val = t.val / 32 * 512 + (y 1).val; rw [f1]; omega

theorem mem_blk2 (t : Fin cfg2.N) (i : S2048x8192.Idx) :
    i ∈ ((cfg2.win 2).blk t).view.set ↔ ∀ a : Fin 2, win2_2.index t a * S2048x512.size a ≤ (i a).val ∧ (i a).val < win2_2.index t a * S2048x512.size a + S2048x512.size a := by
  show i ∈ ((View.whole main_v28).slice (win2_2.rect t)).set ↔ _
  rw [View.set_slice_whole, Rect.mem_set_unit]
  exact Iff.rfl

theorem cover2 (i : S2048x8192.Idx) : ∃ t : Fin cfg2.N, (cfg2.win 2).flush t = true ∧ i ∈ ((cfg2.win 2).blk t).view.set := by
  have hi0 : (i 0).val < 2048 := idx2_lt0 i
  have hi1 : (i 1).val < 8192 := idx2_lt1 i
  have hN : cfg2.N = 512 := N_2
  let t : Fin cfg2.N := ⟨(i 1).val / 512 * 32 + 31, by rw [hN]; omega⟩
  have ht : t.val = (i 1).val / 512 * 32 + 31 := rfl
  obtain ⟨-, -, -, -, f0, f1, -⟩ := idx_facts2 t
  refine ⟨t, (flush2_2 t).mpr (by rw [ht]; omega), ?_⟩
  rw [mem_blk2]
  intro a
  match a with
  | ⟨0, _⟩ => show win2_2.index t (0 : Fin 2) * 2048 ≤ (i 0).val ∧ (i 0).val < win2_2.index t (0 : Fin 2) * 2048 + 2048; rw [f0]; omega
  | ⟨1, _⟩ => show win2_2.index t (1 : Fin 2) * 512 ≤ (i 1).val ∧ (i 1).val < win2_2.index t (1 : Fin 2) * 512 + 512; rw [f1, ht]; omega

/-- Entry (r, n) of the output is Σ_j X[r,j] · A[j,n], the 32 blocks of 256 terms added in turn. -/
theorem final2 (V : (c : Dev nD) → (b : Ref sig .tc) → Buf (Elt Ideal) ((c : Thread nD τ).loc b)) (c : Dev nD) (k : Fin 4) (b : Fin 512) (n : Fin 8192) :
    (dat2 (F := Ideal) V c).arrAt 2 cfg2.N (ValueIdx.ix2 (Cert.Spec.row k b) n)
      = Cert.Spec.hop (fun k b j => V c main_v27 (ValueIdx.ix2 (Cert.Spec.row k b) j)) (fun j n => V c main_arg1 (ValueIdx.ix2 j n)) k b n := by
  rw [(dat2 (F := Ideal) V c).arrAt_eq_of_cover 2 (G2 V c) (flushed2_eq V c) cover2]
  rfl

end Cert.KernelIdeal.HandValue

end
-- ==== Proof.Value3.lean ====
import proofs.«408051_j35570919145766_3_alg».proof.Proof.Region3
import proofs.«408051_j35570919145766_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx

namespace Encode

theorem half_eq : Ideal.ofBits .f32 0x3F000000#32 = Cert.Spec.half := by
  unfold Cert.Spec.half
  simp [Ideal.ofBits, Ideal.ieee, -EReal.coe_mul]; norm_num

theorem pay1_apply (p : Fin 1024) (q : Fin 128) : (k3_pay1 (F := Ideal)) (ix2 p q) = 0 := by
  unfold k3_pay1
  refine (congrFun (shapeCast_self _ _) _).trans ?_
  exact Ideal.ofBits_zero_f32

theorem lhs3_0 (i : S1024x128.Idx) (k : dot_S1024x512_S128x512_S1024x128_1_1_0_0_n_n.contr.Idx) :
    (dot_S1024x512_S128x512_S1024x128_1_1_0_0_n_n.lhsIdx i k 0).val = (i 0).val := by
  unfold DotDims.lhsIdx
  rw [dif_neg (show ¬(0 : Fin S1024x512.rank) ∈ dot_S1024x512_S128x512_S1024x128_1_1_0_0_n_n.lhsBatch by decide), dif_pos (show (0 : Fin S1024x512.rank) ∈ dot_S1024x512_S128x512_S1024x128_1_1_0_0_n_n.lhsNonContracting by decide)]
  rfl
theorem lhs3_1 (i : S1024x128.Idx) (k : dot_S1024x512_S128x512_S1024x128_1_1_0_0_n_n.contr.Idx) :
    (dot_S1024x512_S128x512_S1024x128_1_1_0_0_n_n.lhsIdx i k 1).val = (k ⟨0, by decide⟩).val :=
  dot_S1024x512_S128x512_S1024x128_1_1_0_0_n_n.lhsIdx_val_of_single rfl i k
theorem rhs3_0 (i : S1024x128.Idx) (k : dot_S1024x512_S128x512_S1024x128_1_1_0_0_n_n.contr.Idx) :
    (dot_S1024x512_S128x512_S1024x128_1_1_0_0_n_n.rhsIdx i k 0).val = (i 1).val := by
  unfold DotDims.rhsIdx
  rw [dif_neg (show ¬(0 : Fin S128x512.rank) ∈ dot_S1024x512_S128x512_S1024x128_1_1_0_0_n_n.rhsBatch by decide), dif_pos (show (0 : Fin S128x512.rank) ∈ dot_S1024x512_S128x512_S1024x128_1_1_0_0_n_n.rhsNonContracting by decide)]
  rfl
theorem rhs3_1 (i : S1024x128.Idx) (k : dot_S1024x512_S128x512_S1024x128_1_1_0_0_n_n.contr.Idx) :
    (dot_S1024x512_S128x512_S1024x128_1_1_0_0_n_n.rhsIdx i k 1).val = (k ⟨0, by decide⟩).val :=
  dot_S1024x512_S128x512_S1024x128_1_1_0_0_n_n.rhsIdx_val_of_single rfl i k

theorem pay2_apply (x0 x1 : Vec Ideal S1024x512 .bf16) (x2 : Vec Ideal S128x512 .f32) (xs : Vec Ideal S1024x128 .f32)
    (p : Fin 1024) (q : Fin 128) :
    k3_pay2 x0 x1 x2 xs (ix2 p q)
      = xs (ix2 p q) + ∑ l : Fin 512, ((x0 (ix2 p l) + x1 (ix2 p l)) * Cert.Spec.half) * x2 (ix2 q l) := by
  unfold k3_pay2
  refine (congrFun (shapeCast_self _ _) _).trans ?_
  refine (addf_apply _ _ _).trans ?_
  refine congrArg (xs (ix2 p q) + ·) ?_
  refine (Ideal.matmul_constant_zero_apply dot_S1024x512_S128x512_S1024x128_1_1_0_0_n_n none _ _ (ix2 p q)).trans ?_
  rw [← Equiv.sum_comp (ValueIdx.contrEquiv1 dot_S1024x512_S128x512_S1024x128_1_1_0_0_n_n 512 rfl rfl).symm]
  refine Finset.sum_congr rfl fun l _ => ?_
  have hl := ValueIdx.contrEquiv1_symm_val dot_S1024x512_S128x512_S1024x128_1_1_0_0_n_n 512 rfl rfl l
  have el : dot_S1024x512_S128x512_S1024x128_1_1_0_0_n_n.lhsIdx (ix2 p q) ((ValueIdx.contrEquiv1 dot_S1024x512_S128x512_S1024x128_1_1_0_0_n_n 512 rfl rfl).symm l) = (ix2 p l : S1024x512.Idx) := funext fun a => Fin.ext (by
    match a with
    | ⟨0, _⟩ => exact lhs3_0 _ _
    | ⟨1, _⟩ => exact (lhs3_1 _ _).trans hl)
  have er : dot_S1024x512_S128x512_S1024x128_1_1_0_0_n_n.rhsIdx (ix2 p q) ((ValueIdx.contrEquiv1 dot_S1024x512_S128x512_S1024x128_1_1_0_0_n_n 512 rfl rfl).symm l) = (ix2 q l : S128x512.Idx) := funext fun a => Fin.ext (by
    match a with
    | ⟨0, _⟩ => exact rhs3_0 _ _
    | ⟨1, _⟩ => exact (rhs3_1 _ _).trans hl)
  rw [el, er]
  show (shapeCast S1024x512 x0 shapeCasts_S1024x512_S1024x512 (ix2 p l) + shapeCast S1024x512 x1 shapeCasts_S1024x512_S1024x512 (ix2 p l))
      * Ideal.ofBits .f32 0x3F000000#32 * x2 (ix2 q l) = _
  rw [shapeCast_self, shapeCast_self, half_eq]

theorem pay3_apply (xa : Vec Ideal S1024x128 .f32) (xb : Vec Ideal S128 .f32) (p : Fin 1024) (q : Fin 128) :
    k3_pay3 xa xb (ix2 p q) = xa (ix2 p q) + xb (ix1 q) := by
  unfold k3_pay3
  refine (addf_apply _ _ _).trans ?_
  refine congrArg (xa (ix2 p q) + ·) ?_
  refine (broadcastTo_1b_ab_apply _ _ p q).trans ?_
  exact shapeCast_a_1a_apply xb _ (0 : Fin 1) q

section Blocks

variable (V : (c : Dev nD) → (b : Ref sig .tc) → Buf (Elt Ideal) ((c : Thread nD τ).loc b)) (c : Dev nD)

abbrev Tarr : Vec Ideal S2048x8192 .bf16 := V c main_v28
abbrev Xarr : Vec Ideal S2048x8192 .bf16 := V c main_v26
abbrev Warr : Vec Ideal S128x8192 .f32 := V c main_arg4
abbrev Barr : Vec Ideal S128 .f32 := V c main_arg5

abbrev tblk (t : Fin cfg3.N) : Vec Ideal S1024x512 .bf16 := iblk3 V c 0 t
abbrev xblk (t : Fin cfg3.N) : Vec Ideal S1024x512 .bf16 := iblk3 V c 1 t
abbrev wblk (t : Fin cfg3.N) : Vec Ideal S128x512 .f32 := iblk3 V c 2 t
abbrev bblk (t : Fin cfg3.N) : Vec Ideal S128 .f32 := iblk3 V c 3 t

def rowN (mi : ℕ) (p : Fin 1024) : Fin 2048 := ⟨(mi * 1024 + p.val) % 2048, Nat.mod_lt _ (by norm_num)⟩
def colN (kk : ℕ) (l : Fin 512) : Fin 8192 := ⟨(kk * 512 + l.val) % 8192, Nat.mod_lt _ (by norm_num)⟩

theorem hN3 (t : Fin cfg3.N) : t.val < 32 := lt_of_lt_of_eq t.isLt (show cfg3.N = 32 from N_3)

theorem idx_facts3 : ∀ t : Fin cfg3.N,
    win3_0.index t (0 : Fin 2) = t.val / 16 ∧ win3_0.index t (1 : Fin 2) = t.val % 16
    ∧ win3_1.index t (0 : Fin 2) = t.val / 16 ∧ win3_1.index t (1 : Fin 2) = t.val % 16
    ∧ win3_2.index t (0 : Fin 2) = 0 ∧ win3_2.index t (1 : Fin 2) = t.val % 16
    ∧ win3_3.index t (0 : Fin 1) = 0
    ∧ win3_4.index t (0 : Fin 2) = t.val / 16 ∧ win3_4.index t (1 : Fin 2) = 0 :=
  (by decide +kernel : ∀ t : Fin grid3.N, _)

theorem tblk_apply (t : Fin cfg3.N) (p : Fin 1024) (l : Fin 512) :
    tblk V c t (ix2 p l) = Tarr V c (ix2 (rowN (t.val / 16) p) (colN (t.val % 16) l)) := by
  show V c main_v28 (((cfg3.win 0).blk t).view.emb (ix2 p l)) = V c main_v28 (ix2 (rowN (t.val / 16) p) (colN (t.val % 16) l))
  refine congrArg (V c main_v28) ?_
  obtain ⟨e0, e1, -⟩ := idx_facts3 t
  have hN := hN3 t; have hp := p.isLt; have hl := l.isLt
  funext a; apply Fin.ext
  match a with
  | ⟨0, _⟩ => show win3_0.index t (0 : Fin 2) * 1024 + 1 * p.val = (t.val / 16 * 1024 + p.val) % 2048; omega
  | ⟨1, _⟩ => show win3_0.index t (1 : Fin 2) * 512 + 1 * l.val = (t.val % 16 * 512 + l.val) % 8192; omega

theorem xblk_apply (t : Fin cfg3.N) (p : Fin 1024) (l : Fin 512) :
    xblk V c t (ix2 p l) = Xarr V c (ix2 (rowN (t.val / 16) p) (colN (t.val % 16) l)) := by
  show V c main_v26 (((cfg3.win 1).blk t).view.emb (ix2 p l)) = V c main_v26 (ix2 (rowN (t.val / 16) p) (colN (t.val % 16) l))
  refine congrArg (V c main_v26) ?_
  obtain ⟨-, -, e0, e1, -⟩ := idx_facts3 t
  have hN := hN3 t; have hp := p.isLt; have hl := l.isLt
  funext a; apply Fin.ext
  match a with
  | ⟨0, _⟩ => show win3_1.index t (0 : Fin 2) * 1024 + 1 * p.val = (t.val / 16 * 1024 + p.val) % 2048; omega
  | ⟨1, _⟩ => show win3_1.index t (1 : Fin 2) * 512 + 1 * l.val = (t.val % 16 * 512 + l.val) % 8192; omega

theorem wblk_apply (t : Fin cfg3.N) (q : Fin 128) (l : Fin 512) :
    wblk V c t (ix2 q l) = Warr V c (ix2 q (colN (t.val % 16) l)) := by
  show V c main_arg4 (((cfg3.win 2).blk t).view.emb (ix2 q l)) = V c main_arg4 (ix2 q (colN (t.val % 16) l))
  refine congrArg (V c main_arg4) ?_
  obtain ⟨-, -, -, -, e0, e1, -⟩ := idx_facts3 t
  have hN := hN3 t; have hq := q.isLt; have hl := l.isLt
  funext a; apply Fin.ext
  match a with
  | ⟨0, _⟩ => show win3_2.index t (0 : Fin 2) * 128 + 1 * q.val = q.val; omega
  | ⟨1, _⟩ => show win3_2.index t (1 : Fin 2) * 512 + 1 * l.val = (t.val % 16 * 512 + l.val) % 8192; omega

theorem bblk_apply (t : Fin cfg3.N) (q : Fin 128) : bblk V c t (ix1 q) = Barr V c (ix1 q) := by
  show V c main_arg5 (((cfg3.win 3).blk t).view.emb (ix1 q)) = V c main_arg5 (ix1 q)
  refine congrArg (V c main_arg5) ?_
  obtain ⟨-, -, -, -, -, -, e0, -⟩ := idx_facts3 t
  funext a; apply Fin.ext
  match a with
  | ⟨0, _⟩ => show win3_3.index t (0 : Fin 1) * 128 + 1 * q.val = q.val; omega

def prodN (mi kk : ℕ) (p : Fin 1024) (q : Fin 128) : EReal :=
  ∑ l : Fin 512, ((Tarr V c (ix2 (rowN mi p) (colN kk l)) + Xarr V c (ix2 (rowN mi p) (colN kk l))) * Cert.Spec.half)
    * Warr V c (ix2 q (colN kk l))

theorem step3_apply (t : Fin cfg3.N) (xs : Vec Ideal S1024x128 .f32) (p : Fin 1024) (q : Fin 128) :
    step3 V c t xs (ix2 p q) = xs (ix2 p q) + prodN V c (t.val / 16) (t.val % 16) p q := by
  unfold step3
  refine (pay2_apply (tblk V c t) (xblk V c t) (wblk V c t) xs p q).trans ?_
  refine congrArg (xs (ix2 p q) + ·) ?_
  unfold prodN
  refine Finset.sum_congr rfl fun l _ => ?_
  rw [tblk_apply V c t p l, xblk_apply V c t p l, wblk_apply V c t q l]

theorem acc3_apply (p : Fin 1024) (q : Fin 128) : ∀ (n : ℕ) (hn : n < cfg3.N),
    acc3 V c n hn (ix2 p q) = ∑ i ∈ Finset.range (n % 16 + 1), prodN V c (n / 16) i p q
  | 0, hn => by
    rw [acc3_reset V c ⟨0, hn⟩ (Nat.zero_mod _), step3_apply V c ⟨0, hn⟩ _ p q, pay1_apply p q, zero_add]
    simp
  | n + 1, hn => by
    by_cases h : (n + 1) % 16 = 0
    · rw [acc3_reset V c ⟨n + 1, hn⟩ h, step3_apply V c ⟨n + 1, hn⟩ _ p q, pay1_apply p q, zero_add]
      show prodN V c ((n + 1) / 16) ((n + 1) % 16) p q = _
      rw [h]; simp
    · rw [acc3_step V c ⟨n + 1, hn⟩ h, step3_apply V c ⟨n + 1, hn⟩ _ p q]
      show acc3 V c n _ (ix2 p q) + prodN V c ((n + 1) / 16) ((n + 1) % 16) p q = _
      rw [acc3_apply p q n (Nat.lt_of_succ_lt hn)]
      have e1 : (n + 1) / 16 = n / 16 := by omega
      have e2 : (n + 1) % 16 = n % 16 + 1 := by omega
      rw [e1, e2, Finset.sum_range_succ (fun i => prodN V c (n / 16) i p q) (n % 16 + 1)]

theorem sum_steps (f : Fin 8192 → EReal) :
    ∑ i ∈ Finset.range 16, ∑ l : Fin 512, f (colN i l) = ∑ j : Fin 8192, f j := by
  rw [Cert.Spec.sum_blocks 16 512 f, Finset.sum_range (fun i => ∑ l : Fin 512, f (colN i l))]
  refine Finset.sum_congr rfl fun i _ => Finset.sum_congr rfl fun l _ => congrArg f (Fin.ext ?_)
  show (i.val * 512 + l.val) % 8192 = i.val * 512 + l.val
  have hi := i.isLt; have hl := l.isLt
  omega

def G3 : Vec Ideal S2048x128 .f32 := fun i =>
  (∑ j : Fin 8192, ((Tarr V c (ix2 (i 0) j) + Xarr V c (ix2 (i 0) j)) * Cert.Spec.half) * Warr V c (ix2 (i 1) j)) + Barr V c (ix1 (i 1))

theorem out3_apply (t : Fin cfg3.N) (h : t.val % 16 = 15) (p : Fin 1024) (q : Fin 128) :
    out3 V c t (ix2 p q) = G3 V c (ix2 (rowN (t.val / 16) p) q) := by
  unfold out3
  refine (pay3_apply (acc3 V c t.val t.isLt) (bblk V c t) p q).trans ?_
  rw [acc3_apply V c p q t.val t.isLt, bblk_apply V c t q, h]
  unfold G3 prodN
  refine congrArg (· + Barr V c (ix1 q)) ?_
  exact sum_steps (fun j => ((Tarr V c (ix2 (rowN (t.val / 16) p) j) + Xarr V c (ix2 (rowN (t.val / 16) p) j)) * Cert.Spec.half) * Warr V c (ix2 q j))

theorem flushed3_eq (t : Fin cfg3.N) (hf : (cfg3.win 4).flush t = true) :
    (dat3 (F := Ideal) V c).flushed 4 t = ((cfg3.win 4).blk t).view.read (Elt Ideal) (G3 V c) := by
  have h15 : t.val % 16 = 15 := (flush3_4 t).mp hf
  show (cfg3.win 4).cut (grid3.coords t) ((dat3 (F := Ideal) V c).after 4 t) = _
  rw [after3_4]
  funext y
  obtain ⟨p, q, rfl⟩ : ∃ (p : Fin 1024) (q : Fin 128), y = ix2 p q := ⟨y 0, y 1, eq_ix2 y⟩
  refine (out3_apply V c t h15 p q).trans ?_
  show G3 V c (ix2 (rowN (t.val / 16) p) q) = G3 V c (((cfg3.win 4).blk t).view.emb (ix2 p q))
  refine congrArg (G3 V c) ?_
  obtain ⟨-, -, -, -, -, -, -, e0, e1⟩ := idx_facts3 t
  have hN := hN3 t; have hp := p.isLt; have hq := q.isLt
  funext a; apply Fin.ext
  match a with
  | ⟨0, _⟩ => show (t.val / 16 * 1024 + p.val) % 2048 = win3_4.index t (0 : Fin 2) * 1024 + 1 * p.val; omega
  | ⟨1, _⟩ => show q.val = win3_4.index t (1 : Fin 2) * 128 + 1 * q.val; omega

theorem mem_blk3 (t : Fin cfg3.N) (i : S2048x128.Idx) :
    i ∈ ((cfg3.win 4).blk t).view.set ↔ ∀ a : Fin 2, win3_4.index t a * S1024x128.size a ≤ (i a).val ∧ (i a).val < win3_4.index t a * S1024x128.size a + S1024x128.size a := by
  show i ∈ ((View.whole main_v29).slice (win3_4.rect t)).set ↔ _
  rw [View.set_slice_whole, Rect.mem_set_unit]
  exact Iff.rfl

theorem cover3 (i : S2048x128.Idx) : ∃ t : Fin cfg3.N, (cfg3.win 4).flush t = true ∧ i ∈ ((cfg3.win 4).blk t).view.set := by
  have hi0 : (i 0).val < 2048 := (i 0).isLt
  have hi1 : (i 1).val < 128 := (i 1).isLt
  let t : Fin cfg3.N := ⟨(i 0).val / 1024 * 16 + 15, by rw [show cfg3.N = 32 from N_3]; omega⟩
  have ht : t.val = (i 0).val / 1024 * 16 + 15 := rfl
  refine ⟨t, (flush3_4 t).mpr (by rw [ht]; omega), ?_⟩
  rw [mem_blk3]
  obtain ⟨-, -, -, -, -, -, -, e0, e1⟩ := idx_facts3 t
  intro a
  match a with
  | ⟨0, _⟩ => show win3_4.index t (0 : Fin 2) * 1024 ≤ (i 0).val ∧ (i 0).val < win3_4.index t (0 : Fin 2) * 1024 + 1024; omega
  | ⟨1, _⟩ => show win3_4.index t (1 : Fin 2) * 128 ≤ (i 1).val ∧ (i 1).val < win3_4.index t (1 : Fin 2) * 128 + 128; omega

end Blocks

end Encode

/-- Entry (k·512 + b, o) of the output is Σ_n ((T + X)/2)[·,n] · W[o,n] + bias[o], the 16 blocks of 512 terms added in turn. -/
theorem final3 (V : (c : Dev nD) → (b : Ref sig .tc) → Buf (Elt Ideal) ((c : Thread nD τ).loc b)) (c : Dev nD) (k : Fin 4) (b : Fin 512) (o : Fin 128) :
    (dat3 (F := Ideal) V c).arrAt 4 cfg3.N (ValueIdx.ix2 (Cert.Spec.row k b) o)
      = Cert.Spec.encode (fun k b j => V c main_v28 (ValueIdx.ix2 (Cert.Spec.row k b) j)) (fun k b j => V c main_v26 (ValueIdx.ix2 (Cert.Spec.row k b) j))
          (fun o j => V c main_arg4 (ValueIdx.ix2 o j)) (fun o => V c main_arg5 (ValueIdx.ix1 o)) k b o := by
  rw [(dat3 (F := Ideal) V c).arrAt_eq_of_cover 4 (Encode.G3 V c) (fun t hf => Encode.flushed3_eq V c t hf) Encode.cover3]
  rfl

end Cert.KernelIdeal.HandValue

end
-- ==== Proof.Value4.lean ====
import proofs.«408051_j35570919145766_3_alg».proof.Proof.Region4
import proofs.«408051_j35570919145766_3_alg».proof.Proof.Spec
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.KernelIdeal.HandValue.Logits

open Cert.KernelIdeal Cert.KernelIdeal.Gen Cert.KernelIdeal.Hand
open Idealize.ShloMosaic Idealize.ShloMosaic.TcCoe Idealize.SL.Sem
open Idealize.ShloMosaic.ValueIdx

theorem lhs_mm4_0 (i : S512x1024.Idx) (q : dot_S512x64_S1024x64_S512x1024_1_1_0_0_n_n.contr.Idx) :
    (dot_S512x64_S1024x64_S512x1024_1_1_0_0_n_n.lhsIdx i q 0).val = (i 0).val := by
  unfold DotDims.lhsIdx
  rw [dif_neg (show ¬(0 : Fin S512x64.rank) ∈ dot_S512x64_S1024x64_S512x1024_1_1_0_0_n_n.lhsBatch by decide), dif_pos (show (0 : Fin S512x64.rank) ∈ dot_S512x64_S1024x64_S512x1024_1_1_0_0_n_n.lhsNonContracting by decide)]
  rfl
theorem lhs_mm4_1 (i : S512x1024.Idx) (q : dot_S512x64_S1024x64_S512x1024_1_1_0_0_n_n.contr.Idx) :
    (dot_S512x64_S1024x64_S512x1024_1_1_0_0_n_n.lhsIdx i q 1).val = (q ⟨0, by decide⟩).val :=
  dot_S512x64_S1024x64_S512x1024_1_1_0_0_n_n.lhsIdx_val_of_single rfl i q
theorem rhs_mm4_0 (i : S512x1024.Idx) (q : dot_S512x64_S1024x64_S512x1024_1_1_0_0_n_n.contr.Idx) :
    (dot_S512x64_S1024x64_S512x1024_1_1_0_0_n_n.rhsIdx i q 0).val = (i 1).val := by
  unfold DotDims.rhsIdx
  rw [dif_neg (show ¬(0 : Fin S1024x64.rank) ∈ dot_S512x64_S1024x64_S512x1024_1_1_0_0_n_n.rhsBatch by decide), dif_pos (show (0 : Fin S1024x64.rank) ∈ dot_S512x64_S1024x64_S512x1024_1_1_0_0_n_n.rhsNonContracting by decide)]
  rfl
theorem rhs_mm4_1 (i : S512x1024.Idx) (q : dot_S512x64_S1024x64_S512x1024_1_1_0_0_n_n.contr.Idx) :
    (dot_S512x64_S1024x64_S512x1024_1_1_0_0_n_n.rhsIdx i q 1).val = (q ⟨0, by decide⟩).val :=
  dot_S512x64_S1024x64_S512x1024_1_1_0_0_n_n.rhsIdx_val_of_single rfl i q

theorem mm4_apply (x0 : S512x64.Idx → EReal) (x1 : S1024x64.Idx → EReal) (p : Fin 512) (q : Fin 1024) :
    (matmul (F := Ideal) dot_S512x64_S1024x64_S512x1024_1_1_0_0_n_n none (φ₁ := .bf16) (φ₂ := .bf16) x0 x1 (constant (F := Ideal) S512x1024 .f32 0x00000000#32)) (ix2 p q)
      = ∑ d : Fin 64, x0 (ix2 p d) * x1 (ix2 q d) := by
  simp only [matmul]
  rw [Ideal.matmul_constant_zero_apply, ← Equiv.sum_comp (ValueIdx.contrEquiv1 dot_S512x64_S1024x64_S512x1024_1_1_0_0_n_n 64 rfl rfl).symm]
  refine Finset.sum_congr rfl fun k _ => ?_
  have hk := ValueIdx.contrEquiv1_symm_val dot_S512x64_S1024x64_S512x1024_1_1_0_0_n_n 64 rfl rfl k
  have el : dot_S512x64_S1024x64_S512x1024_1_1_0_0_n_n.lhsIdx (ix2 p q) ((ValueIdx.contrEquiv1 dot_S512x64_S1024x64_S512x1024_1_1_0_0_n_n 64 rfl rfl).symm k) = ix2 p k := funext fun a => Fin.ext (by
    match a with
    | ⟨0, _⟩ => exact lhs_mm4_0 _ _
    | ⟨1, _⟩ => exact (lhs_mm4_1 _ _).trans hk)
  have er : dot_S512x64_S1024x64_S512x1024_1_1_0_0_n_n.rhsIdx (ix2 p q) ((ValueIdx.contrEquiv1 dot_S512x64_S1024x64_S512x1024_1_1_0_0_n_n 64 rfl rfl).symm k) = ix2 q k := funext fun a => Fin.ext (by
    match a with
    | ⟨0, _⟩ => exact rhs_mm4_0 _ _
    | ⟨1, _⟩ => exact (rhs_mm4_1 _ _).trans hk)
  rw [el, er]

theorem maskrow4_apply (v11 : S1x1024.Idx → EReal) (p : Fin 512) (q : Fin 1024) :
    broadcastTo S512x1024 (shapeCast S1x1024 (shapeCast S1024 v11 shapeCasts_S1x1024_S1024) shapeCasts_S1024_S1x1024) broadcasts_S1x1024_S512x1024 (ix2 p q)
      = v11 (ix2 0 q) := by
  refine (broadcastTo_apply _ broadcasts_S1x1024_S512x1024 (ix2 p q) (ix2 (0 : Fin 1) q) (fun a => ?_)).trans ?_
  · match a with
    | ⟨0, _⟩ => rfl
    | ⟨1, _⟩ => rfl
  refine (shapeCast_apply _ shapeCasts_S1024_S1x1024 (ix2 (0 : Fin 1) q) (ix1 q) ?_).trans ?_
  · rw [Shape.rowMajor_val_one, Shape.rowMajor_val_two]; simp
  refine shapeCast_apply v11 shapeCasts_S1x1024_S1024 (ix1 q) (ix2 (0 : Fin 1) q) ?_
  rw [Shape.rowMajor_val_one, Shape.rowMajor_val_two]; simp

theorem pay2_apply (x0 : S512x64.Idx → EReal) (x1 : S1024x64.Idx → EReal) (v11 : S1x1024.Idx → EReal) (acc : S512x1024.Idx → EReal)
    (p : Fin 512) (q : Fin 1024) :
    k4_pay2 (F := Ideal) x0 x1 v11 acc (ix2 p q)
      = acc (ix2 p q) + Ideal.exp (∑ d : Fin 64, x0 (ix2 p d) * x1 (ix2 q d)) * v11 (ix2 0 q) := by
  unfold k4_pay2
  simp only [shapeCast_self]
  rw [addf_apply, mulf_apply, maskrow4_apply]
  show acc (ix2 p q) + Ideal.exp ((matmul (F := Ideal) dot_S512x64_S1024x64_S512x1024_1_1_0_0_n_n none (φ₁ := .bf16) (φ₂ := .bf16) x0 x1 (constant (F := Ideal) S512x1024 .f32 0x00000000#32)) (ix2 p q) * Ideal.ofBits .f32 0x3F800000#32) * v11 (ix2 0 q) = _
  rw [mm4_apply, Ideal.ofBits_one_f32, mul_one]

theorem pay1_apply (j : S512x1024.Idx) : k4_pay1 (F := Ideal) j = 0 := by
  unfold k4_pay1
  simp only [shapeCast_self]
  show Ideal.ofBits .f32 0x00000000#32 = 0
  exact Ideal.ofBits_zero_f32

theorem pay3_apply (acc : S512x1024.Idx → EReal) (j : S512x1024.Idx) : k4_pay3 (F := Ideal) acc j = Ideal.log (acc j) := rfl

variable (V : (c : Dev nD) → (b : Ref sig .tc) → Buf (Elt Ideal) ((c : Thread nD τ).loc b))

abbrev zarr (c : Dev nD) : S2048x64.Idx → EReal := V c main_v45
abbrev iarr (c : Dev nD) : S8192x64.Idx → EReal := V c main_v46
abbrev carr (c : Dev nD) : S4x8192.Idx → EReal := V c main_v25
abbrev zblk (c : Dev nD) (t : Fin cfg4.N) : S512x64.Idx → EReal := iblk4 V c 0 t
abbrev iblk (c : Dev nD) (t : Fin cfg4.N) : S1024x64.Idx → EReal := iblk4 V c 1 t
abbrev cblk (c : Dev nD) (t : Fin cfg4.N) : S4x1024.Idx → EReal := iblk4 V c 2 t

theorem idx4 : ∀ t : Fin cfg4.N, win4_0.index t (0 : Fin 2) = t.val % 4 ∧ win4_0.index t (1 : Fin 2) = 0
    ∧ win4_1.index t (0 : Fin 2) = t.val / 4 ∧ win4_1.index t (1 : Fin 2) = 0
    ∧ win4_2.index t (0 : Fin 2) = 0 ∧ win4_2.index t (1 : Fin 2) = t.val / 4
    ∧ win4_3.index t (0 : Fin 2) = 0 ∧ win4_3.index t (1 : Fin 2) = t.val / 4
    ∧ k4_off1 (grid4.coords t) (0 : Fin 2) = t.val % 4 ∧ k4_off1 (grid4.coords t) (1 : Fin 2) = 0 :=
  (by decide +kernel : ∀ t : Fin grid4.N, _)

theorem zblk_apply (c : Dev nD) (t : Fin cfg4.N) (p : Fin 512) (d : Fin 64) (r : Fin 2048) (hr : r.val = t.val % 4 * 512 + p.val) :
    zblk V c t (ix2 p d) = zarr V c (ix2 r d) := by
  obtain ⟨e0, e1, -⟩ := idx4 t
  unfold zblk iblk4
  rw [View.read_apply]
  show V c main_v45 _ = V c main_v45 _
  congr 1
  funext a
  apply Fin.ext
  match a with
  | ⟨0, _⟩ => show win4_0.index t (0 : Fin 2) * 512 + 1 * p.val = r.val; rw [e0, hr]; omega
  | ⟨1, _⟩ => show win4_0.index t (1 : Fin 2) * 64 + 1 * d.val = d.val; rw [e1]; omega

theorem iblk_apply (c : Dev nD) (t : Fin cfg4.N) (q : Fin 1024) (d : Fin 64) (r : Fin 8192) (hr : r.val = t.val / 4 * 1024 + q.val) :
    iblk V c t (ix2 q d) = iarr V c (ix2 r d) := by
  obtain ⟨-, -, e0, e1, -⟩ := idx4 t
  unfold iblk iblk4
  rw [View.read_apply]
  show V c main_v46 _ = V c main_v46 _
  congr 1
  funext a
  apply Fin.ext
  match a with
  | ⟨0, _⟩ => show win4_1.index t (0 : Fin 2) * 1024 + 1 * q.val = r.val; rw [e0, hr]; omega
  | ⟨1, _⟩ => show win4_1.index t (1 : Fin 2) * 64 + 1 * d.val = d.val; rw [e1]; omega

theorem cblk_apply (c : Dev nD) (t : Fin cfg4.N) (k : Fin 4) (q : Fin 1024) (r : Fin 8192) (hr : r.val = t.val / 4 * 1024 + q.val) :
    cblk V c t (ix2 k q) = carr V c (ix2 k r) := by
  obtain ⟨-, -, -, -, e0, e1, -⟩ := idx4 t
  unfold cblk iblk4
  rw [View.read_apply]
  show V c main_v25 _ = V c main_v25 _
  congr 1
  funext a
  apply Fin.ext
  match a with
  | ⟨0, _⟩ => show win4_2.index t (0 : Fin 2) * 4 + 1 * k.val = k.val; rw [e0]; omega
  | ⟨1, _⟩ => show win4_2.index t (1 : Fin 2) * 1024 + 1 * q.val = r.val; rw [e1, hr]; omega

theorem crow4_apply (t : Fin cfg4.N) (x2 : S4x1024.Idx → EReal) (q : Fin 1024) (k : Fin 4) (hk : k.val = t.val % 4) :
    crow4 (F := Ideal) (grid4.coords t) x2 (ix2 (0 : Fin 1) q) = x2 (ix2 k q) := by
  obtain ⟨-, -, -, -, -, -, -, -, e0, e1⟩ := idx4 t
  unfold crow4
  show x2 _ = x2 _
  congr 1
  funext a
  apply Fin.ext
  match a with
  | ⟨0, _⟩ => show k4_off1 (grid4.coords t) (0 : Fin 2) + 1 * 0 = k.val; rw [e0, hk]; omega
  | ⟨1, _⟩ => show k4_off1 (grid4.coords t) (1 : Fin 2) + 1 * q.val = q.val; rw [e1]; omega

def zrow (k : ℕ) (p : Fin 512) : Fin 2048 := Cert.Spec.row ⟨k % 4, Nat.mod_lt _ (by decide)⟩ p
def icol (j : ℕ) (q : Fin 1024) : Fin 8192 :=
  ⟨j % 8 * 1024 + q.val, by have := Nat.mod_lt j (show 0 < 8 by decide); have := q.isLt; omega⟩
def kfin (k : ℕ) : Fin 4 := ⟨k % 4, Nat.mod_lt _ (by decide)⟩

def term4 (c : Dev nD) (k j : ℕ) (p : Fin 512) (q : Fin 1024) : EReal :=
  Ideal.exp (∑ d : Fin 64, zarr V c (ix2 (zrow k p) d) * iarr V c (ix2 (icol j q) d)) * carr V c (ix2 (kfin k) (icol j q))

theorem step4_at (c : Dev nD) (t : Fin cfg4.N) (acc : S512x1024.Idx → EReal) (p : Fin 512) (q : Fin 1024) :
    step4 (F := Ideal) (grid4.coords t) (zblk V c t) (iblk V c t) (cblk V c t) acc (ix2 p q)
      = acc (ix2 p q) + term4 V c (t.val % 4) (t.val / 4) p q := by
  have hN : t.val < 32 := lt_of_lt_of_eq t.isLt (show cfg4.N = 32 from N_4)
  have hzr : (zrow (t.val % 4) p).val = t.val % 4 * 512 + p.val := by
    show t.val % 4 % 4 * 512 + p.val = _; rw [Nat.mod_mod]
  have hic : (icol (t.val / 4) q).val = t.val / 4 * 1024 + q.val := by
    show t.val / 4 % 8 * 1024 + q.val = _; rw [Nat.mod_eq_of_lt (by omega)]
  have hkf : (kfin (t.val % 4)).val = t.val % 4 := Nat.mod_mod _ _
  unfold step4
  refine (pay2_apply (zblk V c t) (iblk V c t) (crow4 (F := Ideal) (grid4.coords t) (cblk V c t)) acc p q).trans ?_
  unfold term4
  refine congrArg (acc (ix2 p q) + ·) (congrArg₂ (· * ·) (congrArg Ideal.exp (Finset.sum_congr rfl fun d _ => ?_)) ?_)
  · rw [zblk_apply V c t p d (zrow (t.val % 4) p) hzr, iblk_apply V c t q d (icol (t.val / 4) q) hic]
  · rw [crow4_apply t (cblk V c t) q (kfin (t.val % 4)) hkf, cblk_apply V c t (kfin (t.val % 4)) q (icol (t.val / 4) q) hic]

def part4 (c : Dev nD) (j : ℕ) (p : Fin 512) (q : Fin 1024) : ℕ → EReal
  | 0 => 0 + term4 V c 0 j p q
  | r + 1 => part4 c j p q r + term4 V c (r + 1) j p q

theorem acc4_apply (c : Dev nD) (p : Fin 512) (q : Fin 1024) :
    ∀ (n : ℕ) (hn : n < cfg4.N), acc4 V c n hn (ix2 p q) = part4 V c (n / 4) p q (n % 4)
  | 0, hn => by
    refine (congrFun (acc4_reset V c ⟨0, hn⟩ (Nat.zero_mod _)) (ix2 p q)).trans ?_
    refine (step4_at V c ⟨0, hn⟩ _ p q).trans ?_
    rw [pay1_apply]; rfl
  | n + 1, hn => by
    by_cases h : (n + 1) % 4 = 0
    · refine (congrFun (acc4_reset V c ⟨n + 1, hn⟩ h) (ix2 p q)).trans ?_
      refine (step4_at V c ⟨n + 1, hn⟩ _ p q).trans ?_
      rw [pay1_apply]
      show 0 + term4 V c ((n + 1) % 4) ((n + 1) / 4) p q = part4 V c ((n + 1) / 4) p q ((n + 1) % 4)
      rw [h]; rfl
    · refine (congrFun (acc4_step V c ⟨n + 1, hn⟩ h) (ix2 p q)).trans ?_
      refine (step4_at V c ⟨n + 1, hn⟩ _ p q).trans ?_
      show acc4 V c n (Nat.lt_of_succ_lt hn) (ix2 p q) + term4 V c ((n + 1) % 4) ((n + 1) / 4) p q = _
      rw [acc4_apply c p q n (Nat.lt_of_succ_lt hn)]
      have h1 : (n + 1) % 4 = n % 4 + 1 := by omega
      have h2 : (n + 1) / 4 = n / 4 := by omega
      rw [h1, h2]; rfl

theorem part4_three (c : Dev nD) (j : ℕ) (p : Fin 512) (q : Fin 1024) :
    part4 V c j p q 3 = ∑ k : Fin 4, term4 V c k.val j p q := by
  rw [Fin.sum_univ_four]
  show 0 + term4 V c 0 j p q + term4 V c 1 j p q + term4 V c 2 j p q + term4 V c 3 j p q = _
  rw [zero_add]; rfl

def G4 (c : Dev nD) : S512x8192.Idx → EReal := fun i =>
  Cert.Spec.logits (fun k b d => V c main_v45 (ix2 (Cert.Spec.row k b) d)) (fun n d => V c main_v46 (ix2 n d))
    (fun k n => V c main_v25 (ix2 k n)) ⟨(i 0).val, idx2_lt0 i⟩ ⟨(i 1).val, idx2_lt1 i⟩

theorem G4_apply (c : Dev nD) (i : S512x8192.Idx) (j : ℕ) (hj : j < 8) (p : Fin 512) (q : Fin 1024)
    (h0 : (i 0).val = p.val) (h1 : (i 1).val = j * 1024 + q.val) :
    G4 V c i = Ideal.log (∑ k : Fin 4, term4 V c k.val j p q) := by
  have eb : (⟨(i 0).val, idx2_lt0 i⟩ : Fin 512) = p := Fin.ext h0
  have en : (⟨(i 1).val, idx2_lt1 i⟩ : Fin 8192) = icol j q :=
    Fin.ext (by show _ = j % 8 * 1024 + q.val; rw [Nat.mod_eq_of_lt hj, h1])
  unfold G4 Cert.Spec.logits
  rw [eb, en]
  refine congrArg Ideal.log (Finset.sum_congr rfl fun k _ => ?_)
  unfold term4
  have ek : kfin k.val = k := Fin.ext (Nat.mod_eq_of_lt k.isLt)
  have ez : zrow k.val p = Cert.Spec.row k p := congrArg (fun x => Cert.Spec.row x p) ek
  rw [ek, ez]

theorem flushed4_eq (c : Dev nD) (t : Fin cfg4.N) (hf : (cfg4.win 3).flush t = true) :
    (dat4 (F := Ideal) V c).flushed 3 t = ((cfg4.win 3).blk t).view.read (Elt Ideal) (G4 V c) := by
  have h3 : t.val % 4 = 3 := (flush4_3 t).mp hf
  have hN : t.val < 32 := lt_of_lt_of_eq t.isLt (show cfg4.N = 32 from N_4)
  obtain ⟨-, -, -, -, -, -, e0, e1, -⟩ := idx4 t
  show (cfg4.win 3).cut (grid4.coords t) ((dat4 (F := Ideal) V c).after 3 t) = _
  rw [after4_3]
  funext j
  obtain ⟨p, q, rfl⟩ : ∃ (p : Fin 512) (q : Fin 1024), j = ix2 p q := ⟨j 0, j 1, eq_ix2 j⟩
  show Ideal.log (acc4 V c t.val t.isLt (ix2 p q)) = G4 V c (((cfg4.win 3).blk t).view.emb (ix2 p q))
  rw [acc4_apply V c p q t.val t.isLt, h3, part4_three]
  refine (G4_apply V c _ (t.val / 4) (by omega) p q ?_ ?_).symm
  · show win4_3.index t (0 : Fin 2) * 512 + 1 * p.val = p.val; rw [e0]; omega
  · show win4_3.index t (1 : Fin 2) * 1024 + 1 * q.val = t.val / 4 * 1024 + q.val; rw [e1]; omega

theorem mem_blk4 (t : Fin cfg4.N) (i : S512x8192.Idx) :
    i ∈ ((cfg4.win 3).blk t).view.set ↔ ∀ a : Fin 2, win4_3.index t a * S512x1024.size a ≤ (i a).val ∧ (i a).val < win4_3.index t a * S512x1024.size a + S512x1024.size a := by
  show i ∈ ((View.whole main_v47).slice (win4_3.rect t)).set ↔ _
  rw [View.set_slice_whole, Rect.mem_set_unit]
  exact Iff.rfl

theorem cover4 (i : S512x8192.Idx) : ∃ t : Fin cfg4.N, (cfg4.win 3).flush t = true ∧ i ∈ ((cfg4.win 3).blk t).view.set := by
  have hi0 : (i 0).val < 512 := idx2_lt0 i
  have hi1 : (i 1).val < 8192 := idx2_lt1 i
  have hN : cfg4.N = 32 := N_4
  have hlt : (i 1).val / 1024 * 4 + 3 < cfg4.N := by rw [hN]; omega
  obtain ⟨-, -, -, -, -, -, e0, e1, -⟩ := idx4 ⟨(i 1).val / 1024 * 4 + 3, hlt⟩
  refine ⟨⟨(i 1).val / 1024 * 4 + 3, hlt⟩, (flush4_3 _).mpr (by show ((i 1).val / 1024 * 4 + 3) % 4 = 3; omega), ?_⟩
  rw [mem_blk4]
  intro a
  match a with
  | ⟨0, _⟩ =>
    show win4_3.index ⟨(i 1).val / 1024 * 4 + 3, hlt⟩ (0 : Fin 2) * 512 ≤ (i 0).val ∧ (i 0).val < win4_3.index ⟨(i 1).val / 1024 * 4 + 3, hlt⟩ (0 : Fin 2) * 512 + 512
    rw [e0]; omega
  | ⟨1, _⟩ =>
    show win4_3.index ⟨(i 1).val / 1024 * 4 + 3, hlt⟩ (1 : Fin 2) * 1024 ≤ (i 1).val ∧ (i 1).val < win4_3.index ⟨(i 1).val / 1024 * 4 + 3, hlt⟩ (1 : Fin 2) * 1024 + 1024
    rw [e1]; show ((i 1).val / 1024 * 4 + 3) / 4 * 1024 ≤ (i 1).val ∧ (i 1).val < ((i 1).val / 1024 * 4 + 3) / 4 * 1024 + 1024; omega

end Cert.KernelIdeal.HandValue.Logits

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx

/-- Entry (b, n) of the output is log (0 + t₀ + t₁ + t₂ + t₃) with t_k = exp⟨z[k,b], item[n]⟩ · c[k,n]. -/
theorem final4 (V : (c : Dev nD) → (b : Ref sig .tc) → Buf (Elt Ideal) ((c : Thread nD τ).loc b)) (c : Dev nD) (b : Fin 512) (n : Fin 8192) :
    (dat4 (F := Ideal) V c).arrAt 3 cfg4.N (ValueIdx.ix2 b n)
      = Cert.Spec.logits (fun k b d => V c main_v45 (ValueIdx.ix2 (Cert.Spec.row k b) d)) (fun n d => V c main_v46 (ValueIdx.ix2 n d))
          (fun k n => V c main_v25 (ValueIdx.ix2 k n)) b n := by
  rw [(dat4 (F := Ideal) V c).arrAt_eq_of_cover 3 (Logits.G4 V c) (Logits.flushed4_eq V c) Logits.cover4]
  rfl

end Cert.KernelIdeal.HandValue

end
-- ==== Proof.RefStages.lean ====
import proofs.«408051_j35570919145766_3_alg».proof.Proof.RefRead
import proofs.«408051_j35570919145766_3_alg».proof.Proof.Spec

noncomputable section

namespace Cert.ReferenceIdeal.RefStages

open Cert.ReferenceIdeal Cert.ReferenceIdeal.Gen Cert.ReferenceIdeal.Read Idealize.ShloMosaic Idealize.ShloMosaic.ValueIdx

abbrev Arr (S : Shape) : Type := (⟨S, .f32⟩ : BufTy).Contents (Elt Ideal)

theorem word_eps : Ideal.ofBits .f32 0x2B8CBCCC#32 = Cert.Spec.eps := by
  unfold Cert.Spec.eps
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; norm_num

theorem masked_read (x0 : Arr S512x8192) (x2 : Arr S8192x64) (x3 : Arr S4x64) (k : Fin 4) (b : Fin 512) (n : Fin 8192) :
    val_main_v30 (F := Ideal) x0 x2 x3 (ix3 k b n)
      = Cert.Spec.masked (fun b n => x0 (ix2 b n)) (fun k n => val_main_v26 (F := Ideal) x2 x3 (ix2 k n)) k b n := by
  have e0 : idx_main_v25 (idx_main_v28 (ix3 k b n)) = ix2 b n :=
    funext fun a => Fin.ext (by match a with | ⟨0, _⟩ => rfl | ⟨1, _⟩ => rfl)
  have e1 : idx_main_v27 (idx_main_v29 (ix3 k b n)) = ix2 k n :=
    funext fun a => Fin.ext (by match a with | ⟨0, _⟩ => rfl | ⟨1, _⟩ => rfl)
  rw [val_main_v30_apply, val_main_v28_apply, val_main_v25_apply, val_main_v29_apply, val_main_v27_apply, e0, e1]
  rfl

theorem sumSq_read (x0 : Arr S512x8192) (x2 : Arr S8192x64) (x3 : Arr S4x64) (k : Fin 4) (b : Fin 512) :
    val_main_call2_v1 (F := Ideal) x0 x2 x3 (ix2 k b)
      = Cert.Spec.sumSq (fun b n => x0 (ix2 b n)) (fun k n => val_main_v26 (F := Ideal) x2 x3 (ix2 k n)) k b := by
  rw [val_main_call2_v1_apply, val_main_call2_cst_apply, Ideal.ofBits_def, Ideal.ofBits_zero_f32, zero_add]
  unfold Cert.Spec.sumSq
  refine Finset.sum_congr rfl fun j _ => ?_
  have e : idx_main_call2_v1 (ix2 k b) j = ix3 k b j :=
    funext fun a => Fin.ext (by match a with | ⟨0, _⟩ => rfl | ⟨1, _⟩ => rfl | ⟨2, _⟩ => rfl)
  rw [e, val_main_call2_v0_apply, masked_read]
  rfl

theorem sumSq_nonneg (r : Fin 512 → Fin 8192 → EReal) (c : Fin 4 → Fin 8192 → EReal) (k : Fin 4) (b : Fin 512) :
    0 ≤ Cert.Spec.sumSq r c k b :=
  Finset.sum_nonneg fun _ _ => Cert.Spec.mul_self_nonneg' _

/-- The reference's masked row scaled to unit length, read at (k, b, n). -/
theorem unitRow_read (x0 : Arr S512x8192) (x2 : Arr S8192x64) (x3 : Arr S4x64) (k : Fin 4) (b : Fin 512) (n : Fin 8192) :
    val_main_v35 (F := Ideal) x0 x2 x3 (ix3 k b n)
      = Cert.Spec.unitRow (fun b n => x0 (ix2 b n)) (fun k n => val_main_v26 (F := Ideal) x2 x3 (ix2 k n)) k b n := by
  have e : idx_main_call2_v2 (idx_main_v34 (ix3 k b n)) = ix2 k b :=
    funext fun a => Fin.ext (by match a with | ⟨0, _⟩ => rfl | ⟨1, _⟩ => rfl)
  rw [val_main_v35_apply, val_main_v34_apply, val_main_v33_apply, val_main_v31_apply, val_main_call2_v2_apply,
    val_main_v32_apply, val_main_cst_5_apply, e, sumSq_read, masked_read]
  unfold Cert.Spec.unitRow
  rw [Cert.Spec.rsqrt_clamp _ _ (sumSq_nonneg _ _ k b)]
  simp only [Ideal.hostDivf_def, Ideal.maximumf_def, Ideal.hostUnary_sqrt_def, Ideal.ofBits_def, word_eps]

/-- One hop at (k, b, n) is Σ_j x[k,b,j] · A[j,n]. -/
theorem hop1_read (x0 : Arr S512x8192) (x1 : Arr S8192x8192) (x2 : Arr S8192x64) (x3 : Arr S4x64)
    (k : Fin 4) (b : Fin 512) (n : Fin 8192) :
    val_main_v36 (F := Ideal) x0 x1 x2 x3 (ix3 k b n)
      = Cert.Spec.hop (fun k b j => val_main_v35 (F := Ideal) x0 x2 x3 (ix3 k b j)) (fun j n => x1 (ix2 j n)) k b n := by
  rw [val_main_v36_apply]
  unfold Cert.Spec.hop
  refine Finset.sum_congr rfl fun j _ => ?_
  have el : lidx_main_v36 (ix3 k b n) j = ix3 k b j :=
    funext fun a => Fin.ext (by match a with | ⟨0, _⟩ => rfl | ⟨1, _⟩ => rfl | ⟨2, _⟩ => rfl)
  have er : ridx_main_v36 (ix3 k b n) j = ix2 j n :=
    funext fun a => Fin.ext (by match a with | ⟨0, _⟩ => rfl | ⟨1, _⟩ => rfl)
  rw [el, er]

theorem hop2_read (x0 : Arr S512x8192) (x1 : Arr S8192x8192) (x2 : Arr S8192x64) (x3 : Arr S4x64)
    (k : Fin 4) (b : Fin 512) (n : Fin 8192) :
    val_main_v37 (F := Ideal) x0 x1 x2 x3 (ix3 k b n)
      = Cert.Spec.hop (fun k b j => val_main_v36 (F := Ideal) x0 x1 x2 x3 (ix3 k b j)) (fun j n => x1 (ix2 j n)) k b n := by
  rw [val_main_v37_apply]
  unfold Cert.Spec.hop
  refine Finset.sum_congr rfl fun j _ => ?_
  have el : lidx_main_v37 (ix3 k b n) j = ix3 k b j :=
    funext fun a => Fin.ext (by match a with | ⟨0, _⟩ => rfl | ⟨1, _⟩ => rfl | ⟨2, _⟩ => rfl)
  have er : ridx_main_v37 (ix3 k b n) j = ix2 j n :=
    funext fun a => Fin.ext (by match a with | ⟨0, _⟩ => rfl | ⟨1, _⟩ => rfl)
  rw [el, er]

theorem mean_read (x0 : Arr S512x8192) (x1 : Arr S8192x8192) (x2 : Arr S8192x64) (x3 : Arr S4x64)
    (k : Fin 4) (b : Fin 512) (j : Fin 8192) :
    val_main_v40 (F := Ideal) x0 x1 x2 x3 (ix3 k b j)
      = (val_main_v37 (F := Ideal) x0 x1 x2 x3 (ix3 k b j) + val_main_v35 (F := Ideal) x0 x2 x3 (ix3 k b j)) * Cert.Spec.half := by
  rw [val_main_v40_apply, val_main_v38_apply, val_main_v39_apply, val_main_cst_6_apply]
  simp only [Ideal.hostDivf_def, Ideal.addf_def, Ideal.ofBits_def, word_two]
  exact Cert.Spec.div_two _

/-- The encoder at (k, b, o) is Σ_n ((T + X)/2)[k,b,n] · W[o,n] + bias[o]. -/
theorem encode_read (x0 : Arr S512x8192) (x1 : Arr S8192x8192) (x2 : Arr S8192x64) (x3 : Arr S4x64) (x4 : Arr S128x8192)
    (x5 : Arr S128) (k : Fin 4) (b : Fin 512) (o : Fin 128) :
    val_main_v44 (F := Ideal) x0 x1 x2 x3 x4 x5 (ix3 k b o)
      = Cert.Spec.encode (fun k b j => val_main_v37 (F := Ideal) x0 x1 x2 x3 (ix3 k b j))
          (fun k b j => val_main_v35 (F := Ideal) x0 x2 x3 (ix3 k b j)) (fun o j => x4 (ix2 o j)) (fun o => x5 (ix1 o)) k b o := by
  have eb : idx_main_v42 (idx_main_v43 (ix3 k b o)) = ix1 o :=
    funext fun a => Fin.ext (by match a with | ⟨0, _⟩ => rfl)
  rw [val_main_v44_apply, val_main_v41_apply, val_main_v43_apply, val_main_v42_apply, eb]
  unfold Cert.Spec.encode
  simp only [Ideal.addf_def]
  refine congrArg (· + x5 (ix1 o)) (Finset.sum_congr rfl fun j _ => ?_)
  have el : lidx_main_v41 (ix3 k b o) j = ix3 k b j :=
    funext fun a => Fin.ext (by match a with | ⟨0, _⟩ => rfl | ⟨1, _⟩ => rfl | ⟨2, _⟩ => rfl)
  have er : ridx_main_v41 (ix3 k b o) j = ix2 o j :=
    funext fun a => Fin.ext (by match a with | ⟨0, _⟩ => rfl | ⟨1, _⟩ => rfl)
  rw [el, er, mean_read]

theorem cates_again (x2 : Arr S8192x64) (x3 : Arr S4x64) :
    val_main_v62 (F := Ideal) x2 x3 = val_main_v26 (F := Ideal) x2 x3 := rfl

theorem term_read (x0 : Arr S512x8192) (x1 : Arr S8192x8192) (x2 : Arr S8192x64) (x3 : Arr S4x64) (x4 : Arr S128x8192)
    (x5 : Arr S128) (k : Fin 4) (b : Fin 512) (n : Fin 8192) :
    val_main_v65 (F := Ideal) x0 x1 x2 x3 x4 x5 (ix3 k b n)
      = Ideal.exp (∑ d : Fin 64, val_main_v57 (F := Ideal) x0 x1 x2 x3 x4 x5 (ix3 k b d) * val_main_v9 (F := Ideal) x2 (ix2 n d))
          * val_main_v26 (F := Ideal) x2 x3 (ix2 k n) := by
  have ec : idx_main_v63 (idx_main_v64 (ix3 k b n)) = ix2 k n :=
    funext fun a => Fin.ext (by match a with | ⟨0, _⟩ => rfl | ⟨1, _⟩ => rfl)
  rw [val_main_v65_apply, val_main_v61_apply, val_main_v60_apply, val_main_v58_apply, val_main_v59_apply,
    val_main_cst_9_apply, val_main_v64_apply, val_main_v63_apply, ec, cates_again]
  simp only [Ideal.mulf_def, Ideal.hostUnary_exp_def, Ideal.hostDivf_def, Ideal.ofBits_def, word_one]
  rw [Cert.Spec.div_one']
  refine congrArg (fun s => Ideal.exp s * val_main_v26 (F := Ideal) x2 x3 (ix2 k n)) (Finset.sum_congr rfl fun d _ => ?_)
  have el : lidx_main_v58 (ix3 k b n) d = ix3 k b d :=
    funext fun a => Fin.ext (by match a with | ⟨0, _⟩ => rfl | ⟨1, _⟩ => rfl | ⟨2, _⟩ => rfl)
  have er : ridx_main_v58 (ix3 k b n) d = ix2 n d :=
    funext fun a => Fin.ext (by match a with | ⟨0, _⟩ => rfl | ⟨1, _⟩ => rfl)
  rw [el, er]

/-- The logits at (b, n) are log Σ_k exp⟨z[k,b], item[n]⟩ · c[k,n]. -/
theorem logits_read (x0 : Arr S512x8192) (x1 : Arr S8192x8192) (x2 : Arr S8192x64) (x3 : Arr S4x64) (x4 : Arr S128x8192)
    (x5 : Arr S128) (b : Fin 512) (n : Fin 8192) :
    val_main_v67 (F := Ideal) x0 x1 x2 x3 x4 x5 (ix2 b n)
      = Cert.Spec.logits (fun k b d => val_main_v57 (F := Ideal) x0 x1 x2 x3 x4 x5 (ix3 k b d))
          (fun n d => val_main_v9 (F := Ideal) x2 (ix2 n d)) (fun k n => val_main_v26 (F := Ideal) x2 x3 (ix2 k n)) b n := by
  rw [val_main_v67_apply, val_main_v66_apply, val_main_cst_10_apply, Ideal.ofBits_def, Ideal.ofBits_zero_f32, zero_add]
  unfold Cert.Spec.logits
  simp only [Ideal.hostUnary_log_def]
  refine congrArg Ideal.log (Finset.sum_congr rfl fun k _ => ?_)
  have e : idx_main_v66 (ix2 b n) k = ix3 k b n :=
    funext fun a => Fin.ext (by match a with | ⟨0, _⟩ => rfl | ⟨1, _⟩ => rfl | ⟨2, _⟩ => rfl)
  rw [e, term_read]

end Cert.ReferenceIdeal.RefStages

end
-- ==== Proof.HostShared.lean ====
import proofs.«408051_j35570919145766_3_alg».proof.Proof.Gen.KernelIdeal.Regions
import proofs.«408051_j35570919145766_3_alg».proof.Proof.RefRead

noncomputable section

namespace Cert.KernelIdeal.HostShared

open Cert.KernelIdeal Cert.KernelIdeal.Gen Idealize.ShloMosaic Idealize.ShloMosaic.TcCoe Idealize.SL.Sem Idealize.ShloMosaic.StableHlo

section Functions

variable {F : FTy → Type} [FloatOps F]

def hOf (X : (⟨S2048x128, .f32⟩ : BufTy).Contents (Elt F)) : (⟨S4x512x128, .f32⟩ : BufTy).Contents (Elt F) :=
  shapeCast S4x512x128 X shapeCasts_S2048x128_S4x512x128

def normRows (s : (⟨S4x512x64, .f32⟩ : BufTy).Contents (Elt F)) : (⟨S4x512x64, .f32⟩ : BufTy).Contents (Elt F) :=
  Host.divf s
    (broadcastInDim S4x512x64 ![0, 1, 2] bcast_S4x512x1_S4x512x64_0_1_2
      (maximumf
        (Host.sqrt
          (broadcastInDim S4x512x1 ![0, 1] bcast_S4x512_S4x512x1_0_1
            (Host.reduceAdd (mulf s s) (constant S_ .f32 0x00000000#32) reducesTo_S4x512x64_S4x512_d2 h_S_)))
        (broadcastInDim S4x512x1 ![] bcast_S_S4x512x1 (constant S_ .f32 0x2B8CBCCC#32))))

def muOf (h : (⟨S4x512x128, .f32⟩ : BufTy).Contents (Elt F)) : (⟨S4x512x64, .f32⟩ : BufTy).Contents (Elt F) :=
  normRows (extractStridedSlice S4x512x64 ![0, 0, 0] h slices_S4x512x128_S4x512x64_0_0_0)

def logvarOf (h : (⟨S4x512x128, .f32⟩ : BufTy).Contents (Elt F)) : (⟨S4x512x64, .f32⟩ : BufTy).Contents (Elt F) :=
  Host.negf (extractStridedSlice S4x512x64 ![0, 0, 64] h slices_S4x512x128_S4x512x64_0_0_64)

def zOf (h : (⟨S4x512x128, .f32⟩ : BufTy).Contents (Elt F)) : (⟨S4x512x64, .f32⟩ : BufTy).Contents (Elt F) :=
  normRows (muOf h)

theorem ref_mu (x0 : (⟨Cert.ReferenceIdeal.S512x8192, .f32⟩ : BufTy).Contents (Elt F)) (x1 : (⟨Cert.ReferenceIdeal.S8192x8192, .f32⟩ : BufTy).Contents (Elt F))
    (x2 : (⟨Cert.ReferenceIdeal.S8192x64, .f32⟩ : BufTy).Contents (Elt F)) (x3 : (⟨Cert.ReferenceIdeal.S4x64, .f32⟩ : BufTy).Contents (Elt F))
    (x4 : (⟨Cert.ReferenceIdeal.S128x8192, .f32⟩ : BufTy).Contents (Elt F)) (x5 : (⟨Cert.ReferenceIdeal.S128, .f32⟩ : BufTy).Contents (Elt F)) :
    Cert.ReferenceIdeal.Read.val_main_v50 (F := F) x0 x1 x2 x3 x4 x5 = muOf (Cert.ReferenceIdeal.Read.val_main_v44 (F := F) x0 x1 x2 x3 x4 x5) := rfl

theorem ref_logvar (x0 : (⟨Cert.ReferenceIdeal.S512x8192, .f32⟩ : BufTy).Contents (Elt F)) (x1 : (⟨Cert.ReferenceIdeal.S8192x8192, .f32⟩ : BufTy).Contents (Elt F))
    (x2 : (⟨Cert.ReferenceIdeal.S8192x64, .f32⟩ : BufTy).Contents (Elt F)) (x3 : (⟨Cert.ReferenceIdeal.S4x64, .f32⟩ : BufTy).Contents (Elt F))
    (x4 : (⟨Cert.ReferenceIdeal.S128x8192, .f32⟩ : BufTy).Contents (Elt F)) (x5 : (⟨Cert.ReferenceIdeal.S128, .f32⟩ : BufTy).Contents (Elt F)) :
    Cert.ReferenceIdeal.Read.val_main_v52 (F := F) x0 x1 x2 x3 x4 x5 = logvarOf (Cert.ReferenceIdeal.Read.val_main_v44 (F := F) x0 x1 x2 x3 x4 x5) := rfl

theorem ref_z (x0 : (⟨Cert.ReferenceIdeal.S512x8192, .f32⟩ : BufTy).Contents (Elt F)) (x1 : (⟨Cert.ReferenceIdeal.S8192x8192, .f32⟩ : BufTy).Contents (Elt F))
    (x2 : (⟨Cert.ReferenceIdeal.S8192x64, .f32⟩ : BufTy).Contents (Elt F)) (x3 : (⟨Cert.ReferenceIdeal.S4x64, .f32⟩ : BufTy).Contents (Elt F))
    (x4 : (⟨Cert.ReferenceIdeal.S128x8192, .f32⟩ : BufTy).Contents (Elt F)) (x5 : (⟨Cert.ReferenceIdeal.S128, .f32⟩ : BufTy).Contents (Elt F)) :
    Cert.ReferenceIdeal.Read.val_main_v57 (F := F) x0 x1 x2 x3 x4 x5 = zOf (Cert.ReferenceIdeal.Read.val_main_v44 (F := F) x0 x1 x2 x3 x4 x5) := rfl

end Functions

variable {F : FTy → Type} [FloatOps F] [Named F]

/-- The host operations after the encoder are the reference's own, so these hold for any float values by unfolding. -/
theorem tail_mu (Vin : Valuation τ sig (Elt F)) (X : (⟨S2048x128, .f32⟩ : BufTy).Contents (Elt F)) (hX : Vin main_v29 = X) :
    StableHlo.after hostOps4_2 (StableHlo.after hostOps4_1 (StableHlo.after hostOps4 Vin)) main_v36 = muOf (hOf X) := by
  subst hX
  dsimp only [Gen.hostOps4_2, Gen.hostOps4_1, Gen.hostOps4]
  after_results_simp <;> rfl

theorem tail_logvar (Vin : Valuation τ sig (Elt F)) (X : (⟨S2048x128, .f32⟩ : BufTy).Contents (Elt F)) (hX : Vin main_v29 = X) :
    StableHlo.after hostOps4_2 (StableHlo.after hostOps4_1 (StableHlo.after hostOps4 Vin)) main_v38 = logvarOf (hOf X) := by
  subst hX
  dsimp only [Gen.hostOps4_2, Gen.hostOps4_1, Gen.hostOps4]
  after_results_simp <;> rfl

theorem tail_z (Vin : Valuation τ sig (Elt F)) (Y : (⟨S4x512x64, .f32⟩ : BufTy).Contents (Elt F)) (hY : Vin main_v36 = Y) :
    StableHlo.after hostOps4_4 (StableHlo.after hostOps4_3 Vin) main_v45
      = truncf .bf16 (shapeCast S2048x64 (normRows Y) shapeCasts_S4x512x64_S2048x64) bitsLt_bf16_f32 := by
  subst hY
  dsimp only [Gen.hostOps4_4, Gen.hostOps4_3]
  after_results_simp <;> rfl

theorem tail_items (Vin : Valuation τ sig (Elt F)) (I : (⟨S8192x64, .f32⟩ : BufTy).Contents (Elt F)) (hI : Vin main_v9 = I) :
    StableHlo.after hostOps4_4 (StableHlo.after hostOps4_3 Vin) main_v46 = truncf .bf16 I bitsLt_bf16_f32 := by
  subst hI
  dsimp only [Gen.hostOps4_4, Gen.hostOps4_3]
  after_results_simp <;> rfl

variable (m : (ℓ : Loc nD τ sig) → Buf (Elt F) ℓ)

theorem V4_main_v9 (c : Dev nD) :
    Gen.V4 (F := F) m c main_v9 = Cert.ReferenceIdeal.Read.val_main_v9 (F := F) (m ((c : Thread nD τ).loc main_arg2)) := by
  dsimp only [Gen.V4, Gen.V3, Gen.V2, Gen.V1, Gen.V0, Gen.hostOps0_3, Gen.hostOps0_2, Gen.hostOps0_1, Gen.hostOps0]
  after_results_simp <;> rfl

theorem V4_main_v25 (c : Dev nD) :
    Gen.V4 (F := F) m c main_v25
      = Cert.ReferenceIdeal.Read.val_main_v26 (F := F) (m ((c : Thread nD τ).loc main_arg2)) (m ((c : Thread nD τ).loc main_arg3)) := by
  dsimp only [Gen.V4, Gen.V3, Gen.V2, Gen.V1, Gen.V0, Gen.hostOps0_3, Gen.hostOps0_2, Gen.hostOps0_1, Gen.hostOps0]
  after_results_simp <;> rfl

theorem V4_main_arg0 (c : Dev nD) : Gen.V4 (F := F) m c main_arg0 = m ((c : Thread nD τ).loc main_arg0) :=
  (V4_of m c main_arg0 (by decide)).trans <| (V3_of m c main_arg0 (by decide)).trans <| (V2_of m c main_arg0 (by decide)).trans <| (V1_of m c main_arg0 (by decide)).trans <| rfl
theorem V4_main_arg1 (c : Dev nD) : Gen.V4 (F := F) m c main_arg1 = m ((c : Thread nD τ).loc main_arg1) :=
  (V4_of m c main_arg1 (by decide)).trans <| (V3_of m c main_arg1 (by decide)).trans <| (V2_of m c main_arg1 (by decide)).trans <| (V1_of m c main_arg1 (by decide)).trans <| rfl
theorem V4_main_arg2 (c : Dev nD) : Gen.V4 (F := F) m c main_arg2 = m ((c : Thread nD τ).loc main_arg2) :=
  (V4_of m c main_arg2 (by decide)).trans <| (V3_of m c main_arg2 (by decide)).trans <| (V2_of m c main_arg2 (by decide)).trans <| (V1_of m c main_arg2 (by decide)).trans <| rfl
theorem V4_main_arg3 (c : Dev nD) : Gen.V4 (F := F) m c main_arg3 = m ((c : Thread nD τ).loc main_arg3) :=
  (V4_of m c main_arg3 (by decide)).trans <| (V3_of m c main_arg3 (by decide)).trans <| (V2_of m c main_arg3 (by decide)).trans <| (V1_of m c main_arg3 (by decide)).trans <| rfl
theorem V4_main_arg4 (c : Dev nD) : Gen.V4 (F := F) m c main_arg4 = m ((c : Thread nD τ).loc main_arg4) :=
  (V4_of m c main_arg4 (by decide)).trans <| (V3_of m c main_arg4 (by decide)).trans <| (V2_of m c main_arg4 (by decide)).trans <| (V1_of m c main_arg4 (by decide)).trans <| rfl
theorem V4_main_arg5 (c : Dev nD) : Gen.V4 (F := F) m c main_arg5 = m ((c : Thread nD τ).loc main_arg5) :=
  (V4_of m c main_arg5 (by decide)).trans <| (V3_of m c main_arg5 (by decide)).trans <| (V2_of m c main_arg5 (by decide)).trans <| (V1_of m c main_arg5 (by decide)).trans <| rfl

variable (outs : Outs (F := F))

theorem V8_main_v29 (c : Dev nD) : Gen.V8 m outs c main_v29 = outs 8 main_v29 c := by
  simp only [Gen.V8, Function.update_self]

theorem V11_main_v36 (c : Dev nD) : Gen.V11 m outs c main_v36 = muOf (hOf (outs 8 main_v29 c)) :=
  tail_mu (Gen.V8 m outs c) _ (V8_main_v29 m outs c)

theorem V11_main_v38 (c : Dev nD) : Gen.V11 m outs c main_v38 = logvarOf (hOf (outs 8 main_v29 c)) :=
  tail_logvar (Gen.V8 m outs c) _ (V8_main_v29 m outs c)

theorem V11_main_v9 (c : Dev nD) :
    Gen.V11 m outs c main_v9 = Cert.ReferenceIdeal.Read.val_main_v9 (F := F) (m ((c : Thread nD τ).loc main_arg2)) :=
  (V11_of m outs c main_v9 (by decide)).trans <| (V10_of m outs c main_v9 (by decide)).trans <| (V9_of m outs c main_v9 (by decide)).trans <| (V8_of m outs c main_v9 (by decide)).trans <| (V7_of m outs c main_v9 (by decide)).trans <| (V6_of m outs c main_v9 (by decide)).trans <| (V5_of m outs c main_v9 (by decide)).trans <| V4_main_v9 m c

theorem V13_main_v45 (c : Dev nD) :
    Gen.V13 m outs c main_v45
      = truncf .bf16 (shapeCast S2048x64 (zOf (hOf (outs 8 main_v29 c))) shapeCasts_S4x512x64_S2048x64) bitsLt_bf16_f32 :=
  tail_z (Gen.V11 m outs c) _ (V11_main_v36 m outs c)

theorem V13_main_v46 (c : Dev nD) :
    Gen.V13 m outs c main_v46
      = truncf .bf16 (Cert.ReferenceIdeal.Read.val_main_v9 (F := F) (m ((c : Thread nD τ).loc main_arg2))) bitsLt_bf16_f32 :=
  tail_items (Gen.V11 m outs c) _ (V11_main_v9 m outs c)

theorem V13_main_v25 (c : Dev nD) :
    Gen.V13 m outs c main_v25
      = Cert.ReferenceIdeal.Read.val_main_v26 (F := F) (m ((c : Thread nD τ).loc main_arg2)) (m ((c : Thread nD τ).loc main_arg3)) :=
  (V13_of m outs c main_v25 (by decide)).trans <| (V12_of m outs c main_v25 (by decide)).trans <| (V11_of m outs c main_v25 (by decide)).trans <| (V10_of m outs c main_v25 (by decide)).trans <| (V9_of m outs c main_v25 (by decide)).trans <| (V8_of m outs c main_v25 (by decide)).trans <| (V7_of m outs c main_v25 (by decide)).trans <| (V6_of m outs c main_v25 (by decide)).trans <| (V5_of m outs c main_v25 (by decide)).trans <| V4_main_v25 m c

theorem V14_main_v36 (c : Dev nD) : Gen.V14 m outs c main_v36 = muOf (hOf (outs 8 main_v29 c)) :=
  (V14_of m outs c main_v36 (by decide)).trans <| (V13_of m outs c main_v36 (by decide)).trans <| (V12_of m outs c main_v36 (by decide)).trans <| V11_main_v36 m outs c

theorem V14_main_v38 (c : Dev nD) : Gen.V14 m outs c main_v38 = logvarOf (hOf (outs 8 main_v29 c)) :=
  (V14_of m outs c main_v38 (by decide)).trans <| (V13_of m outs c main_v38 (by decide)).trans <| (V12_of m outs c main_v38 (by decide)).trans <| V11_main_v38 m outs c

theorem V14_main_v36_ref (c : Dev nD) (x0 : (⟨Cert.ReferenceIdeal.S512x8192, .f32⟩ : BufTy).Contents (Elt F)) (x1 : (⟨Cert.ReferenceIdeal.S8192x8192, .f32⟩ : BufTy).Contents (Elt F))
    (x2 : (⟨Cert.ReferenceIdeal.S8192x64, .f32⟩ : BufTy).Contents (Elt F)) (x3 : (⟨Cert.ReferenceIdeal.S4x64, .f32⟩ : BufTy).Contents (Elt F))
    (x4 : (⟨Cert.ReferenceIdeal.S128x8192, .f32⟩ : BufTy).Contents (Elt F)) (x5 : (⟨Cert.ReferenceIdeal.S128, .f32⟩ : BufTy).Contents (Elt F))
    (h : hOf (outs 8 main_v29 c) = Cert.ReferenceIdeal.Read.val_main_v44 (F := F) x0 x1 x2 x3 x4 x5) :
    Gen.V14 m outs c main_v36 = Cert.ReferenceIdeal.Read.val_main_v50 (F := F) x0 x1 x2 x3 x4 x5 := by
  rw [V14_main_v36, h, ref_mu]

theorem V14_main_v38_ref (c : Dev nD) (x0 : (⟨Cert.ReferenceIdeal.S512x8192, .f32⟩ : BufTy).Contents (Elt F)) (x1 : (⟨Cert.ReferenceIdeal.S8192x8192, .f32⟩ : BufTy).Contents (Elt F))
    (x2 : (⟨Cert.ReferenceIdeal.S8192x64, .f32⟩ : BufTy).Contents (Elt F)) (x3 : (⟨Cert.ReferenceIdeal.S4x64, .f32⟩ : BufTy).Contents (Elt F))
    (x4 : (⟨Cert.ReferenceIdeal.S128x8192, .f32⟩ : BufTy).Contents (Elt F)) (x5 : (⟨Cert.ReferenceIdeal.S128, .f32⟩ : BufTy).Contents (Elt F))
    (h : hOf (outs 8 main_v29 c) = Cert.ReferenceIdeal.Read.val_main_v44 (F := F) x0 x1 x2 x3 x4 x5) :
    Gen.V14 m outs c main_v38 = Cert.ReferenceIdeal.Read.val_main_v52 (F := F) x0 x1 x2 x3 x4 x5 := by
  rw [V14_main_v38, h, ref_logvar]

theorem V13_main_v45_ref (c : Dev nD) (x0 : (⟨Cert.ReferenceIdeal.S512x8192, .f32⟩ : BufTy).Contents (Elt F)) (x1 : (⟨Cert.ReferenceIdeal.S8192x8192, .f32⟩ : BufTy).Contents (Elt F))
    (x2 : (⟨Cert.ReferenceIdeal.S8192x64, .f32⟩ : BufTy).Contents (Elt F)) (x3 : (⟨Cert.ReferenceIdeal.S4x64, .f32⟩ : BufTy).Contents (Elt F))
    (x4 : (⟨Cert.ReferenceIdeal.S128x8192, .f32⟩ : BufTy).Contents (Elt F)) (x5 : (⟨Cert.ReferenceIdeal.S128, .f32⟩ : BufTy).Contents (Elt F))
    (h : hOf (outs 8 main_v29 c) = Cert.ReferenceIdeal.Read.val_main_v44 (F := F) x0 x1 x2 x3 x4 x5) :
    Gen.V13 m outs c main_v45
      = truncf .bf16 (shapeCast S2048x64 (Cert.ReferenceIdeal.Read.val_main_v57 (F := F) x0 x1 x2 x3 x4 x5) shapeCasts_S4x512x64_S2048x64) bitsLt_bf16_f32 := by
  rw [V13_main_v45, h, ref_z]

theorem V5_main_v26 (c : Dev nD) : Gen.V5 m outs c main_v26 = outs 5 main_v26 c := by
  simp only [Gen.V5, Function.update_self]

end Cert.KernelIdeal.HostShared

end
-- ==== Proof.Bridge.lean ====
import proofs.«408051_j35570919145766_3_alg».proof.Proof.Gen.KernelIdeal.Regions
import proofs.«408051_j35570919145766_3_alg».proof.Proof.Value0
import proofs.«408051_j35570919145766_3_alg».proof.Proof.Value1
import proofs.«408051_j35570919145766_3_alg».proof.Proof.Value2
import proofs.«408051_j35570919145766_3_alg».proof.Proof.Value3
import proofs.«408051_j35570919145766_3_alg».proof.Proof.Value4
import proofs.«408051_j35570919145766_3_alg».proof.Proof.RefStages
import proofs.«408051_j35570919145766_3_alg».proof.Proof.HostShared

set_option maxRecDepth 16384

noncomputable section

namespace Cert.Bridge

open Cert.KernelIdeal Cert.KernelIdeal.Gen Cert.KernelIdeal.Hand Cert.KernelIdeal.HandValue Cert.KernelIdeal.HostShared
open Idealize.ShloMosaic Idealize.ShloMosaic.TcCoe Idealize.SL.Sem Idealize.ShloMosaic.ValueIdx
open Cert.ReferenceIdeal.Read (val_main_v9 val_main_v26 val_main_v35 val_main_v36 val_main_v37 val_main_v44 val_main_v50
  val_main_v52 val_main_v57 val_main_v67)
open Cert.ReferenceIdeal.RefStages (unitRow_read hop1_read hop2_read encode_read logits_read)
open Cert.Spec (row)

variable (m : (ℓ : Loc nD τ sig) → Buf (Elt Ideal) ℓ) (outs : Gen.Outs (F := Ideal)) (c : Dev nD)

abbrev arg0 := m ((c : Thread nD τ).loc main_arg0)
abbrev arg1 := m ((c : Thread nD τ).loc main_arg1)
abbrev arg2 := m ((c : Thread nD τ).loc main_arg2)
abbrev arg3 := m ((c : Thread nD τ).loc main_arg3)
abbrev arg4 := m ((c : Thread nD τ).loc main_arg4)
abbrev arg5 := m ((c : Thread nD τ).loc main_arg5)

abbrev at4 : (c : Dev nD) → (b : Ref sig .tc) → Buf (Elt Ideal) ((c : Thread nD τ).loc b) := fun c b => Gen.V4 m c b
abbrev at5 : (c : Dev nD) → (b : Ref sig .tc) → Buf (Elt Ideal) ((c : Thread nD τ).loc b) := fun c b => Gen.V5 m outs c b
abbrev at6 : (c : Dev nD) → (b : Ref sig .tc) → Buf (Elt Ideal) ((c : Thread nD τ).loc b) := fun c b => Gen.V6 m outs c b
abbrev at7 : (c : Dev nD) → (b : Ref sig .tc) → Buf (Elt Ideal) ((c : Thread nD τ).loc b) := fun c b => Gen.V7 m outs c b
abbrev at13 : (c : Dev nD) → (b : Ref sig .tc) → Buf (Elt Ideal) ((c : Thread nD τ).loc b) := fun c b => Gen.V13 m outs c b

theorem V5_arg1 : Gen.V5 m outs c main_arg1 = (arg1 m c) := (V5_of m outs c main_arg1 (by decide)).trans (V4_main_arg1 m c)
theorem V6_arg1 : Gen.V6 m outs c main_arg1 = (arg1 m c) := (V6_of m outs c main_arg1 (by decide)).trans (V5_arg1 m outs c)
theorem V7_arg4 : Gen.V7 m outs c main_arg4 = (arg4 m c) :=
  (V7_of m outs c main_arg4 (by decide)).trans <| (V6_of m outs c main_arg4 (by decide)).trans <|
    (V5_of m outs c main_arg4 (by decide)).trans (V4_main_arg4 m c)
theorem V7_arg5 : Gen.V7 m outs c main_arg5 = (arg5 m c) :=
  (V7_of m outs c main_arg5 (by decide)).trans <| (V6_of m outs c main_arg5 (by decide)).trans <|
    (V5_of m outs c main_arg5 (by decide)).trans (V4_main_arg5 m c)
theorem V7_v26 : Gen.V7 m outs c main_v26 = Gen.V5 m outs c main_v26 :=
  (V7_of m outs c main_v26 (by decide)).trans (V6_of m outs c main_v26 (by decide))

theorem rows_eq (h5 : outs 5 main_v26 c = (dat0 (F := Ideal) (at4 m) c).arrAt 2 cfg0.N)
    (k : Fin 4) (b : Fin 512) (n : Fin 8192) :
    Gen.V5 m outs c main_v26 (ix2 (row k b) n) = val_main_v35 (F := Ideal) (arg0 m c) (arg2 m c) (arg3 m c) (ix3 k b n) := by
  have e : Gen.V5 m outs c main_v26 = outs 5 main_v26 c := by simp only [Gen.V5, Function.update_self]
  have hR : (fun (b : Fin 512) (n : Fin 8192) => at4 m c main_arg0 (ix2 b n)) = fun b n => (arg0 m c) (ix2 b n) := by
    funext b n; exact congrFun (V4_main_arg0 m c) _
  have hC : (fun (k : Fin 4) (n : Fin 8192) => at4 m c main_v25 (ix2 k n))
      = fun k n => val_main_v26 (F := Ideal) (arg2 m c) (arg3 m c) (ix2 k n) := by
    funext k n; exact congrFun (V4_main_v25 m c) _
  rw [e, h5, final0, unitRow_read, hR, hC]

theorem hop1_eq (h5 : outs 5 main_v26 c = (dat0 (F := Ideal) (at4 m) c).arrAt 2 cfg0.N)
    (h6 : outs 6 main_v27 c = (dat1 (F := Ideal) (at5 m outs) c).arrAt 2 cfg1.N)
    (k : Fin 4) (b : Fin 512) (n : Fin 8192) :
    Gen.V6 m outs c main_v27 (ix2 (row k b) n) = val_main_v36 (F := Ideal) (arg0 m c) (arg1 m c) (arg2 m c) (arg3 m c) (ix3 k b n) := by
  have e : Gen.V6 m outs c main_v27 = outs 6 main_v27 c := by simp only [Gen.V6, Function.update_self]
  have hX : (fun (k : Fin 4) (b : Fin 512) (j : Fin 8192) => at5 m outs c main_v26 (ix2 (row k b) j))
      = fun k b j => val_main_v35 (F := Ideal) (arg0 m c) (arg2 m c) (arg3 m c) (ix3 k b j) := by
    funext k b j; exact rows_eq m outs c h5 k b j
  have hA : (fun (j n : Fin 8192) => at5 m outs c main_arg1 (ix2 j n)) = fun j n => (arg1 m c) (ix2 j n) := by
    funext j n; exact congrFun (V5_arg1 m outs c) _
  rw [e, h6, final1, hop1_read, hX, hA]

theorem hop2_eq (h5 : outs 5 main_v26 c = (dat0 (F := Ideal) (at4 m) c).arrAt 2 cfg0.N)
    (h6 : outs 6 main_v27 c = (dat1 (F := Ideal) (at5 m outs) c).arrAt 2 cfg1.N)
    (h7 : outs 7 main_v28 c = (dat2 (F := Ideal) (at6 m outs) c).arrAt 2 cfg2.N)
    (k : Fin 4) (b : Fin 512) (n : Fin 8192) :
    Gen.V7 m outs c main_v28 (ix2 (row k b) n) = val_main_v37 (F := Ideal) (arg0 m c) (arg1 m c) (arg2 m c) (arg3 m c) (ix3 k b n) := by
  have e : Gen.V7 m outs c main_v28 = outs 7 main_v28 c := by simp only [Gen.V7, Function.update_self]
  have hX : (fun (k : Fin 4) (b : Fin 512) (j : Fin 8192) => at6 m outs c main_v27 (ix2 (row k b) j))
      = fun k b j => val_main_v36 (F := Ideal) (arg0 m c) (arg1 m c) (arg2 m c) (arg3 m c) (ix3 k b j) := by
    funext k b j; exact hop1_eq m outs c h5 h6 k b j
  have hA : (fun (j n : Fin 8192) => at6 m outs c main_arg1 (ix2 j n)) = fun j n => (arg1 m c) (ix2 j n) := by
    funext j n; exact congrFun (V6_arg1 m outs c) _
  rw [e, h7, final2, hop2_read, hX, hA]

theorem enc_eq (h5 : outs 5 main_v26 c = (dat0 (F := Ideal) (at4 m) c).arrAt 2 cfg0.N)
    (h6 : outs 6 main_v27 c = (dat1 (F := Ideal) (at5 m outs) c).arrAt 2 cfg1.N)
    (h7 : outs 7 main_v28 c = (dat2 (F := Ideal) (at6 m outs) c).arrAt 2 cfg2.N)
    (h8 : outs 8 main_v29 c = (dat3 (F := Ideal) (at7 m outs) c).arrAt 4 cfg3.N)
    (k : Fin 4) (b : Fin 512) (o : Fin 128) :
    outs 8 main_v29 c (ix2 (row k b) o) = val_main_v44 (F := Ideal) (arg0 m c) (arg1 m c) (arg2 m c) (arg3 m c) (arg4 m c) (arg5 m c) (ix3 k b o) := by
  have hT : (fun (k : Fin 4) (b : Fin 512) (j : Fin 8192) => at7 m outs c main_v28 (ix2 (row k b) j))
      = fun k b j => val_main_v37 (F := Ideal) (arg0 m c) (arg1 m c) (arg2 m c) (arg3 m c) (ix3 k b j) := by
    funext k b j; exact hop2_eq m outs c h5 h6 h7 k b j
  have hX : (fun (k : Fin 4) (b : Fin 512) (j : Fin 8192) => at7 m outs c main_v26 (ix2 (row k b) j))
      = fun k b j => val_main_v35 (F := Ideal) (arg0 m c) (arg2 m c) (arg3 m c) (ix3 k b j) := by
    funext k b j; exact (congrFun (V7_v26 m outs c) _).trans (rows_eq m outs c h5 k b j)
  have hW : (fun (o : Fin 128) (j : Fin 8192) => at7 m outs c main_arg4 (ix2 o j)) = fun o j => (arg4 m c) (ix2 o j) := by
    funext o j; exact congrFun (V7_arg4 m outs c) _
  have hB : (fun (o : Fin 128) => at7 m outs c main_arg5 (ix1 o)) = fun o => (arg5 m c) (ix1 o) := by
    funext o; exact congrFun (V7_arg5 m outs c) _
  rw [h8, final3, encode_read, hT, hX, hW, hB]

theorem hOf_read (X : (⟨S2048x128, .f32⟩ : BufTy).Contents (Elt Ideal)) (k : Fin 4) (b : Fin 512) (o : Fin 128) :
    hOf (F := Ideal) X (ix3 k b o) = X (ix2 (row k b) o) := by
  unfold hOf
  exact shapeCast_apply X _ (ix3 k b o) (ix2 (row k b) o) (by
    rw [Shape.rowMajor_val_two, Shape.rowMajor_val_three]
    show (k.val * 512 + b.val) * 128 + o.val = (k.val * 512 + b.val) * 128 + o.val
    rfl)

theorem enc_whole (h5 : outs 5 main_v26 c = (dat0 (F := Ideal) (at4 m) c).arrAt 2 cfg0.N)
    (h6 : outs 6 main_v27 c = (dat1 (F := Ideal) (at5 m outs) c).arrAt 2 cfg1.N)
    (h7 : outs 7 main_v28 c = (dat2 (F := Ideal) (at6 m outs) c).arrAt 2 cfg2.N)
    (h8 : outs 8 main_v29 c = (dat3 (F := Ideal) (at7 m outs) c).arrAt 4 cfg3.N) :
    hOf (F := Ideal) (outs 8 main_v29 c) = val_main_v44 (F := Ideal) (arg0 m c) (arg1 m c) (arg2 m c) (arg3 m c) (arg4 m c) (arg5 m c) := by
  funext i
  obtain ⟨k, b, o, rfl⟩ : ∃ (k : Fin 4) (b : Fin 512) (o : Fin 128), i = ix3 k b o := ⟨i 0, i 1, i 2, eq_ix3 i⟩
  rw [hOf_read, enc_eq m outs c h5 h6 h7 h8]

theorem latent_eq (h5 : outs 5 main_v26 c = (dat0 (F := Ideal) (at4 m) c).arrAt 2 cfg0.N)
    (h6 : outs 6 main_v27 c = (dat1 (F := Ideal) (at5 m outs) c).arrAt 2 cfg1.N)
    (h7 : outs 7 main_v28 c = (dat2 (F := Ideal) (at6 m outs) c).arrAt 2 cfg2.N)
    (h8 : outs 8 main_v29 c = (dat3 (F := Ideal) (at7 m outs) c).arrAt 4 cfg3.N)
    (k : Fin 4) (b : Fin 512) (d : Fin 64) :
    Gen.V13 m outs c main_v45 (ix2 (row k b) d) = val_main_v57 (F := Ideal) (arg0 m c) (arg1 m c) (arg2 m c) (arg3 m c) (arg4 m c) (arg5 m c) (ix3 k b d) := by
  rw [V13_main_v45_ref m outs c _ _ _ _ _ _ (enc_whole m outs c h5 h6 h7 h8), truncf_apply]
  exact shapeCast_apply _ _ (ix2 (row k b) d) (ix3 k b d) (by
    rw [Shape.rowMajor_val_two, Shape.rowMajor_val_three]
    show (k.val * 512 + b.val) * 64 + d.val = (k.val * 512 + b.val) * 64 + d.val
    rfl)

theorem items_eq (n : Fin 8192) (d : Fin 64) :
    Gen.V13 m outs c main_v46 (ix2 n d) = val_main_v9 (F := Ideal) (arg2 m c) (ix2 n d) := by
  rw [V13_main_v46 m outs c, truncf_apply]

theorem logits_eq (h5 : outs 5 main_v26 c = (dat0 (F := Ideal) (at4 m) c).arrAt 2 cfg0.N)
    (h6 : outs 6 main_v27 c = (dat1 (F := Ideal) (at5 m outs) c).arrAt 2 cfg1.N)
    (h7 : outs 7 main_v28 c = (dat2 (F := Ideal) (at6 m outs) c).arrAt 2 cfg2.N)
    (h8 : outs 8 main_v29 c = (dat3 (F := Ideal) (at7 m outs) c).arrAt 4 cfg3.N)
    (h14 : outs 14 main_v47 c = (dat4 (F := Ideal) (at13 m outs) c).arrAt 3 cfg4.N) :
    Gen.V14 m outs c main_v47 = val_main_v67 (F := Ideal) (arg0 m c) (arg1 m c) (arg2 m c) (arg3 m c) (arg4 m c) (arg5 m c) := by
  have e : Gen.V14 m outs c main_v47 = outs 14 main_v47 c := by simp only [Gen.V14, Function.update_self]
  have hZ : (fun (k : Fin 4) (b : Fin 512) (d : Fin 64) => at13 m outs c main_v45 (ix2 (row k b) d))
      = fun k b d => val_main_v57 (F := Ideal) (arg0 m c) (arg1 m c) (arg2 m c) (arg3 m c) (arg4 m c) (arg5 m c) (ix3 k b d) := by
    funext k b d; exact latent_eq m outs c h5 h6 h7 h8 k b d
  have hI : (fun (n : Fin 8192) (d : Fin 64) => at13 m outs c main_v46 (ix2 n d))
      = fun n d => val_main_v9 (F := Ideal) (arg2 m c) (ix2 n d) := by
    funext n d; exact items_eq m outs c n d
  have hC : (fun (k : Fin 4) (n : Fin 8192) => at13 m outs c main_v25 (ix2 k n))
      = fun k n => val_main_v26 (F := Ideal) (arg2 m c) (arg3 m c) (ix2 k n) := by
    funext k n; exact congrFun (V13_main_v25 m outs c) _
  rw [e, h14]
  funext j
  obtain ⟨b, n, rfl⟩ : ∃ (b : Fin 512) (n : Fin 8192), j = ix2 b n := ⟨j 0, j 1, eq_ix2 j⟩
  rw [final4, logits_read, hZ, hI, hC]

/-- Row k·512 + b of each matrix of 4·512 rows is the reference's row (k, b), so the three results are the reference's stage functions of the arguments. -/
theorem kernel_results (m : (ℓ : Loc nD τ sig) → Buf (Elt Ideal) ℓ) (outs : Gen.Outs (F := Ideal))
    (h5 : ∀ c, outs 5 main_v26 c = (dat0 (F := Ideal) (at4 m) c).arrAt 2 cfg0.N)
    (h6 : ∀ c, outs 6 main_v27 c = (dat1 (F := Ideal) (at5 m outs) c).arrAt 2 cfg1.N)
    (h7 : ∀ c, outs 7 main_v28 c = (dat2 (F := Ideal) (at6 m outs) c).arrAt 2 cfg2.N)
    (h8 : ∀ c, outs 8 main_v29 c = (dat3 (F := Ideal) (at7 m outs) c).arrAt 4 cfg3.N)
    (h14 : ∀ c, outs 14 main_v47 c = (dat4 (F := Ideal) (at13 m outs) c).arrAt 3 cfg4.N) (c : Dev nD) :
    Gen.V14 m outs c main_v47 = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ Gen.V14 m outs c main_v36 = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ Gen.V14 m outs c main_v38 = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ⟨logits_eq m outs c (h5 c) (h6 c) (h7 c) (h8 c) (h14 c),
   V14_main_v36_ref m outs c _ _ _ _ _ _ (enc_whole m outs c (h5 c) (h6 c) (h7 c) (h8 c)),
   V14_main_v38_ref m outs c _ _ _ _ _ _ (enc_whole m outs c (h5 c) (h6 c) (h7 c) (h8 c))⟩

end Cert.Bridge

end
-- ==== Proof.Algebraic.lean ====
import proofs.«408051_j35570919145766_3_alg».proof.Proof.Join
import proofs.«408051_j35570919145766_3_alg».proof.Proof.Launch
import proofs.«408051_j35570919145766_3_alg».proof.Proof.Bridge

noncomputable section

namespace Cert.Proof.Join

open Idealize.ShloMosaic Idealize.SL.Sem

/-- The five regions' outputs and the host operations between them are, stage by stage, the reference's functions of the arguments. -/
theorem algebraic : Cert.algebraic_KernelIdeal_ReferenceIdeal :=
  algebraic_of (fun m => Cert.KernelIdeal.Hand.outs (F := Ideal) m)
    (fun m ρ => Cert.KernelIdeal.Hand.run_all (F := Ideal) m ρ)
    (fun m c => Cert.Bridge.kernel_results m (Cert.KernelIdeal.Hand.outs (F := Ideal) m)
      (Cert.KernelIdeal.Hand.outs_at5 m) (Cert.KernelIdeal.Hand.outs_at6 m) (Cert.KernelIdeal.Hand.outs_at7 m)
      (Cert.KernelIdeal.Hand.outs_at8 m) (Cert.KernelIdeal.Hand.outs_at14 m) c)

end Cert.Proof.Join

end
-- ==== Proof.lean ====
import proofs.«408051_j35570919145766_3_alg».proof.Defs
import proofs.«408051_j35570919145766_3_alg».proof.Proof.Gen.Kernel
import proofs.«408051_j35570919145766_3_alg».proof.Proof.Gen.KernelIdeal
import proofs.«408051_j35570919145766_3_alg».proof.Proof.Gen.ReferenceIdeal
import proofs.«408051_j35570919145766_3_alg».proof.Proof.Gen.Pre_finite_inputs
import proofs.«408051_j35570919145766_3_alg».proof.Proof.Bits.Launch
import proofs.«408051_j35570919145766_3_alg».proof.Proof.Launch
import proofs.«408051_j35570919145766_3_alg».proof.Proof.RefRun
import proofs.«408051_j35570919145766_3_alg».proof.Proof.Algebraic
import Idealize.ShloMosaic.Adequacy
import Idealize.ShloMosaic.Init

noncomputable section

namespace Cert.Proof

open Idealize.ShloMosaic Idealize.SL.Sem

/-- Both programs run and leave their arguments; the clamp's word is the square of the norm clamp; and the two agree over the extended reals. -/
theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  fun m ρ _ => (θ_run Cert.ReferenceIdeal.defs _ _).mono (fun _ h c => (h c).2.2.2) (Cert.ReferenceIdeal.Value.run (F := Ideal) m ρ),
  IdealRules.named_const.statement Cert.KernelIdeal.κ "eps_sq" .f32 0x179ABE15#32
    ((5316911940649 / 5316911983139663491615228241121378304 : ℝ) : EReal) rfl,
  Cert.Proof.Join.algebraic⟩

end Cert.Proof

end
